-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S4096x1024 : Shape := ⟨2, ![4096, 1024]⟩
abbrev S2x3x2x256x1024 : Shape := ⟨5, ![2, 3, 2, 256, 1024]⟩
abbrev S2x6x2 : Shape := ⟨3, ![2, 6, 2]⟩
abbrev S_ : Shape := ⟨0, ![]⟩
abbrev S1024x1024 : Shape := ⟨2, ![1024, 1024]⟩
abbrev S1x1x1 : Shape := ⟨3, ![1, 1, 1]⟩
abbrev S1x1x1x256x1024 : Shape := ⟨5, ![1, 1, 1, 256, 1024]⟩
abbrev S256x1024 : Shape := ⟨2, ![256, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S4096x1024, .f32⟩
  | .local _ .vmem, ⟨1, _⟩ => ⟨S4096x1024, .bf16⟩
  | .local _ .vmem, ⟨2, _⟩ => ⟨S2x3x2x256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v13 : BitVec 32 := Scalar.muli v2 c1024_i32
  let v14 : Index := Scalar.indexCast v13
  let c0 : Index := 0#32
  ![v14.toNat, 0]
def k0_off2 (d0 : Dev nD) (c0_i32_13 : BitVec 32) (c0_i32_17 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_12 : BitVec 32 := 4#32
  let v21 : BitVec 32 := Scalar.addi v2 c4_i32_12
  let v22 : BitVec 32 := Scalar.subi v21 c0_i32_13
  let c4_i32_14 : BitVec 32 := 4#32
  let v23 : BitVec 32 := Scalar.remsi v22 c4_i32_14
  let c1024_i32_15 : BitVec 32 := 1024#32
  let v24 : BitVec 32 := Scalar.muli v23 c1024_i32_15
  let c0_i32_16 : BitVec 32 := 0#32
  let v25 : BitVec 32 := Scalar.addi v24 c0_i32_16
  let v26 : BitVec 32 := Scalar.addi v25 c0_i32_17
  let c0_i32_31 : BitVec 32 := 0#32
  ![v26.toNat, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_27 : BitVec 32 := 1#32
  let v27 : BitVec 32 := Scalar.muli v7 c1_i32_27
  let v28 : BitVec 32 := Scalar.addi c0_i32_28 v27
  v28.toNat
def k0_off3 (d0 : Dev nD) (c0_i32_32 : BitVec 32) (c0_i32_35 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v36 : BitVec 32 := Scalar.addi v2 c0_i32_32
  let c4_i32_33 : BitVec 32 := 4#32
  let v37 : BitVec 32 := Scalar.remsi v36 c4_i32_33
  let c1024_i32_34 : BitVec 32 := 1024#32
  let v38 : BitVec 32 := Scalar.muli v37 c1024_i32_34
  let c512_i32 : BitVec 32 := 512#32
  let v39 : BitVec 32 := Scalar.addi v38 c512_i32
  let v40 : BitVec 32 := Scalar.addi v39 c0_i32_35
  let c0_i32_49 : BitVec 32 := 0#32
  ![v40.toNat, 0]
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_45 : BitVec 32 := 1#32
  let v41 : BitVec 32 := Scalar.muli v5 c1_i32_45
  let v42 : BitVec 32 := Scalar.addi c0_i32_46 v41
  v42.toNat
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_64 : BitVec 32 := 1#32
  let v56 : BitVec 32 := Scalar.muli v7 c1_i32_64
  let v57 : BitVec 32 := Scalar.addi c0_i32_65 v56
  v57.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_83 : BitVec 32 := 1#32
  let v70 : BitVec 32 := Scalar.muli v5 c1_i32_83
  let v71 : BitVec 32 := Scalar.addi c0_i32_84 v70
  v71.toNat
def k0_off4 (d0 : Dev nD) (c1_i32_88 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v79 : BitVec 32 := Scalar.addi v2 c1_i32_88
  let c4_i32_89 : BitVec 32 := 4#32
  let v80 : BitVec 32 := Scalar.remsi v79 c4_i32_89
  let c1024_i32_90 : BitVec 32 := 1024#32
  let v81 : BitVec 32 := Scalar.muli v80 c1024_i32_90
  let v82 : Index := Scalar.indexCast v81
  let c0_91 : Index := 0#32
  ![v82.toNat, 0]
def k0_off5 (d0 : Dev nD) (c0_i32_124 : BitVec 32) (c0_i32_129 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_123 : BitVec 32 := 4#32
  let v117 : BitVec 32 := Scalar.addi v2 c4_i32_123
  let v118 : BitVec 32 := Scalar.subi v117 c0_i32_124
  let c1_i32_125 : BitVec 32 := 1#32
  let v119 : BitVec 32 := Scalar.subi v118 c1_i32_125
  let c4_i32_126 : BitVec 32 := 4#32
  let v120 : BitVec 32 := Scalar.remsi v119 c4_i32_126
  let c1024_i32_127 : BitVec 32 := 1024#32
  let v121 : BitVec 32 := Scalar.muli v120 c1024_i32_127
  let c0_i32_128 : BitVec 32 := 0#32
  let v122 : BitVec 32 := Scalar.addi v121 c0_i32_128
  let v123 : BitVec 32 := Scalar.addi v122 c0_i32_129
  let v124 : Index := Scalar.indexCast v123
  let c0_130 : Index := 0#32
  ![v124.toNat, 0]
def k0_dev7 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_152 : BitVec 32 := 1#32
  let v138 : BitVec 32 := Scalar.muli v7 c1_i32_152
  let v139 : BitVec 32 := Scalar.addi c0_i32_153 v138
  v139.toNat
def k0_off6 (d0 : Dev nD) (c0_i32_175 : BitVec 32) (c0_i32_180 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v155 : BitVec 32 := Scalar.addi v2 c0_i32_175
  let c1_i32_176 : BitVec 32 := 1#32
  let v156 : BitVec 32 := Scalar.addi v155 c1_i32_176
  let c4_i32_177 : BitVec 32 := 4#32
  let v157 : BitVec 32 := Scalar.remsi v156 c4_i32_177
  let c1024_i32_178 : BitVec 32 := 1024#32
  let v158 : BitVec 32 := Scalar.muli v157 c1024_i32_178
  let c512_i32_179 : BitVec 32 := 512#32
  let v159 : BitVec 32 := Scalar.addi v158 c512_i32_179
  let v160 : BitVec 32 := Scalar.addi v159 c0_i32_180
  let v161 : Index := Scalar.indexCast v160
  let c0_181 : Index := 0#32
  ![v161.toNat, 0]
def k0_dev8 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_201 : BitVec 32 := 1#32
  let v174 : BitVec 32 := Scalar.muli v5 c1_i32_201
  let v175 : BitVec 32 := Scalar.addi c0_i32_202 v174
  v175.toNat
def k0_dev9 (d0 : Dev nD) : Nat :=
  let c0_i32_254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_253 : BitVec 32 := 1#32
  let v212 : BitVec 32 := Scalar.muli v7 c1_i32_253
  let v213 : BitVec 32 := Scalar.addi c0_i32_254 v212
  v213.toNat
def k0_dev10 (d0 : Dev nD) : Nat :=
  let c0_i32_304 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_303 : BitVec 32 := 1#32
  let v248 : BitVec 32 := Scalar.muli v5 c1_i32_303
  let v249 : BitVec 32 := Scalar.addi c0_i32_304 v248
  v249.toNat
def k0_dev11 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_355 : BitVec 32 := 1#32
  let v286 : BitVec 32 := Scalar.muli v7 c1_i32_355
  let v287 : BitVec 32 := Scalar.addi c0_i32_356 v286
  v287.toNat
def k0_dev12 (d0 : Dev nD) : Nat :=
  let c0_i32_406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_405 : BitVec 32 := 1#32
  let v322 : BitVec 32 := Scalar.muli v5 c1_i32_405
  let v323 : BitVec 32 := Scalar.addi c0_i32_406 v322
  v323.toNat
def k0_dev13 (d0 : Dev nD) : Nat :=
  let c0_i32_458 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_457 : BitVec 32 := 1#32
  let v360 : BitVec 32 := Scalar.muli v7 c1_i32_457
  let v361 : BitVec 32 := Scalar.addi c0_i32_458 v360
  v361.toNat
def k0_dev14 (d0 : Dev nD) : Nat :=
  let c0_i32_508 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_507 : BitVec 32 := 1#32
  let v396 : BitVec 32 := Scalar.muli v5 c1_i32_507
  let v397 : BitVec 32 := Scalar.addi c0_i32_508 v396
  v397.toNat
def k0_off7 (d0 : Dev nD) (c0_i32_545 : BitVec 32) (c0_i32_549 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_543 : BitVec 32 := 1#32
  let v428 : BitVec 32 := Scalar.addi v2 c1_i32_543
  let c4_i32_544 : BitVec 32 := 4#32
  let v429 : BitVec 32 := Scalar.addi v428 c4_i32_544
  let v430 : BitVec 32 := Scalar.subi v429 c0_i32_545
  let c4_i32_546 : BitVec 32 := 4#32
  let v431 : BitVec 32 := Scalar.remsi v430 c4_i32_546
  let c1024_i32_547 : BitVec 32 := 1024#32
  let v432 : BitVec 32 := Scalar.muli v431 c1024_i32_547
  let c0_i32_548 : BitVec 32 := 0#32
  let v433 : BitVec 32 := Scalar.addi v432 c0_i32_548
  let v434 : BitVec 32 := Scalar.addi v433 c0_i32_549
  let c0_i32_558 : BitVec 32 := 0#32
  ![v434.toNat, 0]
def k0_dev15 (d0 : Dev nD) : Nat :=
  let c0_i32_557 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_556 : BitVec 32 := 1#32
  let v435 : BitVec 32 := Scalar.muli v7 c1_i32_556
  let v436 : BitVec 32 := Scalar.addi c0_i32_557 v435
  v436.toNat
def k0_off8 (d0 : Dev nD) (c0_i32_593 : BitVec 32) (c0_i32_597 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_591 : BitVec 32 := 4#32
  let v465 : BitVec 32 := Scalar.addi v2 c4_i32_591
  let c1_i32_592 : BitVec 32 := 1#32
  let v466 : BitVec 32 := Scalar.subi v465 c1_i32_592
  let v467 : BitVec 32 := Scalar.addi v466 c0_i32_593
  let c4_i32_594 : BitVec 32 := 4#32
  let v468 : BitVec 32 := Scalar.remsi v467 c4_i32_594
  let c1024_i32_595 : BitVec 32 := 1024#32
  let v469 : BitVec 32 := Scalar.muli v468 c1024_i32_595
  let c512_i32_596 : BitVec 32 := 512#32
  let v470 : BitVec 32 := Scalar.addi v469 c512_i32_596
  let v471 : BitVec 32 := Scalar.addi v470 c0_i32_597
  let c0_i32_606 : BitVec 32 := 0#32
  ![v471.toNat, 0]
def k0_dev16 (d0 : Dev nD) : Nat :=
  let c0_i32_605 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_604 : BitVec 32 := 1#32
  let v472 : BitVec 32 := Scalar.muli v5 c1_i32_604
  let v473 : BitVec 32 := Scalar.addi c0_i32_605 v472
  v473.toNat
def k0_dev17 (d0 : Dev nD) : Nat :=
  let c0_i32_654 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_653 : BitVec 32 := 1#32
  let v510 : BitVec 32 := Scalar.muli v7 c1_i32_653
  let v511 : BitVec 32 := Scalar.addi c0_i32_654 v510
  v511.toNat
def k0_dev18 (d0 : Dev nD) : Nat :=
  let c0_i32_702 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_701 : BitVec 32 := 1#32
  let v547 : BitVec 32 := Scalar.muli v5 c1_i32_701
  let v548 : BitVec 32 := Scalar.addi c0_i32_702 v547
  v548.toNat
def k0_dev19 (d0 : Dev nD) : Nat :=
  let c0_i32_735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_734 : BitVec 32 := 1#32
  let v574 : BitVec 32 := Scalar.muli v7 c1_i32_734
  let v575 : BitVec 32 := Scalar.addi c0_i32_735 v574
  v575.toNat
def k0_dev20 (d0 : Dev nD) : Nat :=
  let c0_i32_767 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_766 : BitVec 32 := 1#32
  let v600 : BitVec 32 := Scalar.muli v5 c1_i32_766
  let v601 : BitVec 32 := Scalar.addi c0_i32_767 v600
  v601.toNat
def k0_dev21 (d0 : Dev nD) : Nat :=
  let c0_i32_800 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_799 : BitVec 32 := 1#32
  let v627 : BitVec 32 := Scalar.muli v7 c1_i32_799
  let v628 : BitVec 32 := Scalar.addi c0_i32_800 v627
  v628.toNat
def k0_dev22 (d0 : Dev nD) : Nat :=
  let c0_i32_832 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_831 : BitVec 32 := 1#32
  let v653 : BitVec 32 := Scalar.muli v5 c1_i32_831
  let v654 : BitVec 32 := Scalar.addi c0_i32_832 v653
  v654.toNat
def k0_dev23 (d0 : Dev nD) : Nat :=
  let c0_i32_864 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_863 : BitVec 32 := 1#32
  let v680 : BitVec 32 := Scalar.muli v7 c1_i32_863
  let v681 : BitVec 32 := Scalar.addi c0_i32_864 v680
  v681.toNat
def k0_dev24 (d0 : Dev nD) : Nat :=
  let c0_i32_896 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_895 : BitVec 32 := 1#32
  let v706 : BitVec 32 := Scalar.muli v5 c1_i32_895
  let v707 : BitVec 32 := Scalar.addi c0_i32_896 v706
  v707.toNat
def k0_dev25 (d0 : Dev nD) : Nat :=
  let c0_i32_929 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_928 : BitVec 32 := 1#32
  let v733 : BitVec 32 := Scalar.muli v7 c1_i32_928
  let v734 : BitVec 32 := Scalar.addi c0_i32_929 v733
  v734.toNat
def k0_dev26 (d0 : Dev nD) : Nat :=
  let c0_i32_961 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_960 : BitVec 32 := 1#32
  let v759 : BitVec 32 := Scalar.muli v5 c1_i32_960
  let v760 : BitVec 32 := Scalar.addi c0_i32_961 v759
  v760.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  h_S1024x1024 : 0 < S1024x1024.numel
  shapeCasts_S1024x1024_S1024x1024 : S1024x1024.ShapeCasts S1024x1024
  bitsLt_bf16_f32 : FTy.bits .bf16 < FTy.bits .f32
  inb_S2x6x2_S1x1x1_0_0_0 : ∀ a, (![0, 0, 0] : Fin 3 → Nat) a + S1x1x1.size a ≤ S2x6x2.size a
  squeezes_S1x1x1_S_ : S1x1x1.Squeezes S_
  inb_S2x3x2x256x1024_S1x1x1x256x1024_0_0_0_0_0 : ∀ a, (![0, 0, 0, 0, 0] : Fin 5 → Nat) a + S1x1x1x256x1024.size a ≤ S2x3x2x256x1024.size a
  squeezes_S1x1x1x256x1024_S256x1024 : S1x1x1x256x1024.Squeezes S256x1024
  wordsbf16_S2x3x2x256x1024_S1x1x1x256x1024_0_0_0_0_0 : (Rect.unit (s := S2x3x2x256x1024) ![0, 0, 0, 0, 0] S1x1x1x256x1024.size inb_S2x3x2x256x1024_S1x1x1x256x1024_0_0_0_0_0).WholeWords (EltTy.packing .bf16)
  inb_S2x6x2_S1x1x1_1_0_0 : ∀ a, (![1, 0, 0] : Fin 3 → Nat) a + S1x1x1.size a ≤ S2x6x2.size a
  inb_S2x3x2x256x1024_S1x1x1x256x1024_1_0_0_0_0 : ∀ a, (![1, 0, 0, 0, 0] : Fin 5 → Nat) a + S1x1x1x256x1024.size a ≤ S2x3x2x256x1024.size a
  wordsbf16_S2x3x2x256x1024_S1x1x1x256x1024_1_0_0_0_0 : (Rect.unit (s := S2x3x2x256x1024) ![1, 0, 0, 0, 0] S1x1x1x256x1024.size inb_S2x3x2x256x1024_S1x1x1x256x1024_1_0_0_0_0).WholeWords (EltTy.packing .bf16)
  inb_S2x6x2_S1x1x1_0_0_1 : ∀ a, (![0, 0, 1] : Fin 3 → Nat) a + S1x1x1.size a ≤ S2x6x2.size a
  inb_S2x3x2x256x1024_S1x1x1x256x1024_0_0_1_0_0 : ∀ a, (![0, 0, 1, 0, 0] : Fin 5 → Nat) a + S1x1x1x256x1024.size a ≤ S2x3x2x256x1024.size a
  wordsbf16_S2x3x2x256x1024_S1x1x1x256x1024_0_0_1_0_0 : (Rect.unit (s := S2x3x2x256x1024) ![0, 0, 1, 0, 0] S1x1x1x256x1024.size inb_S2x3x2x256x1024_S1x1x1x256x1024_0_0_1_0_0).WholeWords (EltTy.packing .bf16)
  inb_S2x6x2_S1x1x1_1_0_1 : ∀ a, (![1, 0, 1] : Fin 3 → Nat) a + S1x1x1.size a ≤ S2x6x2.size a
  inb_S2x3x2x256x1024_S1x1x1x256x1024_1_0_1_0_0 : ∀ a, (![1, 0, 1, 0, 0] : Fin 5 → Nat) a + S1x1x1x256x1024.size a ≤ S2x3x2x256x1024.size a
  wordsbf16_S2x3x2x256x1024_S1x1x1x256x1024_1_0_1_0_0 : (Rect.unit (s := S2x3x2x256x1024) ![1, 0, 1, 0, 0] S1x1x1x256x1024.size inb_S2x3x2x256x1024_S1x1x1x256x1024_1_0_1_0_0).WholeWords (EltTy.packing .bf16)
  h_S256x1024 : 0 < S256x1024.numel
  shapeCasts_S256x1024_S256x1024 : S256x1024.ShapeCasts S256x1024
  h_S1x1x1x256x1024 : 0 < S1x1x1x256x1024.numel
  shapeCasts_S1x1x1x256x1024_S256x1024 : S1x1x1x256x1024.ShapeCasts S256x1024
  inb_S2x6x2_S1x1x1_0_1_0 : ∀ a, (![0, 1, 0] : Fin 3 → Nat) a + S1x1x1.size a ≤ S2x6x2.size a
  inb_S2x3x2x256x1024_S1x1x1x256x1024_0_1_0_0_0 : ∀ a, (![0, 1, 0, 0, 0] : Fin 5 → Nat) a + S1x1x1x256x1024.size a ≤ S2x3x2x256x1024.size a
  wordsbf16_S2x3x2x256x1024_S1x1x1x256x1024_0_1_0_0_0 : (Rect.unit (s := S2x3x2x256x1024) ![0, 1, 0, 0, 0] S1x1x1x256x1024.size inb_S2x3x2x256x1024_S1x1x1x256x1024_0_1_0_0_0).WholeWords (EltTy.packing .bf16)
  inb_S2x6x2_S1x1x1_1_1_0 : ∀ a, (![1, 1, 0] : Fin 3 → Nat) a + S1x1x1.size a ≤ S2x6x2.size a
  inb_S2x3x2x256x1024_S1x1x1x256x1024_1_1_0_0_0 : ∀ a, (![1, 1, 0, 0, 0] : Fin 5 → Nat) a + S1x1x1x256x1024.size a ≤ S2x3x2x256x1024.size a
  wordsbf16_S2x3x2x256x1024_S1x1x1x256x1024_1_1_0_0_0 : (Rect.unit (s := S2x3x2x256x1024) ![1, 1, 0, 0, 0] S1x1x1x256x1024.size inb_S2x3x2x256x1024_S1x1x1x256x1024_1_1_0_0_0).WholeWords (EltTy.packing .bf16)
  inb_S2x6x2_S1x1x1_0_1_1 : ∀ a, (![0, 1, 1] : Fin 3 → Nat) a + S1x1x1.size a ≤ S2x6x2.size a
  inb_S2x3x2x256x1024_S1x1x1x256x1024_0_1_1_0_0 : ∀ a, (![0, 1, 1, 0, 0] : Fin 5 → Nat) a + S1x1x1x256x1024.size a ≤ S2x3x2x256x1024.size a
  wordsbf16_S2x3x2x256x1024_S1x1x1x256x1024_0_1_1_0_0 : (Rect.unit (s := S2x3x2x256x1024) ![0, 1, 1, 0, 0] S1x1x1x256x1024.size inb_S2x3x2x256x1024_S1x1x1x256x1024_0_1_1_0_0).WholeWords (EltTy.packing .bf16)
  inb_S2x6x2_S1x1x1_1_1_1 : ∀ a, (![1, 1, 1] : Fin 3 → Nat) a + S1x1x1.size a ≤ S2x6x2.size a
  inb_S2x3x2x256x1024_S1x1x1x256x1024_1_1_1_0_0 : ∀ a, (![1, 1, 1, 0, 0] : Fin 5 → Nat) a + S1x1x1x256x1024.size a ≤ S2x3x2x256x1024.size a
  wordsbf16_S2x3x2x256x1024_S1x1x1x256x1024_1_1_1_0_0 : (Rect.unit (s := S2x3x2x256x1024) ![1, 1, 1, 0, 0] S1x1x1x256x1024.size inb_S2x3x2x256x1024_S1x1x1x256x1024_1_1_1_0_0).WholeWords (EltTy.packing .bf16)
  inb_S2x6x2_S1x1x1_0_2_0 : ∀ a, (![0, 2, 0] : Fin 3 → Nat) a + S1x1x1.size a ≤ S2x6x2.size a
  inb_S2x3x2x256x1024_S1x1x1x256x1024_0_2_0_0_0 : ∀ a, (![0, 2, 0, 0, 0] : Fin 5 → Nat) a + S1x1x1x256x1024.size a ≤ S2x3x2x256x1024.size a
  wordsbf16_S2x3x2x256x1024_S1x1x1x256x1024_0_2_0_0_0 : (Rect.unit (s := S2x3x2x256x1024) ![0, 2, 0, 0, 0] S1x1x1x256x1024.size inb_S2x3x2x256x1024_S1x1x1x256x1024_0_2_0_0_0).WholeWords (EltTy.packing .bf16)
  inb_S2x6x2_S1x1x1_1_2_0 : ∀ a, (![1, 2, 0] : Fin 3 → Nat) a + S1x1x1.size a ≤ S2x6x2.size a
  inb_S2x3x2x256x1024_S1x1x1x256x1024_1_2_0_0_0 : ∀ a, (![1, 2, 0, 0, 0] : Fin 5 → Nat) a + S1x1x1x256x1024.size a ≤ S2x3x2x256x1024.size a
  wordsbf16_S2x3x2x256x1024_S1x1x1x256x1024_1_2_0_0_0 : (Rect.unit (s := S2x3x2x256x1024) ![1, 2, 0, 0, 0] S1x1x1x256x1024.size inb_S2x3x2x256x1024_S1x1x1x256x1024_1_2_0_0_0).WholeWords (EltTy.packing .bf16)
  inb_S2x6x2_S1x1x1_0_2_1 : ∀ a, (![0, 2, 1] : Fin 3 → Nat) a + S1x1x1.size a ≤ S2x6x2.size a
  inb_S2x3x2x256x1024_S1x1x1x256x1024_0_2_1_0_0 : ∀ a, (![0, 2, 1, 0, 0] : Fin 5 → Nat) a + S1x1x1x256x1024.size a ≤ S2x3x2x256x1024.size a
  wordsbf16_S2x3x2x256x1024_S1x1x1x256x1024_0_2_1_0_0 : (Rect.unit (s := S2x3x2x256x1024) ![0, 2, 1, 0, 0] S1x1x1x256x1024.size inb_S2x3x2x256x1024_S1x1x1x256x1024_0_2_1_0_0).WholeWords (EltTy.packing .bf16)
  inb_S2x6x2_S1x1x1_1_2_1 : ∀ a, (![1, 2, 1] : Fin 3 → Nat) a + S1x1x1.size a ≤ S2x6x2.size a
  inb_S2x3x2x256x1024_S1x1x1x256x1024_1_2_1_0_0 : ∀ a, (![1, 2, 1, 0, 0] : Fin 5 → Nat) a + S1x1x1x256x1024.size a ≤ S2x3x2x256x1024.size a
  wordsbf16_S2x3x2x256x1024_S1x1x1x256x1024_1_2_1_0_0 : (Rect.unit (s := S2x3x2x256x1024) ![1, 2, 1, 0, 0] S1x1x1x256x1024.size inb_S2x3x2x256x1024_S1x1x1x256x1024_1_2_1_0_0).WholeWords (EltTy.packing .bf16)
  inb_S2x6x2_S1x1x1_0_3_0 : ∀ a, (![0, 3, 0] : Fin 3 → Nat) a + S1x1x1.size a ≤ S2x6x2.size a
  inb_S2x6x2_S1x1x1_1_3_0 : ∀ a, (![1, 3, 0] : Fin 3 → Nat) a + S1x1x1.size a ≤ S2x6x2.size a
  inb_S2x6x2_S1x1x1_0_3_1 : ∀ a, (![0, 3, 1] : Fin 3 → Nat) a + S1x1x1.size a ≤ S2x6x2.size a
  inb_S2x6x2_S1x1x1_1_3_1 : ∀ a, (![1, 3, 1] : Fin 3 → Nat) a + S1x1x1.size a ≤ S2x6x2.size a
  inb_S2x6x2_S1x1x1_0_4_0 : ∀ a, (![0, 4, 0] : Fin 3 → Nat) a + S1x1x1.size a ≤ S2x6x2.size a
  inb_S2x6x2_S1x1x1_1_4_0 : ∀ a, (![1, 4, 0] : Fin 3 → Nat) a + S1x1x1.size a ≤ S2x6x2.size a
  inb_S2x6x2_S1x1x1_0_4_1 : ∀ a, (![0, 4, 1] : Fin 3 → Nat) a + S1x1x1.size a ≤ S2x6x2.size a
  inb_S2x6x2_S1x1x1_1_4_1 : ∀ a, (![1, 4, 1] : Fin 3 → Nat) a + S1x1x1.size a ≤ S2x6x2.size a
  inb_S2x6x2_S1x1x1_0_5_0 : ∀ a, (![0, 5, 0] : Fin 3 → Nat) a + S1x1x1.size a ≤ S2x6x2.size a
  inb_S2x6x2_S1x1x1_1_5_0 : ∀ a, (![1, 5, 0] : Fin 3 → Nat) a + S1x1x1.size a ≤ S2x6x2.size a
  inb_S2x6x2_S1x1x1_0_5_1 : ∀ a, (![0, 5, 1] : Fin 3 → Nat) a + S1x1x1.size a ≤ S2x6x2.size a
  inb_S2x6x2_S1x1x1_1_5_1 : ∀ a, (![1, 5, 1] : Fin 3 → Nat) a + S1x1x1.size a ≤ S2x6x2.size a
  hcc0_scratch1 : 2 + S2x6x2.numel ≤ 50
  hcc0_scratch2 : 26 + S2x6x2.numel ≤ 50
  k0_dev1_lt : ∀ d0 : Dev nD, (k0_dev1 d0) < nD
  k0_dev2_lt : ∀ d0 : Dev nD, (k0_dev2 d0) < nD
  k0_off1_inb : ∀ d0 : Dev nD, ∀ a, (k0_off1 d0) a + S1024x1024.size a ≤ S4096x1024.size a
  k0_off1_packedbf16 : ∀ d0 : Dev nD, (Rect.unit (s := S4096x1024) (k0_off1 d0) S1024x1024.size (k0_off1_inb d0)).PackedRows (EltTy.packing .bf16)
  k0_off2_inb : ∀ d0 : Dev nD, ∀ (r₁ : Fin 3) (r₂ : Fin 2), ∀ a, (k0_off2 d0 (BitVec.ofNat 32 r₁.val) (BitVec.ofNat 32 (256 * r₂.val))) a + S256x1024.size a ≤ S4096x1024.size a
  k0_off2_wordsbf16 : ∀ d0 : Dev nD, ∀ (r₁ : Fin 3) (r₂ : Fin 2), (Rect.unit (s := S4096x1024) (k0_off2 d0 (BitVec.ofNat 32 r₁.val) (BitVec.ofNat 32 (256 * r₂.val))) S256x1024.size (k0_off2_inb d0 r₁ r₂)).WholeWords (EltTy.packing .bf16)
  k0_dev3_lt : ∀ d0 : Dev nD, (k0_dev3 d0) < nD
  k0_off3_inb : ∀ d0 : Dev nD, ∀ (r₁ : Fin 3) (r₂ : Fin 2), ∀ a, (k0_off3 d0 (BitVec.ofNat 32 r₁.val) (BitVec.ofNat 32 (256 * r₂.val))) a + S256x1024.size a ≤ S4096x1024.size a
  k0_off3_wordsbf16 : ∀ d0 : Dev nD, ∀ (r₁ : Fin 3) (r₂ : Fin 2), (Rect.unit (s := S4096x1024) (k0_off3 d0 (BitVec.ofNat 32 r₁.val) (BitVec.ofNat 32 (256 * r₂.val))) S256x1024.size (k0_off3_inb d0 r₁ r₂)).WholeWords (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off4_inb : ∀ d0 : Dev nD, ∀ (r : Fin 3), ∀ a, (k0_off4 d0 (BitVec.ofNat 32 (1 + r.val))) a + S1024x1024.size a ≤ S4096x1024.size a
  k0_off4_packedbf16 : ∀ d0 : Dev nD, ∀ (r : Fin 3), (Rect.unit (s := S4096x1024) (k0_off4 d0 (BitVec.ofNat 32 (1 + r.val))) S1024x1024.size (k0_off4_inb d0 r)).PackedRows (EltTy.packing .bf16)
  k0_off5_inb : ∀ d0 : Dev nD, ∀ (r₁ : Fin 3) (r₂ : Fin 2), ∀ a, (k0_off5 d0 (BitVec.ofNat 32 r₁.val) (BitVec.ofNat 32 (256 * r₂.val))) a + S256x1024.size a ≤ S4096x1024.size a
  k0_off5_packedbf16 : ∀ d0 : Dev nD, ∀ (r₁ : Fin 3) (r₂ : Fin 2), (Rect.unit (s := S4096x1024) (k0_off5 d0 (BitVec.ofNat 32 r₁.val) (BitVec.ofNat 32 (256 * r₂.val))) S256x1024.size (k0_off5_inb d0 r₁ r₂)).PackedRows (EltTy.packing .bf16)
  k0_dev7_lt : ∀ d0 : Dev nD, (k0_dev7 d0) < nD
  k0_off6_inb : ∀ d0 : Dev nD, ∀ (r₁ : Fin 3) (r₂ : Fin 2), ∀ a, (k0_off6 d0 (BitVec.ofNat 32 r₁.val) (BitVec.ofNat 32 (256 * r₂.val))) a + S256x1024.size a ≤ S4096x1024.size a
  k0_off6_packedbf16 : ∀ d0 : Dev nD, ∀ (r₁ : Fin 3) (r₂ : Fin 2), (Rect.unit (s := S4096x1024) (k0_off6 d0 (BitVec.ofNat 32 r₁.val) (BitVec.ofNat 32 (256 * r₂.val))) S256x1024.size (k0_off6_inb d0 r₁ r₂)).PackedRows (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off7_inb : ∀ d0 : Dev nD, ∀ (r₁ : Fin 3) (r₂ : Fin 2), ∀ a, (k0_off7 d0 (BitVec.ofNat 32 r₁.val) (BitVec.ofNat 32 (256 * r₂.val))) a + S256x1024.size a ≤ S4096x1024.size a
  k0_off7_wordsbf16 : ∀ d0 : Dev nD, ∀ (r₁ : Fin 3) (r₂ : Fin 2), (Rect.unit (s := S4096x1024) (k0_off7 d0 (BitVec.ofNat 32 r₁.val) (BitVec.ofNat 32 (256 * r₂.val))) S256x1024.size (k0_off7_inb d0 r₁ r₂)).WholeWords (EltTy.packing .bf16)
  k0_dev15_lt : ∀ d0 : Dev nD, (k0_dev15 d0) < nD
  k0_off8_inb : ∀ d0 : Dev nD, ∀ (r₁ : Fin 3) (r₂ : Fin 2), ∀ a, (k0_off8 d0 (BitVec.ofNat 32 r₁.val) (BitVec.ofNat 32 (256 * r₂.val))) a + S256x1024.size a ≤ S4096x1024.size a
  k0_off8_wordsbf16 : ∀ d0 : Dev nD, ∀ (r₁ : Fin 3) (r₂ : Fin 2), (Rect.unit (s := S4096x1024) (k0_off8 d0 (BitVec.ofNat 32 r₁.val) (BitVec.ofNat 32 (256 * r₂.val))) S256x1024.size (k0_off8_inb d0 r₁ r₂)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  hstage0_0 : ∀ j, (stage0_0 j).IsWhole
  hstage0_1 : ∀ j, (stage0_1 j).IsWhole

variable [Facts₀]

abbrev cc0_scratch1 : DmaSems sig S2x6x2 := SemArray.consecutive 2 S2x6x2 hcc0_scratch1
abbrev cc0_scratch2 : DmaSems sig S2x6x2 := SemArray.consecutive 26 S2x6x2 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x4096x1024 : Shape := ⟨3, ![4, 4096, 1024]⟩
abbrev S_ : Shape := ⟨0, ![]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4096x1024, .f32⟩
  | .hbm, ⟨2, _⟩ => ⟨S_, .f32⟩
  | .hbm, ⟨3, _⟩ => ⟨S4096x1024, .f32⟩
  | .hbm, ⟨4, _⟩ => ⟨S4096x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S16384x1024_S4x4096x1024 : S16384x1024.ShapeCasts S4x4096x1024
  reducesTo_S4x4096x1024_S4096x1024_d0 : S4x4096x1024.ReducesTo [0] S4096x1024
  h_S_ : 0 < S_.numel
  bitsLt_bf16_f32 : FTy.bits .bf16 < FTy.bits .f32

variable [Facts₀]

class Facts : Prop extends Facts₀ where

variable [Facts]
-- ==== Proof.KernelIdeal.Setup.lean ====
import proofs.«900116_g7700000000000117_dist_ar_v7x_i4_i_m4096_n1024_bf16_1_alg».proof.Defs
import proofs.«900116_g7700000000000117_dist_ar_v7x_i4_i_m4096_n1024_bf16_1_alg».proof.Proof.Gen.KernelIdeal
import proofs.«900116_g7700000000000117_dist_ar_v7x_i4_i_m4096_n1024_bf16_1_alg».proof.Proof.Gen.KernelIdeal.Skeleton
import proofs.«900116_g7700000000000117_dist_ar_v7x_i4_i_m4096_n1024_bf16_1_alg».proof.Proof.Gen.KernelIdeal.Launch
import proofs.«900116_g7700000000000117_dist_ar_v7x_i4_i_m4096_n1024_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Ring

open Cert.KernelIdeal.Gen
open Idealize.ShloMosaic
open Idealize.ShloMosaic.TcCoe
open Idealize.SL Idealize.SL.RA Idealize.SL.BI
open Idealize.SL.BI.BIBase Idealize.SL.Sem
open Idealize.ShloMosaic.Rounds
open Idealize.ShloMosaic.Pipeline (Dat)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

def nxt (c : Dev nD) : Dev nD := ⟨(c.val + 1) % 4, Nat.mod_lt _ (by decide)⟩
def prv (c : Dev nD) : Dev nD := ⟨(c.val + 3) % 4, Nat.mod_lt _ (by decide)⟩

def up (d : Fin 2) (c : Dev nD) : Dev nD := if d = 0 then prv c else nxt c
def dn (d : Fin 2) (c : Dev nD) : Dev nD := if d = 0 then nxt c else prv c

theorem prv_nxt (c : Dev nD) : prv (nxt c) = c := by revert c; decide
theorem nxt_prv (c : Dev nD) : nxt (prv c) = c := by revert c; decide
theorem up_dn (d : Fin 2) (c : Dev nD) : up d (dn d c) = c := by revert d c; decide
theorem dn_up (d : Fin 2) (c : Dev nD) : dn d (up d c) = c := by revert d c; decide
theorem up3_eq_dn (d : Fin 2) (c : Dev nD) : up d (up d (up d c)) = dn d c := by revert d c; decide

abbrev xM : Memref sig .tc .vmem S4096x1024 .f32 := Memref.whole cc0_stg0_0
abbrev oM : Memref sig .tc .vmem S4096x1024 .bf16 := Memref.whole cc0_stg1_0
abbrev sM : Memref sig .tc .vmem S2x3x2x256x1024 .bf16 := Memref.whole cc0_scratch0

abbrev OC : Type := (cc0_stg1_0 : Ref sig .tc).ty.Contents (Elt F)
abbrev SC : Type := (cc0_scratch0 : Ref sig .tc).ty.Contents (Elt F)
abbrev XC : Type := (cc0_stg0_0 : Ref sig .tc).ty.Contents (Elt F)

def pcOff (q : Dev nD) (d j : Fin 2) : Fin 2 → Nat := ![1024 * q.val + 512 * d.val + 256 * j.val, 0]

theorem pcOff_inb (q : Dev nD) (d j : Fin 2) : ∀ a, pcOff q d j a + S256x1024.size a ≤ S4096x1024.size a := by
  revert q d j; decide

def chOff (q : Dev nD) : Fin 2 → Nat := ![1024 * q.val, 0]
theorem chOff_inb (q : Dev nD) : ∀ a, chOff q a + S1024x1024.size a ≤ S4096x1024.size a := by revert q; decide

abbrev outPc (q : Dev nD) (d j : Fin 2) : Memref sig .tc .vmem S256x1024 .bf16 :=
  oM.slice (Rect.unit (s := S4096x1024) (pcOff q d j) S256x1024.size (pcOff_inb q d j)) (fun _ => rfl)

def stgI (d h j : Nat) : Fin 5 → Nat := ![d, h, j, 0, 0]

abbrev stgPc (i : Fin 5 → Nat) (hi : ∀ a, i a + S1x1x1x256x1024.size a ≤ S2x3x2x256x1024.size a) : Memref sig .tc .vmem S256x1024 .bf16 :=
  (sM.slice (Rect.unit (s := S2x3x2x256x1024) i S1x1x1x256x1024.size hi) (fun _ => rfl)).squeeze S256x1024 squeezes_S1x1x1x256x1024_S256x1024

abbrev barS : Sem sig := (SemArray.scalar (sig.barrier 0 rfl) : Sems sig S_).sem

def sendSem (k : Fin 24) : DmaSem sig := ⟨2 + k.val, by have := k.isLt; show 2 + k.val < 50; omega⟩
def recvSem (k : Fin 24) : DmaSem sig := ⟨26 + k.val, by have := k.isLt; show 26 + k.val < 50; omega⟩

def kIdx (d : Fin 2) (h : Fin 6) (j : Fin 2) : Fin 24 := ⟨12 * d.val + 2 * h.val + j.val, by have := d.isLt; have := h.isLt; have := j.isLt; omega⟩

abbrev barCell (c : Dev nD) : GSem nD τ sig := ((c : Thread nD τ), .reg barS)
abbrev sendCell (c : Dev nD) (k : Fin 24) : GSem nD τ sig := ((c : Thread nD τ), .dma (sendSem k))
abbrev recvCell (c : Dev nD) (k : Fin 24) : GSem nD τ sig := ((c : Thread nD τ), .dma (recvSem k))

abbrev N : ℕ := (outPc (0 : Dev nD) 0 0).view.dmaCredit

def xs (e : Dev nD) : XC (F := F) :=
  (win0_0.blk (0 : Fin 1)).view.read (Elt F) ((s₀ m ρ).mem ((e : Thread nD τ).loc main_arg0))

def X (e : Dev nD) : OC (F := F) := truncf .bf16 (xs m ρ e) bitsLt_bf16_f32

abbrev pcRect (q : Dev nD) (d j : Fin 2) : Rect S4096x1024 := Rect.unit (s := S4096x1024) (pcOff q d j) S256x1024.size (pcOff_inb q d j)
abbrev chRect (q : Dev nD) : Rect S4096x1024 := Rect.unit (s := S4096x1024) (chOff q) S1024x1024.size (chOff_inb q)

theorem stgI_inb (d j : Fin 2) (h : Fin 3) : ∀ a, stgI d.val h.val j.val a + S1x1x1x256x1024.size a ≤ S2x3x2x256x1024.size a := by
  revert d j h; decide

abbrev stgRect (d j : Fin 2) (h : Fin 3) : Rect S2x3x2x256x1024 :=
  Rect.unit (s := S2x3x2x256x1024) (stgI d.val h.val j.val) S1x1x1x256x1024.size (stgI_inb d j h)

abbrev slot (d j : Fin 2) (h : Fin 3) : Memref sig .tc .vmem S256x1024 .bf16 := stgPc (stgI d.val h.val j.val) (stgI_inb d j h)

def sBase : SC (F := F) := fun _ => Classical.arbitrary _

section Lane
variable (d j : Fin 2)

def landIn (h : Fin 3) (q : Dev nD) (src : OC (F := F)) : SC (F := F) :=
  (slot d j h).view.write (Elt F) sBase ((outPc q d j).view.read (Elt F) src) Finset.univ

def accOn (h : Fin 3) (q : Dev nD) (f : OC (F := F)) (s : SC (F := F)) : OC (F := F) :=
  ((oM.access (pcRect q d j)) : View sig .tc _ _ _).write (Elt F) f
    (k0_pay5 (oM.view.readAt (Elt F) (pcRect q d j).toLoadRect f) (sM.view.readAt (Elt F) (stgRect d j h).toLoadRect s)) Finset.univ

def S0 (e : Dev nD) : SC (F := F) := landIn d j 0 (up d e) (X m ρ (up d e))
def A0 (e : Dev nD) : OC (F := F) := accOn d j 0 (up d e) (X m ρ e) (S0 m ρ d j e)
def S1 (e : Dev nD) : SC (F := F) := landIn d j 1 (up d (up d e)) (A0 m ρ d j (up d e))
def A1 (e : Dev nD) : OC (F := F) := accOn d j 1 (up d (up d e)) (X m ρ e) (S1 m ρ d j e)
def S2 (e : Dev nD) : SC (F := F) := landIn d j 2 (up d (up d (up d e))) (A1 m ρ d j (up d e))
def A2 (e : Dev nD) : OC (F := F) := accOn d j 2 (up d (up d (up d e))) (X m ρ e) (S2 m ρ d j e)

end Lane

def outAt : OC (F := F) := fun i =>
  A2 m ρ ⟨((i 0).val % 1024) / 512, by omega⟩ ⟨((i 0).val % 512) / 256, by omega⟩
    (up ⟨((i 0).val % 1024) / 512, by omega⟩ ⟨(i 0).val / 1024, by have := (i 0).isLt; show (i 0).val / 1024 < 4; have : (i 0).val < 4096 := (i 0).isLt; omega⟩) i

def outPt (e q : Dev nD) (d j : Fin 2) (f : OC (F := F)) : sProp 𝕄 :=
  (outPc q d j).view.loc (e : Thread nD τ) ↦[(outPc q d j).view.set]{fullShare} f

def slotPt (e : Dev nD) (d j : Fin 2) (h : Fin 3) (f : SC (F := F)) : sProp 𝕄 :=
  (slot d j h).view.loc (e : Thread nD τ) ↦[(slot d j h).view.set]{fullShare} f

def outAny (e q : Dev nD) (d j : Fin 2) : sProp 𝕄 := iprop(∃ f, outPt (F := F) e q d j f)
def slotAny (e : Dev nD) (d j : Fin 2) (h : Fin 3) : sProp 𝕄 := iprop(∃ f, slotPt (F := F) e d j h f)

def slots6 (e : Dev nD) (d : Fin 2) : sProp 𝕄 :=
  iprop(slotAny (F := F) e d 0 0 ∗ slotAny (F := F) e d 1 0 ∗ slotAny (F := F) e d 0 1 ∗ slotAny (F := F) e d 1 1 ∗ slotAny (F := F) e d 0 2 ∗ slotAny (F := F) e d 1 2)

def barPay (c : Dev nD) (b : Bool) : sProp 𝕄 := if b then slots6 (F := F) (nxt c) 0 else slots6 (F := F) (prv c) 1

def recvPay (c : Dev nD) (d j : Fin 2) (h : ℕ) : sProp 𝕄 :=
  match h with
  | 0 => iprop(slotPt c d j 0 (S0 m ρ d j c) ∗ outAny (F := F) (up d c) (up d c) d j)
  | 1 => iprop(slotPt c d j 1 (S1 m ρ d j c) ∗ outAny (F := F) (up d c) (up d (up d c)) d j ∗ outAny (F := F) (up d (up d c)) (up d (up d c)) d j)
  | 2 => iprop(slotPt c d j 2 (S2 m ρ d j c) ∗ outAny (F := F) (up d c) (up d (up d (up d c))) d j
        ∗ outAny (F := F) (up d (up d c)) (up d (up d (up d c))) d j ∗ outAny (F := F) (up d (up d (up d c))) (up d (up d (up d c))) d j)
  | 3 => iprop(outPt c c d j (A2 m ρ d j (up d c)) ∗ outAny (F := F) (dn d c) c d j ∗ outAny (F := F) (dn d (dn d c)) c d j)
  | 4 => iprop(outPt c (up d c) d j (A2 m ρ d j (up d (up d c))) ∗ outAny (F := F) (dn d c) (up d c) d j)
  | 5 => outPt c (up d (up d c)) d j (A2 m ρ d j (up d (up d (up d c))))
  | _ => iprop(emp)

def sendPay (c : Dev nD) (d j : Fin 2) (h : ℕ) : sProp 𝕄 :=
  match h with
  | 3 => outPt c (up d (up d (up d c))) d j (A2 m ρ d j c)
  | 4 => outPt c c d j (A2 m ρ d j (up d c))
  | 5 => outPt c (up d c) d j (A2 m ρ d j (up d (up d c)))
  | _ => iprop(emp)

def kD (k : ℕ) : Fin 2 := ⟨k / 12 % 2, Nat.mod_lt _ (by decide)⟩
def kH (k : ℕ) : ℕ := k % 12 / 2
def kJ (k : ℕ) : Fin 2 := ⟨k % 2, Nat.mod_lt _ (by decide)⟩

def ringRd : Rounds.Schedule (GSem nD τ sig) Bool 𝕄 where
  duties g r :=
    if r = 0 ∧ g.1.2 = .tc then
      (match g.2 with
        | .reg _ => Finset.univ
        | .dma q => if 2 ≤ q.val then {false} else ∅)
    else ∅
  unitless _ := False
  amount g _ _ := match g.2 with | .reg _ => 1 | .dma _ => N
  payload g _ b :=
    match g.2 with
    | .reg _ => barPay g.1.1 b
    | .dma q => if 26 ≤ q.val then recvPay m ρ g.1.1 (kD (q.val - 26)) (kJ (q.val - 26)) (kH (q.val - 26))
                else if 2 ≤ q.val then sendPay m ρ g.1.1 (kD (q.val - 2)) (kJ (q.val - 2)) (kH (q.val - 2)) else iprop(emp)
  amount_pos g _ _ _ := by
    cases g.2 with
    | reg _ => exact Nat.one_pos
    | dma _ => exact View.dmaCredit_pos _ (by decide)

def sendTally (c : Dev nD) (n : ℕ) : CellTallies nD τ sig Unit :=
  tallyAt (recvCell (dn ⟨n % 2, Nat.mod_lt _ (by decide)⟩ c) (kIdx ⟨n % 2, Nat.mod_lt _ (by decide)⟩ ⟨n / 4 % 6, Nat.mod_lt _ (by decide)⟩ ⟨n / 2 % 2, Nat.mod_lt _ (by decide)⟩)) () N

def payL (c : Dev nD) : List (CellTallies nD τ sig Unit) :=
  tallyAt (barCell (prv c)) () 1 :: tallyAt (barCell (nxt c)) () 1 :: (List.range 24).map (sendTally c)

def owedAfter (c : Dev nD) (n : ℕ) : CellTallies nD τ sig Unit := ((payL c).drop n).foldr (fun t acc => acc + t) 0

def O₀ (c : Dev nD) : CellTallies nD τ sig Unit := owedAfter c 0

def L (g : GSem nD τ sig) : Finset Unit := if g.1.2 = .tc then {()} else ∅

def lv (g : GSem nD τ sig) (_ : Unit) : ℕ :=
  match g.2 with
  | .reg _ => 1
  | .dma q => if 26 ≤ q.val then 2 + (4 * kH (q.val - 26) + 2 * (kJ (q.val - 26)).val + (kD (q.val - 26)).val) else 0

theorem L_of_ne (g : GSem nD τ sig) (h : g.1.2 ≠ .tc) : L g = ∅ := if_neg h
theorem L_tc (c : Dev nD) (sm : SemLoc sig) : L ((c : Thread nD τ), sm) = {()} := if_pos rfl

abbrev CellIx : Type := Option (Bool × Fin 24)

def csem : CellIx → SemLoc sig
  | none => .reg barS
  | some (false, k) => .dma (sendSem k)
  | some (true, k) => .dma (recvSem k)

abbrev kcell (ei : Dev nD × CellIx) : GSem nD τ sig := ((ei.1 : Thread nD τ), csem ei.2)

abbrev osem : Bool × Fin 24 → SemLoc sig := fun bk => csem (some bk)

def records (K : Dev nD × CellIx → ℕ) : sProp 𝕄 :=
  iprop((bigSep Finset.univ fun ei : Dev nD × CellIx => cellInv ER (ringRd m ρ) (K ei) (kcell ei))
    ∗ bigSep Finset.univ fun ei : Dev nD × CellIx => reached ER (kcell ei) 0)

instance records_persistent (K : Dev nD × CellIx → ℕ) : BI.Persistent (records m ρ K) := by unfold records; infer_instance

def linear (c : Dev nD) : sProp 𝕄 :=
  iprop((bigSep Finset.univ fun i : CellIx => atPos ER (kcell (c, i)) 0 ∅ 0)
    ∗ dutyTok ER (barCell (prv c)) 0 true ∗ dutyTok ER (barCell (nxt c)) 0 false
    ∗ (bigSep Finset.univ fun k : Fin 24 => iprop(dutyTok ER (sendCell c k) 0 false ∗ dutyTok ER (recvCell (dn (kD k.val) c) k) 0 false)))

def ghost (K : Dev nD × CellIx → ℕ) (c : Dev nD) : sProp 𝕄 := iprop(records m ρ K ∗ linear (F := F) c)

def start (c : Dev nD) : sProp 𝕄 :=
  iprop((∃ K, ghost m ρ K c) ∗ cred (tallyAt (barCell c) () 2) ∗ (bigSep Finset.univ fun k : Fin 24 => cred (tallyAt (recvCell c k) () N)) ∗ levAts L lv)

def Φ₀ (c : Dev nD) : sProp 𝕄 :=
  iprop(start m ρ c ∗ ∃ f : Buf (Elt F) ((c : Thread nD τ).loc cc0_scratch0), ((c : Thread nD τ).loc cc0_scratch0) ↦{fullShare} f)
def Φ₁ (c : Dev nD) : sProp 𝕄 :=
  iprop((∃ f : Buf (Elt F) ((c : Thread nD τ).loc cc0_scratch0), ((c : Thread nD τ).loc cc0_scratch0) ↦{fullShare} f)
    ∗ bigSep Finset.univ fun bk : Bool × Fin 24 => semVal ((c : Thread nD τ), osem bk) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outAt m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

abbrev stg (c : Dev nD) (b : Ref sig .tc) (Xc : b.ty.Contents (Elt F)) : sProp 𝕄 :=
  iprop(∃ f : Buf (Elt F) (((c : Dev nD) : Thread nD τ).loc b), ⌜f = Xc⌝ ∗ (((c : Thread nD τ).loc b) ↦{fullShare} f))

def bodyPre (K : Dev nD × CellIx → ℕ) (c : Dev nD) : sProp 𝕄 :=
  iprop((ghost m ρ K c ∗ cred (tallyAt (barCell c) () 2) ∗ (bigSep Finset.univ fun k : Fin 24 => cred (tallyAt (recvCell c k) () N)) ∗ levAts L lv
      ∗ ∃ f : Buf (Elt F) ((c : Thread nD τ).loc cc0_scratch0), ((c : Thread nD τ).loc cc0_scratch0) ↦{fullShare} f)
    ∗ (dats m ρ 0 c).owesAt () t0_0.castSucc
    ∗ stg c cc0_stg0_0 (xs m ρ c)
    ∗ (∃ f : Buf (Elt F) ((c : Thread nD τ).loc cc0_stg1_0), ((c : Thread nD τ).loc cc0_stg1_0) ↦{fullShare} f))

def bodyPost (c : Dev nD) : sProp 𝕄 :=
  iprop(Φ₁ (F := F) c ∗ (dats m ρ 0 c).owesAt () t0_0.succ ∗ stg c cc0_stg0_0 (xs m ρ c) ∗ stg c cc0_stg1_0 (outAt m ρ))

abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) cc0_scratch1 cc0_scratch2

end Cert.KernelIdeal.Ring

end
-- ==== Proof.KernelIdeal.Tables.lean ====
import proofs.«900116_g7700000000000117_dist_ar_v7x_i4_i_m4096_n1024_bf16_1_alg».proof.Proof.KernelIdeal.Setup

noncomputable section

namespace Cert.KernelIdeal.Ring

open Idealize.ShloMosaic
open Idealize.ShloMosaic.TcCoe
open Idealize.SL Idealize.SL.RA Idealize.SL.BI
open Idealize.SL.BI.BIBase
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem kD_kIdx (d : Fin 2) (h : Fin 6) (j : Fin 2) : kD (kIdx d h j).val = d := by revert d h j; decide
theorem kH_kIdx (d : Fin 2) (h : Fin 6) (j : Fin 2) : kH (kIdx d h j).val = h.val := by revert d h j; decide
theorem kJ_kIdx (d : Fin 2) (h : Fin 6) (j : Fin 2) : kJ (kIdx d h j).val = j := by revert d h j; decide

instance ringRd_payload_storable (g : GSem nD τ sig) (r : ℕ) (b : Bool) :
    BI.Storable (upEmb : UEmb _ 𝕄) ((ringRd m ρ).payload g r b) := by
  dsimp only [ringRd]; unfold barPay recvPay sendPay slots6 slotAny outAny outPt slotPt
  (repeat' split) <;> infer_instance

theorem bigSep_bool (Φ : Bool → sProp 𝕄) : bigSep Finset.univ Φ = iprop(Φ false ∗ Φ true) :=
  bigSep_univ_eq_bigSepL [false, true] (by decide) (by decide) Φ

theorem bigSep_option {α : Type} [Fintype α] [DecidableEq α] (Φ : Option α → sProp 𝕄) :
    bigSep Finset.univ Φ = iprop(Φ none ∗ bigSep Finset.univ fun a => Φ (some a)) := by
  rw [bigSep_univ_at Φ none]
  have h : (Finset.univ.erase none : Finset (Option α)) = Finset.univ.map Function.Embedding.some := by
    ext x; cases x <;> simp
  rw [h, bigSep_map]; rfl

section Sched
variable (c : Dev nD)

theorem sendSem_val (k : Fin 24) : (sendSem k).val = 2 + k.val := rfl
theorem recvSem_val (k : Fin 24) : (recvSem k).val = 26 + k.val := rfl

theorem duties_bar : (ringRd m ρ).duties (barCell c) 0 = Finset.univ := by dsimp only [ringRd]; exact if_pos ⟨rfl, rfl⟩
theorem duties_send (k : Fin 24) : (ringRd m ρ).duties (sendCell c k) 0 = {false} := by
  dsimp only [ringRd]; rw [if_pos ⟨rfl, rfl⟩]; exact if_pos (by rw [sendSem_val]; omega)
theorem duties_recv (k : Fin 24) : (ringRd m ρ).duties (recvCell c k) 0 = {false} := by
  dsimp only [ringRd]; rw [if_pos ⟨rfl, rfl⟩]; exact if_pos (by rw [recvSem_val]; omega)
theorem duties_later (g : GSem nD τ sig) : ∀ r, 1 ≤ r → (ringRd m ρ).duties g r = ∅ :=
  fun r hr => by dsimp only [ringRd]; rw [if_neg fun h => by omega]

theorem amount_bar (b : Bool) : (ringRd m ρ).amount (barCell c) 0 b = 1 := rfl
theorem amount_send (k : Fin 24) (b : Bool) : (ringRd m ρ).amount (sendCell c k) 0 b = N := rfl
theorem amount_recv (k : Fin 24) (b : Bool) : (ringRd m ρ).amount (recvCell c k) 0 b = N := rfl

theorem expect_bar : (ringRd m ρ).expect (barCell c) 0 = 2 := by
  unfold Schedule.expect Schedule.amountOf
  rw [duties_bar, Finset.sum_congr rfl fun b _ => amount_bar m ρ c b, Finset.sum_const, Finset.card_univ, Fintype.card_bool, smul_eq_mul]
theorem expect_send (k : Fin 24) : (ringRd m ρ).expect (sendCell c k) 0 = N := by
  unfold Schedule.expect Schedule.amountOf; rw [duties_send, Finset.sum_singleton, amount_send]
theorem expect_recv (k : Fin 24) : (ringRd m ρ).expect (recvCell c k) 0 = N := by
  unfold Schedule.expect Schedule.amountOf; rw [duties_recv, Finset.sum_singleton, amount_recv]

theorem payload_bar (b : Bool) : (ringRd m ρ).payload (barCell c) 0 b = barPay c b := rfl
theorem payload_send (d : Fin 2) (h : Fin 6) (j : Fin 2) (b : Bool) :
    (ringRd m ρ).payload (sendCell c (kIdx d h j)) 0 b = sendPay m ρ c d j h.val := by
  have hk := (kIdx d h j).isLt
  dsimp only [ringRd]
  rw [sendSem_val, if_neg (by omega), if_pos (by omega), Nat.add_sub_cancel_left, kD_kIdx, kJ_kIdx, kH_kIdx]
theorem payload_recv (d : Fin 2) (h : Fin 6) (j : Fin 2) (b : Bool) :
    (ringRd m ρ).payload (recvCell c (kIdx d h j)) 0 b = recvPay m ρ c d j h.val := by
  dsimp only [ringRd]
  rw [recvSem_val, if_pos (by omega), Nat.add_sub_cancel_left, kD_kIdx, kJ_kIdx, kH_kIdx]

theorem rest_bar : bigSep ((ringRd m ρ).duties (barCell c) 0 \ ∅) (fun b => (ringRd m ρ).payload (barCell c) 0 b)
    = iprop(barPay c false ∗ barPay c true) := by
  rw [Finset.sdiff_empty, duties_bar, bigSep_bool, payload_bar, payload_bar]
theorem rest_send (d : Fin 2) (h : Fin 6) (j : Fin 2) :
    bigSep ((ringRd m ρ).duties (sendCell c (kIdx d h j)) 0 \ ∅) (fun b => (ringRd m ρ).payload (sendCell c (kIdx d h j)) 0 b)
      = sendPay m ρ c d j h.val := by
  rw [Finset.sdiff_empty, duties_send, bigSep_singleton, payload_send]
theorem rest_recv (d : Fin 2) (h : Fin 6) (j : Fin 2) :
    bigSep ((ringRd m ρ).duties (recvCell c (kIdx d h j)) 0 \ ∅) (fun b => (ringRd m ρ).payload (recvCell c (kIdx d h j)) 0 b)
      = recvPay m ρ c d j h.val := by
  rw [Finset.sdiff_empty, duties_recv, bigSep_singleton, payload_recv]

end Sched

theorem payL_length (c : Dev nD) : (payL c).length = 26 := rfl

theorem owedAfter_succ (c : Dev nD) (n : ℕ) (hn : n < (payL c).length) : owedAfter c n = owedAfter c (n + 1) + (payL c)[n] := by
  unfold owedAfter
  rw [List.drop_eq_getElem_cons hn, List.foldr_cons]

theorem payL_get (c : Dev nD) (n : ℕ) (hn : n + 2 < (payL c).length) : (payL c)[n + 2] = sendTally c n := by
  simp only [payL, List.getElem_cons_succ, List.getElem_map, List.getElem_range]

theorem sendTally_eq (c : Dev nD) (d : Fin 2) (h : Fin 6) (j : Fin 2) :
    sendTally c (4 * h.val + 2 * j.val + d.val) = tallyAt (recvCell (dn d c) (kIdx d h j)) () N := by
  have e : ∀ (d : Fin 2) (h : Fin 6) (j : Fin 2),
      ((⟨(4 * h.val + 2 * j.val + d.val) % 2, Nat.mod_lt _ (by decide)⟩ : Fin 2) = d) ∧
      ((⟨(4 * h.val + 2 * j.val + d.val) / 4 % 6, Nat.mod_lt _ (by decide)⟩ : Fin 6) = h) ∧
      ((⟨(4 * h.val + 2 * j.val + d.val) / 2 % 2, Nat.mod_lt _ (by decide)⟩ : Fin 2) = j) := by decide
  obtain ⟨e1, e2, e3⟩ := e d h j
  unfold sendTally
  rw [e1, e2, e3]

theorem owedAfter_bar0 (c : Dev nD) : owedAfter c 0 = owedAfter c 1 + tallyAt (barCell (prv c)) () 1 := rfl
theorem owedAfter_bar1 (c : Dev nD) : owedAfter c 1 = owedAfter c 2 + tallyAt (barCell (nxt c)) () 1 := rfl

theorem owedAfter_send (c : Dev nD) (d : Fin 2) (h : Fin 6) (j : Fin 2) :
    owedAfter c (2 + (4 * h.val + 2 * j.val + d.val))
      = owedAfter c (3 + (4 * h.val + 2 * j.val + d.val)) + tallyAt (recvCell (dn d c) (kIdx d h j)) () N := by
  rw [← sendTally_eq]
  have hn : 4 * h.val + 2 * j.val + d.val < 24 := by omega
  generalize 4 * h.val + 2 * j.val + d.val = n at hn ⊢
  rw [Nat.add_comm 2, Nat.add_comm 3, owedAfter_succ c _ (by rw [payL_length]; omega), payL_get]

theorem owedAfter_end (c : Dev nD) : owedAfter c 26 = 0 := rfl

theorem tallyAt_pos {g₀ g : GSem nD τ sig} {k : ℕ} {u : Unit} (h : 0 < tallyAt g₀ () k g u) : g = g₀ := by
  rw [tallyAt_apply] at h
  by_contra hn
  rw [if_neg (fun h' => hn h'.1)] at h
  exact Nat.lt_irrefl 0 h

theorem foldr_pos {l : List (CellTallies nD τ sig Unit)} {g : GSem nD τ sig} {u : Unit}
    (h : 0 < (l.foldr (fun t acc => acc + t) (0 : CellTallies nD τ sig Unit)) g u) : ∃ t ∈ l, 0 < t g u := by
  induction l with
  | nil => exact absurd h (Nat.lt_irrefl 0)
  | cons a l ih =>
    rcases Pipeline.add_pos_cases h with h | h
    · exact (ih h).imp fun t ht => ⟨List.mem_cons_of_mem _ ht.1, ht.2⟩
    · exact ⟨a, List.mem_cons_self, h⟩

theorem mem_L (c : Dev nD) (sm : SemLoc sig) : () ∈ L ((c : Thread nD τ), sm) := by
  rw [L_tc]; exact Finset.mem_singleton_self _

theorem lv_recv (e : Dev nD) (d : Fin 2) (h : Fin 6) (j : Fin 2) :
    lv (recvCell e (kIdx d h j)) () = 2 + (4 * h.val + 2 * j.val + d.val) := by
  dsimp only [lv]
  rw [recvSem_val, if_pos (by omega), Nat.add_sub_cancel_left, kH_kIdx, kJ_kIdx, kD_kIdx]

-- The payment number `k` goes to a barrier cell (level 1, `k ≤ 1`) or, as the transfer `k - 2`, to the receive cell of level `k`.
theorem payL_pos {c : Dev nD} {k : ℕ} (hk : k < (payL c).length) {g : GSem nD τ sig} {u : Unit} (h : 0 < (payL c)[k] g u) :
    u ∈ L g ∧ 1 ≤ lv g u ∧ k ≤ lv g u := by
  match k, hk, h with
  | 0, _, h => rw [tallyAt_pos h]; exact ⟨mem_L _ _, le_refl 1, Nat.zero_le 1⟩
  | 1, _, h => rw [tallyAt_pos h]; exact ⟨mem_L _ _, le_refl 1, le_refl 1⟩
  | n + 2, hk, h =>
    rw [payL_get c n hk] at h
    rw [payL_length] at hk
    rw [tallyAt_pos h, lv_recv]
    exact ⟨mem_L _ _, by omega, by show n + 2 ≤ 2 + (4 * (n / 4 % 6) + 2 * (n / 2 % 2) + n % 2); omega⟩

-- What is owed after `n` payments is owed to cells of level at least `n`, and at least 1.
theorem owed_lv {c : Dev nD} {n : ℕ} {g : GSem nD τ sig} {u : Unit} (h : 0 < owedAfter c n g u) :
    u ∈ L g ∧ 1 ≤ lv g u ∧ n ≤ lv g u := by
  obtain ⟨t, ht, hp⟩ := foldr_pos h
  obtain ⟨i, hi, rfl⟩ := List.getElem_of_mem ht
  rw [List.getElem_drop] at hp
  have := payL_pos _ hp
  exact ⟨this.1, this.2.1, by omega⟩

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (mem_L c _) fun g u hg =>
      ⟨(owed_lv hg).1, lt_of_eq_of_lt (if_neg (by omega)) (owed_lv hg).2.1⟩
  · rw [MayWait_zero]; iintro -; iempintro

theorem mayWait_bar (c : Dev nD) :
    (levAts L lv : sProp 𝕄) ⊢ MayWait (c : Thread nD τ) (.reg barS) () (owedAfter c 2) :=
  Pipeline.mayWait_of_levAts (mem_L c _) fun g u hg => ⟨(owed_lv hg).1, (owed_lv hg).2.2⟩

theorem mayWait_recv (c : Dev nD) (d : Fin 2) (h : Fin 6) (j : Fin 2) (hh : h.val ≤ 4) :
    (levAts L lv : sProp 𝕄) ⊢ MayWait (c : Thread nD τ) (.dma (recvSem (kIdx d h j))) ()
      (owedAfter c (6 + (4 * h.val + 2 * j.val + d.val))) :=
  Pipeline.mayWait_of_levAts (mem_L c _) fun g u hg =>
    ⟨(owed_lv hg).1, by have := (owed_lv hg).2.2; rw [lv_recv]; omega⟩

end Cert.KernelIdeal.Ring

end
-- ==== Proof.KernelIdeal.Launch.lean ====
import proofs.«900116_g7700000000000117_dist_ar_v7x_i4_i_m4096_n1024_bf16_1_alg».proof.Proof.KernelIdeal.Setup
import proofs.«900116_g7700000000000117_dist_ar_v7x_i4_i_m4096_n1024_bf16_1_alg».proof.Proof.KernelIdeal.Tables

noncomputable section

namespace Cert.KernelIdeal.Ring

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem csem_injective : Function.Injective csem := by
  rintro (_ | ⟨_ | _, k⟩) (_ | ⟨_ | _, k'⟩) h <;> first | rfl | cases h | skip
  all_goals
    simp only [csem, SemLoc.dma.injEq, sendSem, recvSem, Fin.mk.injEq] at h
    have := k.isLt; have := k'.isLt
    first | omega | (obtain rfl : k = k' := Fin.ext (by omega); rfl)

theorem kcell_injective : Function.Injective (kcell : Dev nD × CellIx → GSem nD τ sig) := by
  rintro ⟨c, i⟩ ⟨c', i'⟩ h
  obtain rfl : c = c' := congrArg (·.1.1) h
  obtain rfl : i = i' := csem_injective (congrArg Prod.snd h)
  rfl

def ringCells : Finset (GSem nD τ sig) := Finset.univ.map ⟨kcell, kcell_injective⟩

abbrev TokIx : Type := Bool ⊕ (Bool × Fin 24)

abbrev tokOf (cj : Dev nD × TokIx) : GSem nD τ sig × ℕ × Bool :=
  (kcell (cj.1, cj.2.elim (fun _ => none) some), 0, cj.2.elim id fun _ => false)

theorem tokOf_injective : Function.Injective (tokOf : Dev nD × TokIx → GSem nD τ sig × ℕ × Bool) := by
  rintro ⟨c, j⟩ ⟨c', j'⟩ h
  have h1 := kcell_injective (congrArg (·.1) h)
  have h2 : j.elim id (fun _ => false) = j'.elim id fun _ => false := congrArg (·.2.2) h
  rcases j with b | bk <;> rcases j' with b' | bk' <;> cases h1 <;> first | rfl | (cases h2; rfl)

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((dutyTok ER (barCell c) 0 false ∗ dutyTok ER (barCell c) 0 true)
    ∗ (bigSep Finset.univ fun k : Fin 24 => dutyTok ER (sendCell c k) 0 false)
    ∗ (bigSep Finset.univ fun k : Fin 24 => dutyTok ER (recvCell c k) 0 false))

def G (c : Dev nD) : sProp 𝕄 :=
  iprop((bigSep Finset.univ fun i : CellIx => roundState ER (ringRd m ρ) (kcell (c, i)) 0)
    ∗ (bigSep Finset.univ fun i : CellIx => iprop(atPos ER (kcell (c, i)) 0 ∅ 0 ∗ reached ER (kcell (c, i)) 0)) ∗ toks c)

def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : CellIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_bool, bigSep_univ_prod, bigSep_bool]; rfl
  refine (Rounds.fund ER (ringRd m ρ) ringCells ringToks).trans (Laws.bupd_mono ?_)
  rw [hX, hX, hX, hT]
  unfold G; simp only [bigSep_sep']
  iintro ⟨Hst, Hr, Hat, Htok⟩
  iframe

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CellIx => semVal (kcell (c, i)) 0 : sProp 𝕄) := by
  rw [unscopedSems0_eq, bigSep_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CellIx => iprop(∃ κ : ℕ, cellInv ER (ringRd m ρ) κ (kcell (c, i))))
          ∗ (bigSep Finset.univ fun i : CellIx => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · iframe
  imod ((Entails.of_eq (bigSep_sep' _ _ _).symm).trans ((bigSep_mono fun i _ => (Rounds.body_intro ER (ringRd m ρ) (kcell (c, i))).trans inv_alloc).trans
      (bigSep_fupd (E := Set.univ) _ _))) $$ [Hv Hst] with Hinv
  · iframe
  imodintro
  iframe

def payToks (c : Dev nD) : sProp 𝕄 :=
  iprop(dutyTok ER (barCell (prv c)) 0 true ∗ dutyTok ER (barCell (nxt c)) 0 false
    ∗ (bigSep Finset.univ fun k : Fin 24 => iprop(dutyTok ER (sendCell c k) 0 false ∗ dutyTok ER (recvCell (dn (kD k.val) c) k) 0 false)))

theorem ghost_intro (K : Dev nD × CellIx → ℕ) (c : Dev nD) : iprop(records m ρ K ∗ linear c) ⊢ G' m ρ c := by
  unfold G' ghost
  iintro H
  iexists K
  iexact H

def ringE : Dev nD ≃ Dev nD := ⟨nxt, prv, prv_nxt, nxt_prv⟩

def dnE : Dev nD × Fin 24 ≃ Dev nD × Fin 24 :=
  ⟨fun ck => (dn (kD ck.2.val) ck.1, ck.2), fun ck => (up (kD ck.2.val) ck.1, ck.2),
    fun _ => Prod.ext (up_dn _ _) rfl, fun _ => Prod.ext (dn_up _ _) rfl⟩

theorem toks_around : (bigSep Finset.univ fun c : Dev nD => (toks c : sProp 𝕄)) ⊢ bigSep Finset.univ fun c : Dev nD => payToks c := by
  unfold toks payToks
  simp only [bigSep_sep']
  rw [bigSep_univ_equiv ringE fun c => (dutyTok ER (barCell c) 0 false : sProp 𝕄),
    bigSep_univ_equiv ringE.symm fun c => (dutyTok ER (barCell c) 0 true : sProp 𝕄),
    ← bigSep_univ_prod fun ck : Dev nD × Fin 24 => (dutyTok ER (recvCell ck.1 ck.2) 0 false : sProp 𝕄), bigSep_univ_equiv dnE, bigSep_univ_prod]
  iintro ⟨⟨H1, H2⟩, H3, H4⟩
  isplitl [H2]; · iexact H2
  isplitl [H1]; · iexact H1
  isplitl [H3]; · iexact H3
  iexact H4

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CellIx => iprop(∃ κ : ℕ, cellInv ER (ringRd m ρ) κ (kcell (c, i))))
          ∗ (bigSep Finset.univ fun i : CellIx => iprop(atPos ER (kcell (c, i)) 0 ∅ 0 ∗ reached ER (kcell (c, i)) 0)) ∗ toks c) : sProp 𝕄)
      ⊢ bigSep Finset.univ (G' m ρ) := by
  simp only [bigSep_sep']
  rw [← bigSep_univ_prod (fun ei : Dev nD × CellIx => iprop(∃ κ : ℕ, cellInv ER (ringRd m ρ) κ (kcell ei))),
    ← bigSep_univ_prod (fun ei : Dev nD × CellIx => (reached ER (kcell ei) 0 : sProp 𝕄))]
  iintro ⟨HI, ⟨Hat, #HR⟩, Htok⟩
  ihave HK := (BI.bigSep_exists_pi Finset.univ (fun (ei : Dev nD × CellIx) (κ : ℕ) => (cellInv ER (ringRd m ρ) κ (kcell ei) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun i : CellIx => (atPos ER (kcell (c, i)) 0 ∅ 0 : sProp 𝕄)) payToks).symm).trans
      (bigSep_mono fun c _ => show _ ⊢ linear c from Entails.of_eq rfl))
    iframe

def sendK (n : Fin 24) : Fin 24 :=
  kIdx ⟨n.val % 2, Nat.mod_lt _ (by decide)⟩ ⟨n.val / 4 % 6, Nat.mod_lt _ (by decide)⟩ ⟨n.val / 2 % 2, Nat.mod_lt _ (by decide)⟩

def sendKE : Fin 24 ≃ Fin 24 :=
  ⟨sendK, fun k => ⟨4 * (k.val % 12 / 2) + 2 * (k.val % 2) + k.val / 12 % 2, by have := k.isLt; omega⟩, by decide, by decide⟩

theorem kD_sendK : ∀ n : Fin 24, kD (sendK n).val = ⟨n.val % 2, Nat.mod_lt _ (by decide)⟩ := by decide

theorem foldr_add_eq_sum {M : Type} [AddCommMonoid M] (l : List M) : l.foldr (fun t acc => acc + t) 0 = l.sum := by
  induction l with
  | nil => rfl
  | cons a l ih => rw [List.foldr_cons, List.sum_cons, ih, add_comm]

theorem sum_range_fin {M : Type} [AddCommMonoid M] (n : ℕ) (f : ℕ → M) : ((List.range n).map f).sum = ∑ i : Fin n, f i.val := by
  rw [← Finset.sum_range]; rfl

theorem O₀_eq : (O₀ : Dev nD → CellTallies nD τ sig Unit)
    = fun d => ((∑ n : Fin 24, sendTally d n.val) + tallyAt (barCell (nxt d)) () 1) + tallyAt (barCell (prv d)) () 1 := by
  funext d
  unfold O₀ owedAfter payL
  rw [List.drop_zero, List.foldr_cons, List.foldr_cons, foldr_add_eq_sum, sum_range_fin]

theorem creds_send (c : Dev nD) :
    (bigSep Finset.univ fun n : Fin 24 => (Pipeline.launchCred (fun d => sendTally d n.val) c : sProp 𝕄))
      ⊢ bigSep Finset.univ fun k : Fin 24 => cred (tallyAt (recvCell c k) () N) := by
  rw [bigSep_univ_equiv sendKE (fun k : Fin 24 => (cred (tallyAt (recvCell c k) () N) : sProp 𝕄))]
  refine bigSep_mono fun n _ => ?_
  have h : _ ⊢ (cred (tallyAt (recvCell c (sendK n)) () N) : sProp 𝕄) :=
    Pipeline.launchCred_tallyAt (.dma (recvSem (sendK n))) (dn (kD (sendK n).val)) (up (kD (sendK n).val)) (dn_up _) (up_dn _) () N c
  rw [kD_sendK] at h
  exact h

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem owns_whole_eq (c : Dev nD) (b : Ref sig .tc) (Xc : b.ty.Contents (Elt F)) :
    (owns (Ix := Unit) (Name := ℕ) (U := UU) (Lvl := ℕ) (c : Thread nD τ) (Memref.whole b) fullShare Xc : sProp 𝕄)
      = iprop(∃ f : Buf (Elt F) (((c : Dev nD) : Thread nD τ).loc b), ⌜f = Xc⌝ ∗ (((c : Thread nD τ).loc b) ↦{fullShare} f)) := by
  unfold owns; simp only [Memref.view_whole, View.read_whole, View.set_whole]

theorem before_x (c : Dev nD) (d) : (dats m ρ 0 c).before (0 : Fin 2) t0_0 d = xs m ρ c := by
  unfold Dat.before; rw [if_pos (fetch0_0 t0_0)]; rfl

theorem after_x (c : Dev nD) (t : Fin cfg0.N) : (dats m ρ 0 c).after (0 : Fin 2) t = xs m ρ c := by simp only [dats]

theorem after_o (c : Dev nD) (t : Fin cfg0.N) : (dats m ρ 0 c).after (1 : Fin 2) t = outAt m ρ := by simp only [dats]

def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main_of
    (hsound : ∀ (K : Dev nD × CellIx → ℕ) (c : Dev nD) (Kt : PUnit → sProp 𝕄),
      iprop(bodyPre m ρ K c ∗ (bodyPost m ρ c -∗ Kt ⟨⟩)) ⊢ wp frame (wpE (defs₀ (F := F)) 𝒱₀ c none) Set.univ (theBody (F := F)) Kt) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c t => by
        rw [fin_N0 t, bigSep_W0, bigSep_W0]
        simp only [owns_whole_eq]
        show bodyPre' m ρ c ⊢ _
        rw [show defs₀ (F := F) Proc.tc 0 (t0_0, cfg0.slots t0_0) = theBody (F := F) from rfl]
        simp only [after_o, after_x]
        rw [show (dats m ρ 0 c).Φ t0_0.succ = Φ₁ (F := F) c from rfl]
        unfold bodyPre' Φ₀ start
        simp only [before_x]
        iintro ⟨⟨⟨⟨%K, Hg⟩, H1, H2, H3⟩, Hscr⟩, Ho, ⟨%d0, Hx⟩, ⟨%d1, %f1, %hf1, Hout⟩⟩
        iapply (hsound K c _)
        unfold bodyPre bodyPost
        isplitr []
        · iframe
          iexists f1; iexact Hout
        · iintro ⟨HΦ, Ho', Hx', Hy'⟩
          iframe)
    (hne := fun w => by fin_cases w <;> exact Nat.succ_pos _) (harr := arr_whole0) (hstage := stage_whole0) (hshare := fun c w => by unfold Dat.share; split <;> rfl)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      iframe)
    (hglob := ((bigSep_mono fun c _ => core_alloc m ρ c).trans (bigSep_fupd _ _)).trans (BI.fupd_mono (regroup m ρ)))
    (hA := fun _ _ => rfl) (hpf := fun _ k => k.elim0)
    (X := start m ρ) (Y := fun _ => iprop(emp)) (Z := fun _ => iprop(emp))
    (hX := fun c => by
      rw [O₀_eq, Pipeline.launchCred_add, Pipeline.launchCred_add, Pipeline.launchCred_sum]
      iintro ⟨-, Hlev, ⟨⟨HS, HN⟩, HP⟩, -, HG⟩
      ihave HN' := (Pipeline.launchCred_tallyAt (.reg barS) nxt prv nxt_prv prv_nxt () 1 c) $$ HN
      ihave HP' := (Pipeline.launchCred_tallyAt (.reg barS) prv nxt prv_nxt nxt_prv () 1 c) $$ HP
      ihave HS' := (creds_send (F := F) c) $$ HS
      ihave H2 := (cred_add _ _).2 $$ [HN' HP']
      · iframe
      rw [tallyAt_add]
      imodintro
      unfold start G'
      iframe)
    (hin := fun c => by
      rw [show (dats m ρ 0 c).Φ 0 = Φ₀ m ρ c from rfl, scopedRest0_eq]
      unfold Φ₀
      iintro ⟨Hs, -, Hr⟩
      iframe)
    (hout := fun c => by
      rw [show (dats m ρ 0 c).Φ (Fin.last cfg0.N) = Φ₁ (F := F) c from rfl, scopedRest0_eq]
      unfold Φ₁ Pipeline.ownSems0
      iintro ⟨Hr, Hz⟩
      iframe)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_o (c : Dev nD) :
    (win0_1.blk (0 : Fin 1)).view.read (Elt F) (finalA m ρ c (1 : Fin 2)) = outAt m ρ := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from flush0_1 _, if_pos rfl]
  refine (View.read_write_univ _ _).trans ?_
  have h := after_o m ρ c t0_0
  generalize outAt m ρ = O at h ⊢
  show (cfg0.win (1 : Fin 2)).cut _ ((dats m ρ 0 c).after (1 : Fin 2) t0_0) = O
  rw [h]; rfl

end Cert.KernelIdeal.Ring

end
-- ==== Proof.KernelIdeal.State.lean ====
import proofs.«900116_g7700000000000117_dist_ar_v7x_i4_i_m4096_n1024_bf16_1_alg».proof.Proof.KernelIdeal.Setup

noncomputable section

namespace Cert.KernelIdeal.Ring

open Idealize.ShloMosaic
open Idealize.ShloMosaic.TcCoe
open Idealize.SL Idealize.SL.BI
open Idealize.SL.BI.BIBase
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Lane
variable (c : Dev nD) (d j : Fin 2)

def rcvOpen (h : Fin 6) : sProp 𝕄 :=
  iprop(atPos ER (recvCell c (kIdx d h j)) 0 ∅ 0 ∗ cred (tallyAt (recvCell c (kIdx d h j)) () N))

def rcvDone (h : Fin 6) : sProp 𝕄 := semVal (recvCell c (kIdx d h j)) 0

def sndOpen (h : Fin 6) : sProp 𝕄 :=
  iprop(dutyTok ER (sendCell c (kIdx d h j)) 0 false ∗ dutyTok ER (recvCell (dn d c) (kIdx d h j)) 0 false ∗ atPos ER (sendCell c (kIdx d h j)) 0 ∅ 0)

def sndFlight (h : Fin 6) : sProp 𝕄 :=
  iprop(atPos ER (sendCell c (kIdx d h j)) 0 ∅ 0 ∗ cred (tallyAt (sendCell c (kIdx d h j)) () N))

def Lane (s : ℕ) : sProp 𝕄 :=
  match s with
  | 0 => iprop(outPt c (up d c) d j (X m ρ c) ∗ outPt c (up d (up d c)) d j (X m ρ c) ∗ outPt c (up d (up d (up d c))) d j (X m ρ c)
        ∗ slotAny (F := F) (dn d c) d j 1 ∗ slotAny (F := F) (dn d c) d j 2
        ∗ rcvOpen c d j 0 ∗ rcvOpen c d j 1 ∗ rcvOpen c d j 2 ∗ rcvOpen c d j 3 ∗ rcvOpen c d j 4 ∗ rcvOpen c d j 5
        ∗ sndFlight c d j 0 ∗ sndOpen c d j 1 ∗ sndOpen c d j 2 ∗ sndOpen c d j 3 ∗ sndOpen c d j 4 ∗ sndOpen c d j 5)
  | 1 => iprop(outPt c (up d (up d c)) d j (X m ρ c) ∗ outPt c (up d (up d (up d c))) d j (X m ρ c)
        ∗ slotPt c d j 0 (S0 m ρ d j c) ∗ slotAny (F := F) (dn d c) d j 2
        ∗ rcvDone c d j 0 ∗ rcvOpen c d j 1 ∗ rcvOpen c d j 2 ∗ rcvOpen c d j 3 ∗ rcvOpen c d j 4 ∗ rcvOpen c d j 5
        ∗ sndFlight c d j 0 ∗ sndFlight c d j 1 ∗ sndOpen c d j 2 ∗ sndOpen c d j 3 ∗ sndOpen c d j 4 ∗ sndOpen c d j 5)
  | 2 => iprop(outPt c (up d (up d (up d c))) d j (X m ρ c)
        ∗ slotPt c d j 0 (S0 m ρ d j c) ∗ slotPt c d j 1 (S1 m ρ d j c)
        ∗ rcvDone c d j 0 ∗ rcvDone c d j 1 ∗ rcvOpen c d j 2 ∗ rcvOpen c d j 3 ∗ rcvOpen c d j 4 ∗ rcvOpen c d j 5
        ∗ sndFlight c d j 0 ∗ sndFlight c d j 1 ∗ sndFlight c d j 2 ∗ sndOpen c d j 3 ∗ sndOpen c d j 4 ∗ sndOpen c d j 5)
  | 3 => iprop(slotPt c d j 0 (S0 m ρ d j c) ∗ slotPt c d j 1 (S1 m ρ d j c) ∗ slotPt c d j 2 (S2 m ρ d j c)
        ∗ rcvDone c d j 0 ∗ rcvDone c d j 1 ∗ rcvDone c d j 2 ∗ rcvOpen c d j 3 ∗ rcvOpen c d j 4 ∗ rcvOpen c d j 5
        ∗ sndFlight c d j 0 ∗ sndFlight c d j 1 ∗ sndFlight c d j 2 ∗ sndFlight c d j 3 ∗ sndOpen c d j 4 ∗ sndOpen c d j 5)
  | 4 => iprop(slotPt c d j 0 (S0 m ρ d j c) ∗ slotPt c d j 1 (S1 m ρ d j c) ∗ slotPt c d j 2 (S2 m ρ d j c)
        ∗ rcvDone c d j 0 ∗ rcvDone c d j 1 ∗ rcvDone c d j 2 ∗ rcvDone c d j 3 ∗ rcvOpen c d j 4 ∗ rcvOpen c d j 5
        ∗ sndFlight c d j 0 ∗ sndFlight c d j 1 ∗ sndFlight c d j 2 ∗ sndFlight c d j 3 ∗ sndFlight c d j 4 ∗ sndOpen c d j 5)
  | 5 => iprop(slotPt c d j 0 (S0 m ρ d j c) ∗ slotPt c d j 1 (S1 m ρ d j c) ∗ slotPt c d j 2 (S2 m ρ d j c)
        ∗ rcvDone c d j 0 ∗ rcvDone c d j 1 ∗ rcvDone c d j 2 ∗ rcvDone c d j 3 ∗ rcvDone c d j 4 ∗ rcvOpen c d j 5
        ∗ sndFlight c d j 0 ∗ sndFlight c d j 1 ∗ sndFlight c d j 2 ∗ sndFlight c d j 3 ∗ sndFlight c d j 4 ∗ sndFlight c d j 5)
  | _ => iprop(outPt c (up d (up d c)) d j (A2 m ρ d j (up d (up d (up d c))))
        ∗ slotPt c d j 0 (S0 m ρ d j c) ∗ slotPt c d j 1 (S1 m ρ d j c) ∗ slotPt c d j 2 (S2 m ρ d j c)
        ∗ rcvDone c d j 0 ∗ rcvDone c d j 1 ∗ rcvDone c d j 2 ∗ rcvDone c d j 3 ∗ rcvDone c d j 4 ∗ rcvDone c d j 5
        ∗ sndFlight c d j 0 ∗ sndFlight c d j 1 ∗ sndFlight c d j 2 ∗ sndFlight c d j 3 ∗ sndFlight c d j 4 ∗ sndFlight c d j 5)

end Lane

def shared (K : Dev nD × CellIx → ℕ) : sProp 𝕄 := iprop(records m ρ K ∗ levAts L lv)

instance shared_persistent (K : Dev nD × CellIx → ℕ) : BI.Persistent (shared m ρ K) := by unfold shared; infer_instance

def Mid (K : Dev nD × CellIx → ℕ) (c : Dev nD) (n : ℕ) : sProp 𝕄 :=
  iprop(shared m ρ K
    ∗ Lane m ρ c 0 0 ((n + 3) / 4) ∗ Lane m ρ c 1 0 ((n + 2) / 4) ∗ Lane m ρ c 0 1 ((n + 1) / 4) ∗ Lane m ρ c 1 1 (n / 4)
    ∗ (∃ W : Waits sig Unit, owes (c : Thread nD τ) (owedAfter c (min (6 + n) 26)) W)
    ∗ stg c cc0_stg0_0 (xs m ρ c))

section LaneW
variable (c : Dev nD) (d j : Fin 2)

def sndDone (h : Fin 6) : sProp 𝕄 := semVal (sendCell c (kIdx d h j)) 0

def LaneW (t : ℕ) : sProp 𝕄 :=
  iprop(outPt c (up d (up d c)) d j (A2 m ρ d j (up d (up d (up d c))))
    ∗ slotPt c d j 0 (S0 m ρ d j c) ∗ slotPt c d j 1 (S1 m ρ d j c) ∗ slotPt c d j 2 (S2 m ρ d j c)
    ∗ rcvDone c d j 0 ∗ rcvDone c d j 1 ∗ rcvDone c d j 2 ∗ rcvDone c d j 3 ∗ rcvDone c d j 4 ∗ rcvDone c d j 5
    ∗ (if 0 < t then sndDone c d j 0 else sndFlight c d j 0)
    ∗ (if 1 < t then sndDone c d j 1 else sndFlight c d j 1)
    ∗ (if 2 < t then sndDone c d j 2 else sndFlight c d j 2)
    ∗ (if 3 < t then iprop(sndDone c d j 3 ∗ outPt c (up d (up d (up d c))) d j (A2 m ρ d j c)) else sndFlight c d j 3)
    ∗ (if 4 < t then iprop(sndDone c d j 4 ∗ outPt c c d j (A2 m ρ d j (up d c))) else sndFlight c d j 4)
    ∗ (if 5 < t then iprop(sndDone c d j 5 ∗ outPt c (up d c) d j (A2 m ρ d j (up d (up d c)))) else sndFlight c d j 5))

end LaneW

def EMid (K : Dev nD × CellIx → ℕ) (c : Dev nD) (n : ℕ) : sProp 𝕄 :=
  iprop(shared m ρ K
    ∗ LaneW m ρ c 0 0 ((n + 3) / 4) ∗ LaneW m ρ c 1 0 ((n + 2) / 4) ∗ LaneW m ρ c 0 1 ((n + 1) / 4) ∗ LaneW m ρ c 1 1 (n / 4)
    ∗ (∃ W : Waits sig Unit, owes (c : Thread nD τ) 0 W)
    ∗ stg c cc0_stg0_0 (xs m ρ c))

end Cert.KernelIdeal.Ring

end
-- ==== Proof.KernelIdeal.PreFlat.lean ====
import proofs.«900116_g7700000000000117_dist_ar_v7x_i4_i_m4096_n1024_bf16_1_alg».proof.Proof.KernelIdeal.State
import proofs.«900116_g7700000000000117_dist_ar_v7x_i4_i_m4096_n1024_bf16_1_alg».proof.Proof.KernelIdeal.Tables

noncomputable section

namespace Cert.KernelIdeal.Ring

open Idealize.ShloMosaic
open Idealize.ShloMosaic.TcCoe
open Idealize.SL Idealize.SL.RA Idealize.SL.BI
open Idealize.SL.BI.BIBase Idealize.SL.BI.Laws
open Idealize.ShloMosaic.Rounds
open Idealize.ShloMosaic.Pipeline (Dat BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def laneG (c : Dev nD) (d j : Fin 2) : sProp 𝕄 :=
  iprop(rcvOpen c d j 0 ∗ rcvOpen c d j 1 ∗ rcvOpen c d j 2 ∗ rcvOpen c d j 3 ∗ rcvOpen c d j 4 ∗ rcvOpen c d j 5
    ∗ sndOpen c d j 0 ∗ sndOpen c d j 1 ∗ sndOpen c d j 2 ∗ sndOpen c d j 3 ∗ sndOpen c d j 4 ∗ sndOpen c d j 5)

def barG (c : Dev nD) : sProp 𝕄 :=
  iprop(dutyTok ER (barCell (prv c)) 0 true ∗ dutyTok ER (barCell (nxt c)) 0 false ∗ atPos ER (barCell c) 0 ∅ 0 ∗ cred (tallyAt (barCell c) () 2))

theorem bigSep_fin24 (Φ : Fin 24 → sProp 𝕄) : bigSep Finset.univ Φ = bigSepL [kIdx 0 0 0, kIdx 0 1 0, kIdx 0 2 0, kIdx 0 3 0, kIdx 0 4 0, kIdx 0 5 0, kIdx 1 0 0, kIdx 1 1 0, kIdx 1 2 0, kIdx 1 3 0, kIdx 1 4 0, kIdx 1 5 0, kIdx 0 0 1, kIdx 0 1 1, kIdx 0 2 1, kIdx 0 3 1, kIdx 0 4 1, kIdx 0 5 1, kIdx 1 0 1, kIdx 1 1 1, kIdx 1 2 1, kIdx 1 3 1, kIdx 1 4 1, kIdx 1 5 1] Φ :=
  bigSep_univ_eq_bigSepL _ (by decide) (by decide) Φ

theorem ghost_flat (K : Dev nD × CellIx → ℕ) (c : Dev nD) (R : sProp 𝕄) :
    iprop(ghost m ρ K c ∗ cred (tallyAt (barCell c) () 2) ∗ (bigSep Finset.univ fun k : Fin 24 => cred (tallyAt (recvCell c k) () N)) ∗ levAts L lv ∗ R)
      = iprop(shared m ρ K ∗ barG c ∗ laneG c 0 0 ∗ laneG c 1 0 ∗ laneG c 0 1 ∗ laneG c 1 1 ∗ R) := by
  unfold ghost linear shared barG laneG rcvOpen sndOpen
  rw [bigSep_option, bigSep_univ_prod, bigSep_bool]
  have e (P Q : sProp 𝕄) : iprop(P ∗ Q) = BI.sep P Q := rfl
  simp only [bigSep_fin24, bigSepL_cons_cons, bigSepL_singleton, kD_kIdx, kcell, csem, recvCell, sendCell, barCell, e]
  ac_rfl

theorem pre_flat (K : Dev nD × CellIx → ℕ) (c : Dev nD) :
    bodyPre m ρ K c ⊢ iprop(shared m ρ K ∗ barG c ∗ laneG c 0 0 ∗ laneG c 1 0 ∗ laneG c 0 1 ∗ laneG c 1 1
      ∗ (∃ f : Buf (Elt F) ((c : Thread nD τ).loc cc0_scratch0), ((c : Thread nD τ).loc cc0_scratch0) ↦{fullShare} f)
      ∗ (∃ W : Waits sig Unit, owes (c : Thread nD τ) (owedAfter c 0) W)
      ∗ stg c cc0_stg0_0 (xs m ρ c)
      ∗ (∃ f : Buf (Elt F) ((c : Thread nD τ).loc cc0_stg1_0), ((c : Thread nD τ).loc cc0_stg1_0) ↦{fullShare} f)) := by
  unfold bodyPre
  rw [ghost_flat]
  unfold Dat.owesAt Pipeline.owesWithin
  iintro ⟨⟨Hsh, Hbar, H00, H10, H01, H11, Hscr⟩, ⟨%W, -, HO⟩, Hx, Hout⟩
  iframe
  iexists W; iexact HO

theorem shared_inv (K : Dev nD × CellIx → ℕ) (e : Dev nD) (i : CellIx) :
    shared m ρ K ⊢ cellInv ER (ringRd m ρ) (K (e, i)) (kcell (e, i)) := by
  unfold shared records
  exact (sep_elim_left.trans sep_elim_left).trans (bigSep_elim (Finset.mem_univ (e, i)))

theorem shared_reached (K : Dev nD × CellIx → ℕ) (e : Dev nD) (i : CellIx) :
    shared m ρ K ⊢ reached ER (kcell (e, i)) 0 := by
  unfold shared records
  exact (sep_elim_left.trans sep_elim_right).trans (bigSep_elim (Finset.mem_univ (e, i)))

theorem shared_lev (K : Dev nD × CellIx → ℕ) : shared m ρ K ⊢ (levAts L lv : sProp 𝕄) := by
  unfold shared
  iintro ⟨-, HL⟩
  iexact HL

end Cert.KernelIdeal.Ring

end
-- ==== Proof.KernelIdeal.Contents.lean ====
import proofs.«900116_g7700000000000117_dist_ar_v7x_i4_i_m4096_n1024_bf16_1_alg».proof.Proof.KernelIdeal.Setup
import Idealize.ShloMosaic.Lib.Pipeline.Value

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

theorem land_out_pt (e q : Dev nD) (d j : Fin 2) (fo src : OC (F := F)) :
    outPt e q d j ((outPc q d j).view.write (Elt F) fo ((outPc q d j).view.read (Elt F) src) Finset.univ)
      = outPt e q d j src :=
  BI.Region.is_congr fun i hi => by
    rw [View.write_read_eq_piecewise]; exact Finset.piecewise_eq_of_mem _ _ _ hi

/-- A write over the whole slot forgets the contents under it, so any base gives the same slot. -/
theorem land_slot_pt (e : Dev nD) (d j : Fin 2) (h : Fin 3) (q : Dev nD) (fd : SC (F := F)) (src : OC (F := F)) :
    slotPt e d j h ((slot d j h).view.write (Elt F) fd ((outPc q d j).view.read (Elt F) src) Finset.univ)
      = slotPt e d j h (landIn d j h q src) :=
  BI.Region.is_congr fun i hi =>
    (congrFun (View.write_eq_piecewise (v := (slot d j h).view) (Val := Elt F) fd (sBase (F := F)) _ Finset.univ) i).trans
      (Finset.piecewise_eq_of_mem _ _ _ hi)

/-- A row of the piece `(q, d, j)` has chunk `q`, half `d` and quarter `j`, which is how the result is read off there. -/
theorem outAt_pt (e q : Dev nD) (d j : Fin 2) :
    outPt e q d j (A2 m ρ d j (up d q)) = outPt e q d j (outAt m ρ) :=
  BI.Region.is_congr fun i hi => by
    have h : 1024 * q.val + 512 * d.val + 256 * j.val ≤ (i 0).val ∧ (i 0).val < 1024 * q.val + 512 * d.val + 256 * j.val + 256 :=
      Rect.mem_set_unit.mp (View.set_slice_whole _ _ ▸ hi) 0
    have hd := d.isLt; have hj := j.isLt
    have key : ∀ (d' j' : Fin 2) (q' : Dev nD), d' = d → j' = j → q' = q →
        A2 m ρ d j (up d q) i = A2 m ρ d' j' (up d' q') i := by rintro _ _ _ rfl rfl rfl; rfl
    exact key _ _ _ (Fin.ext (by show (i 0).val % 1024 / 512 = d.val; omega))
      (Fin.ext (by show (i 0).val % 512 / 256 = j.val; omega)) (Fin.ext (by show (i 0).val / 1024 = q.val; omega))

theorem k0_pay2_eq : (k0_pay2 (F := F)) = k0_pay1 := rfl
theorem k0_pay3_eq : (k0_pay3 (F := F)) = k0_pay1 := rfl
theorem k0_pay4_eq : (k0_pay4 (F := F)) = k0_pay1 := rfl

/-- Each element of the chunk is written with the narrowing of the block's element there, and that is `X`'s. -/
theorem chunk_store_pt (c e q : Dev nD) (f : OC (F := F)) :
    (((oM.access (chRect q)) : View sig .tc _ _ _).loc (c : Thread nD τ)
        ↦[((oM.access (chRect q)) : View sig .tc _ _ _).set]{fullShare}
          ((oM.access (chRect q)) : View sig .tc _ _ _).write (Elt F) f
            (k0_pay1 (xM.view.readAt (Elt F) (chRect q).toLoadRect (xs m ρ e))) Finset.univ : sProp 𝕄)
      = (((oM.access (chRect q)) : View sig .tc _ _ _).loc (c : Thread nD τ)
        ↦[((oM.access (chRect q)) : View sig .tc _ _ _).set]{fullShare} X m ρ e) :=
  BI.Region.is_congr fun i hi => by
    obtain ⟨x, rfl⟩ := View.exists_emb_of_mem_set _ hi
    rw [View.write_emb_of_mem _ _ (Finset.mem_univ x)]
    unfold k0_pay1
    rw [shapeCast_self]
    rfl

end Cert.KernelIdeal.Ring

end
-- ==== Proof.KernelIdeal.Regions.lean ====
import proofs.«900116_g7700000000000117_dist_ar_v7x_i4_i_m4096_n1024_bf16_1_alg».proof.Proof.KernelIdeal.Setup

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Keyed
variable {ℓ : Loc nD τ sig} {q : PosShare TreeShare}

/-- Sets that are the fibres of a key over distinct values are pairwise disjoint, so a points-to over their union is the star of theirs. -/
theorem pt_keyed {T κT : Type} [Fintype T] (κ : Idx ℓ → κT) (k : T → κT) (hk : Function.Injective k)
    (K : T → Finset (Idx ℓ)) (hK : ∀ t i, i ∈ K t ↔ κ i = k t) {S : Finset (Idx ℓ)} (hS : ∀ i, i ∈ S ↔ ∃ t, κ i = k t)
    (f : Buf (Elt F) ℓ) : (ℓ ↦[S]{q} f : sProp 𝕄) = bigSep Finset.univ fun t => ℓ ↦[K t]{q} f := by
  classical
  have e : S = Finset.univ.biUnion K := by
    ext i; rw [hS, Finset.mem_biUnion]
    exact exists_congr fun t => (hK t i).symm.trans (and_iff_right (Finset.mem_univ t)).symm
  rw [e]
  exact pointsTo_biUnion _ _ fun t _ t' _ h => Finset.disjoint_left.mpr fun i hi hi' =>
    h (hk (((hK t i).mp hi).symm.trans ((hK t' i).mp hi')))

end Keyed

def chunkPt (e q : Dev nD) (f : OC (F := F)) : sProp 𝕄 :=
  ((e : Thread nD τ).loc cc0_stg1_0) ↦[((oM.access (chRect q)) : View sig .tc _ _ _).set]{fullShare} f

/-- A block of whole rows of the result buffer is told by its rows alone. -/
theorem mem_rows (off sz : Fin 2 → ℕ) (h : ∀ a, off a + sz a ≤ S4096x1024.size a) (h0 : off 1 = 0) (h1 : sz 1 = 1024)
    (i : S4096x1024.Idx) : i ∈ (Rect.unit (s := S4096x1024) off sz h).set ↔ off 0 ≤ (i 0).val ∧ (i 0).val < off 0 + sz 0 := by
  have : (i 1).val < 1024 := (i 1).isLt
  rw [Rect.mem_set_unit, Fin.forall_fin_two, h0, h1]
  exact and_iff_left ⟨Nat.zero_le _, by omega⟩

theorem mem_chSet (q : Dev nD) (i : S4096x1024.Idx) :
    i ∈ ((oM.access (chRect q)) : View sig .tc _ _ _).set ↔ (i 0).val / 1024 = q.val := by
  rw [View.set_slice_whole, mem_rows _ _ _ rfl rfl]
  show 1024 * q.val ≤ (i 0).val ∧ (i 0).val < 1024 * q.val + 1024 ↔ _
  omega

theorem mem_pcSet (q : Dev nD) (d j : Fin 2) (i : S4096x1024.Idx) :
    i ∈ (outPc q d j).view.set ↔ (i 0).val / 256 = 4 * q.val + 2 * d.val + j.val := by
  rw [View.set_slice_whole, mem_rows _ _ _ rfl rfl]
  show 1024 * q.val + 512 * d.val + 256 * j.val ≤ (i 0).val ∧ (i 0).val < 1024 * q.val + 512 * d.val + 256 * j.val + 256 ↔ _
  omega

/-- The four chunks, named around the ring from `c`, are all four. -/
theorem out_split_at (e c : Dev nD) (f : OC (F := F)) :
    (((e : Thread nD τ).loc cc0_stg1_0) ↦{fullShare} f : sProp 𝕄)
      ⊣⊢ iprop(chunkPt e c f ∗ chunkPt e (nxt c) f ∗ chunkPt e (nxt (nxt c)) f ∗ chunkPt e (prv c) f) :=
  .of_eq ((pt_keyed (ℓ := (e : Thread nD τ).loc cc0_stg1_0) (fun i : S4096x1024.Idx => (i 0).val / 1024) Fin.val Fin.val_injective _ mem_chSet
      (fun i => ⟨fun _ => ⟨⟨(i 0).val / 1024, by have : (i 0).val < 4096 := (i 0).isLt; show _ < 4; omega⟩, rfl⟩, fun _ => Finset.mem_univ _⟩) f).trans
    (bigSep_univ_eq_bigSepL [c, nxt c, nxt (nxt c), prv c] (by revert c; decide) (by revert c; decide) _))

theorem chunk_split (e q : Dev nD) (f : OC (F := F)) :
    chunkPt e q f ⊣⊢ iprop(outPt e q 0 0 f ∗ outPt e q 0 1 f ∗ outPt e q 1 0 f ∗ outPt e q 1 1 f) :=
  .of_eq ((pt_keyed (ℓ := (e : Thread nD τ).loc cc0_stg1_0) (fun i : S4096x1024.Idx => (i 0).val / 256) (fun t : Fin 2 × Fin 2 => 4 * q.val + 2 * t.1.val + t.2.val)
      (fun a b h => Prod.ext (Fin.ext (by have := a.2.isLt; have := b.2.isLt; dsimp only at h; omega))
        (Fin.ext (by have := a.2.isLt; have := b.2.isLt; dsimp only at h; omega)))
      (fun t => (outPc q t.1 t.2).view.set) (fun t i => mem_pcSet q t.1 t.2 i)
      (fun i => (mem_chSet q i).trans ⟨fun h => ⟨(⟨(i 0).val / 512 % 2, Nat.mod_lt _ (by decide)⟩, ⟨(i 0).val / 256 % 2, Nat.mod_lt _ (by decide)⟩),
          by show (i 0).val / 256 = 4 * q.val + 2 * ((i 0).val / 512 % 2) + (i 0).val / 256 % 2; omega⟩,
        fun ⟨t, h⟩ => by have := t.1.isLt; have := t.2.isLt; dsimp only at h; omega⟩) f).trans
    (bigSep_univ_eq_bigSepL [(0, 0), (0, 1), (1, 0), (1, 1)] (by decide) (by decide) _))

theorem pc_store_sub (q : Dev nD) (d j : Fin 2) :
    ((oM.access (pcRect q d j)) : View sig .tc _ _ _).setOn Finset.univ ⊆ (outPc q d j).view.set := subset_rfl

theorem pc_load_sub (q : Dev nD) (d j : Fin 2) :
    oM.view.setOn (pcRect q d j).toLoadRect.set ⊆ (outPc q d j).view.set :=
  (View.set_slice (v := oM.view) (pcRect q d j)).ge

theorem ch_store_sub (q : Dev nD) :
    ((oM.access (chRect q)) : View sig .tc _ _ _).setOn Finset.univ ⊆ ((oM.access (chRect q)) : View sig .tc _ _ _).set := subset_rfl

theorem ch_load_sub (q : Dev nD) :
    oM.view.setOn (chRect q).toLoadRect.set ⊆ ((oM.access (chRect q)) : View sig .tc _ _ _).set :=
  (View.set_slice (v := oM.view) (chRect q)).ge

theorem k0_off1_ch (c : Dev nD) : k0_off1 c = chOff c := by
  rw [Gen.k0_off1_eq]; rfl

theorem k0_off4_ch (c : Dev nD) (r : Fin 3) : k0_off4 c (BitVec.ofNat 32 (1 + r.val)) = chOff (nxt^[r.val + 1] c) := by
  rw [Gen.k0_off4_eq]; revert c r; decide

theorem k0_off2_pc (c : Dev nD) (r₁ : Fin 3) (r₂ : Fin 2) :
    k0_off2 c (BitVec.ofNat 32 r₁.val) (BitVec.ofNat 32 (256 * r₂.val)) = pcOff ((up 0)^[r₁.val] c) 0 r₂ := by
  rw [Gen.k0_off2_eq]; revert c r₁ r₂; decide

theorem k0_off3_pc (c : Dev nD) (r₁ : Fin 3) (r₂ : Fin 2) :
    k0_off3 c (BitVec.ofNat 32 r₁.val) (BitVec.ofNat 32 (256 * r₂.val)) = pcOff ((up 1)^[r₁.val] c) 1 r₂ := by
  rw [Gen.k0_off3_eq]; revert c r₁ r₂; decide

theorem k0_off5_pc (c : Dev nD) (r₁ : Fin 3) (r₂ : Fin 2) :
    k0_off5 c (BitVec.ofNat 32 r₁.val) (BitVec.ofNat 32 (256 * r₂.val)) = pcOff ((up 0)^[r₁.val + 1] c) 0 r₂ := by
  rw [Gen.k0_off5_eq]; revert c r₁ r₂; decide

theorem k0_off6_pc (c : Dev nD) (r₁ : Fin 3) (r₂ : Fin 2) :
    k0_off6 c (BitVec.ofNat 32 r₁.val) (BitVec.ofNat 32 (256 * r₂.val)) = pcOff ((up 1)^[r₁.val + 1] c) 1 r₂ := by
  rw [Gen.k0_off6_eq]; revert c r₁ r₂; decide

theorem k0_off7_pc (c : Dev nD) (r₁ : Fin 3) (r₂ : Fin 2) :
    k0_off7 c (BitVec.ofNat 32 r₁.val) (BitVec.ofNat 32 (256 * r₂.val)) = pcOff ((up 0)^[r₁.val] (dn 0 c)) 0 r₂ := by
  rw [Gen.k0_off7_eq]; revert c r₁ r₂; decide

theorem k0_off8_pc (c : Dev nD) (r₁ : Fin 3) (r₂ : Fin 2) :
    k0_off8 c (BitVec.ofNat 32 r₁.val) (BitVec.ofNat 32 (256 * r₂.val)) = pcOff ((up 1)^[r₁.val] (dn 1 c)) 1 r₂ := by
  rw [Gen.k0_off8_eq]; revert c r₁ r₂; decide

theorem slot_set_eq (d j : Fin 2) (h : Fin 3) : (slot d j h).view.set = (stgRect d j h).set :=
  (View.set_reshape _ _).trans (View.set_slice_whole _ _)

theorem mem_stgRect (d j : Fin 2) (h : Fin 3) (i : S2x3x2x256x1024.Idx) :
    i ∈ (stgRect d j h).set ↔ (i 0).val = d.val ∧ (i 1).val = h.val ∧ (i 2).val = j.val := by
  have h3 : (i 3).val < 256 := (i 3).isLt
  have h4 : (i 4).val < 1024 := (i 4).isLt
  rw [Rect.mem_set_unit, Fin.forall_fin_succ, Fin.forall_fin_succ, Fin.forall_fin_succ, Fin.forall_fin_succ, Fin.forall_fin_one]
  show (d.val ≤ (i 0).val ∧ (i 0).val < d.val + 1) ∧ (h.val ≤ (i 1).val ∧ (i 1).val < h.val + 1)
    ∧ (j.val ≤ (i 2).val ∧ (i 2).val < j.val + 1) ∧ (0 ≤ (i 3).val ∧ (i 3).val < 0 + 256) ∧ (0 ≤ (i 4).val ∧ (i 4).val < 0 + 1024) ↔ _
  omega

theorem slot_load_sub (d j : Fin 2) (h : Fin 3) :
    sM.view.setOn (stgRect d j h).toLoadRect.set ⊆ (slot d j h).view.set :=
  ((View.set_reshape _ _).trans (View.set_slice (v := sM.view) (stgRect d j h))).ge

/-- The scratch is its twelve slots: a slot is told by its direction, hop and piece. -/
theorem scratch_split (e : Dev nD) (f : SC (F := F)) :
    (((e : Thread nD τ).loc cc0_scratch0) ↦{fullShare} f : sProp 𝕄)
      ⊣⊢ iprop((slotPt e 0 0 0 f ∗ slotPt e 0 1 0 f ∗ slotPt e 0 0 1 f ∗ slotPt e 0 1 1 f ∗ slotPt e 0 0 2 f ∗ slotPt e 0 1 2 f)
        ∗ (slotPt e 1 0 0 f ∗ slotPt e 1 1 0 f ∗ slotPt e 1 0 1 f ∗ slotPt e 1 1 1 f ∗ slotPt e 1 0 2 f ∗ slotPt e 1 1 2 f)) := by
  have hL := fun Φ : Fin 3 × Fin 2 → sProp 𝕄 =>
    bigSep_univ_eq_bigSepL [(0, 0), (0, 1), (1, 0), (1, 1), (2, 0), (2, 1)] (by decide) (by decide) Φ
  rw [pt_keyed (ℓ := (e : Thread nD τ).loc cc0_scratch0) (fun i : S2x3x2x256x1024.Idx => ((i 0).val, (i 1).val, (i 2).val))
      (fun t : Fin 2 × Fin 3 × Fin 2 => (t.1.val, t.2.1.val, t.2.2.val))
      (fun a b h => by rw [Prod.mk.injEq, Prod.mk.injEq] at h; exact Prod.ext (Fin.ext h.1) (Prod.ext (Fin.ext h.2.1) (Fin.ext h.2.2)))
      (fun t => (slot t.1 t.2.2 t.2.1).view.set)
      (fun t i => by rw [slot_set_eq, mem_stgRect, Prod.mk.injEq, Prod.mk.injEq])
      (fun i => ⟨fun _ => ⟨(⟨(i 0).val, (i 0).isLt⟩, ⟨(i 1).val, (i 1).isLt⟩, ⟨(i 2).val, (i 2).isLt⟩), rfl⟩, fun _ => Finset.mem_univ _⟩) f,
    bigSep_univ_prod, bigSep_fin_two, hL, hL]
  exact .rfl

theorem outPt_any (e q : Dev nD) (d j : Fin 2) (f : OC (F := F)) : outPt e q d j f ⊢ outAny (F := F) e q d j := by
  unfold outAny; exact exists_intro (Φ := fun f => outPt (F := F) e q d j f) f

theorem slots_split (e : Dev nD) :
    iprop(∃ f : Buf (Elt F) ((e : Thread nD τ).loc cc0_scratch0), ((e : Thread nD τ).loc cc0_scratch0) ↦{fullShare} f)
      ⊢ iprop(slots6 (F := F) e 0 ∗ slots6 (F := F) e 1) := by
  refine exists_elim fun f => (scratch_split e f).1.trans ?_
  have any (d j : Fin 2) (h : Fin 3) : slotPt e d j h f ⊢ slotAny (F := F) e d j h :=
    exists_intro (Φ := fun f => slotPt (F := F) e d j h f) f
  have h6 (d : Fin 2) : iprop(slotPt e d 0 0 f ∗ slotPt e d 1 0 f ∗ slotPt e d 0 1 f ∗ slotPt e d 1 1 f ∗ slotPt e d 0 2 f ∗ slotPt e d 1 2 f)
      ⊢ slots6 (F := F) e d :=
    BI.sep_mono (any _ _ _) (BI.sep_mono (any _ _ _) (BI.sep_mono (any _ _ _) (BI.sep_mono (any _ _ _) (BI.sep_mono (any _ _ _) (any _ _ _)))))
  exact BI.sep_mono (h6 0) (h6 1)

end Cert.KernelIdeal.Ring

end
-- ==== Proof.KernelIdeal.PostAsm.lean ====
import proofs.«900116_g7700000000000117_dist_ar_v7x_i4_i_m4096_n1024_bf16_1_alg».proof.Proof.KernelIdeal.State
import proofs.«900116_g7700000000000117_dist_ar_v7x_i4_i_m4096_n1024_bf16_1_alg».proof.Proof.KernelIdeal.Contents
import proofs.«900116_g7700000000000117_dist_ar_v7x_i4_i_m4096_n1024_bf16_1_alg».proof.Proof.KernelIdeal.Regions

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem up4 (d : Fin 2) (c : Dev nD) : up d (up d (up d (up d c))) = c := by revert d c; decide

theorem bigSepL_append {I : Type} (l₁ l₂ : List I) (Φ : I → sProp 𝕄) :
    bigSepL (l₁ ++ l₂) Φ = BI.sep (bigSepL l₁ Φ) (bigSepL l₂ Φ) := by
  induction l₁ with
  | nil => exact (equiv_iff.mp BI.emp_sep).symm
  | cons i l ih =>
    rw [List.cons_append, bigSepL_cons, bigSepL_cons, ih]; exact (equiv_iff.mp ⟨BI.sep_assoc, BI.sep_assoc'⟩).symm

/-- What the landing of hop `h` left in its slot. -/
def slotEnd (h : Fin 3) (d j : Fin 2) (c : Dev nD) : SC (F := F) :=
  match h with
  | 0 => S0 m ρ d j c
  | 1 => S1 m ρ d j c
  | 2 => S2 m ρ d j c

/-- Contents of the whole scratch that are `slotEnd` on every slot. -/
def gluedS (c : Dev nD) : SC (F := F) := fun i =>
  slotEnd m ρ ⟨(i 1).val, (i 1).isLt⟩ ⟨(i 0).val, (i 0).isLt⟩ ⟨(i 2).val, (i 2).isLt⟩ c i

theorem glueS (c : Dev nD) (d j : Fin 2) (h : Fin 3) : slotPt c d j h (slotEnd m ρ h d j c) = slotPt c d j h (gluedS m ρ c) :=
  BI.Region.is_congr fun i hi => by
    obtain ⟨e0, e1, e2⟩ := (mem_stgRect d j h i).mp (by rw [← slot_set_eq]; exact hi)
    have key : ∀ (h' : Fin 3) (d' j' : Fin 2), h' = h → d' = d → j' = j → slotEnd m ρ h d j c i = slotEnd m ρ h' d' j' c i := by
      rintro _ _ _ rfl rfl rfl; rfl
    exact key _ _ _ (Fin.ext e1) (Fin.ext e0) (Fin.ext e2)

section Lane
variable (c : Dev nD) (d j : Fin 2)

def lanePcs (f : OC (F := F)) : sProp 𝕄 :=
  iprop(outPt c c d j f ∗ outPt c (up d c) d j f ∗ outPt c (up d (up d c)) d j f ∗ outPt c (up d (up d (up d c))) d j f)

def laneSlots : sProp 𝕄 :=
  iprop(slotPt c d j 0 (gluedS m ρ c) ∗ slotPt c d j 1 (gluedS m ρ c) ∗ slotPt c d j 2 (gluedS m ρ c))

def laneCells : sProp 𝕄 :=
  iprop(rcvDone c d j 0 ∗ rcvDone c d j 1 ∗ rcvDone c d j 2 ∗ rcvDone c d j 3 ∗ rcvDone c d j 4 ∗ rcvDone c d j 5
    ∗ sndDone c d j 0 ∗ sndDone c d j 1 ∗ sndDone c d j 2 ∗ sndDone c d j 3 ∗ sndDone c d j 4 ∗ sndDone c d j 5)

def laneSems : List (Bool × Fin 24) :=
  [(true, kIdx d 0 j), (true, kIdx d 1 j), (true, kIdx d 2 j), (true, kIdx d 3 j), (true, kIdx d 4 j), (true, kIdx d 5 j),
    (false, kIdx d 0 j), (false, kIdx d 1 j), (false, kIdx d 2 j), (false, kIdx d 3 j), (false, kIdx d 4 j), (false, kIdx d 5 j)]

theorem laneW_fin : LaneW m ρ c d j 6 ⊢ iprop(lanePcs c d j (outAt m ρ) ∗ laneSlots m ρ c d j ∗ laneCells (F := F) c d j) := by
  unfold LaneW lanePcs laneSlots laneCells
  rw [if_pos (show 0 < 6 by decide), if_pos (show 1 < 6 by decide), if_pos (show 2 < 6 by decide),
    if_pos (show 3 < 6 by decide), if_pos (show 4 < 6 by decide), if_pos (show 5 < 6 by decide)]
  have e3 := outAt_pt m ρ c (up d (up d (up d c))) d j
  rw [up4] at e3
  have g0 : slotPt c d j 0 (S0 m ρ d j c) = _ := glueS m ρ c d j 0
  have g1 : slotPt c d j 1 (S1 m ρ d j c) = _ := glueS m ρ c d j 1
  have g2 : slotPt c d j 2 (S2 m ρ d j c) = _ := glueS m ρ c d j 2
  rw [outAt_pt m ρ c c d j, outAt_pt m ρ c (up d c) d j, outAt_pt m ρ c (up d (up d c)) d j, e3, g0, g1, g2]
  iintro ⟨P2, T0, T1, T2, R0, R1, R2, R3, R4, R5, Q0, Q1, Q2, ⟨Q3, P3⟩, ⟨Q4, P0⟩, ⟨Q5, P1⟩⟩
  iframe

end Lane

/-- The kernel's forty-eight cells are the four lanes' twelve. -/
theorem sems_closed (c : Dev nD) :
    (bigSep Finset.univ fun bk : Bool × Fin 24 => semVal ((c : Thread nD τ), osem bk) 0 : sProp 𝕄)
      = iprop(laneCells c 0 0 ∗ laneCells c 1 0 ∗ laneCells c 0 1 ∗ laneCells c 1 1) := by
  rw [bigSep_univ_eq_bigSepL (laneSems 0 0 ++ (laneSems 1 0 ++ (laneSems 0 1 ++ laneSems 1 1))) (by decide) (by decide),
    bigSepL_append, bigSepL_append, bigSepL_append]
  rfl

/-- The lanes hold, between them, every piece of every chunk. -/
theorem out_assemble (c : Dev nD) (f : OC (F := F)) :
    iprop(lanePcs c 0 0 f ∗ lanePcs c 1 0 f ∗ lanePcs c 0 1 f ∗ lanePcs c 1 1 f) ⊢ (((c : Thread nD τ).loc cc0_stg1_0) ↦{fullShare} f : sProp 𝕄) := by
  unfold lanePcs
  rw [show up 0 (up 0 (up 0 c)) = nxt c from by revert c; decide, show up 0 (up 0 c) = nxt (nxt c) from by revert c; decide,
    show up 0 c = prv c from by revert c; decide,
    show up 1 (up 1 (up 1 c)) = prv c from by revert c; decide, show up 1 (up 1 c) = nxt (nxt c) from by revert c; decide,
    show up 1 c = nxt c from by revert c; decide]
  refine .trans ?_ (out_split_at c c f).mpr
  refine .trans ?_ (Laws.sep_mono (chunk_split c c f).mpr (Laws.sep_mono (chunk_split c (nxt c) f).mpr
    (Laws.sep_mono (chunk_split c (nxt (nxt c)) f).mpr (chunk_split c (prv c) f).mpr)))
  iintro ⟨⟨A0, A1, A2, A3⟩, ⟨B0, B1, B2, B3⟩, ⟨C0, C1, C2, C3⟩, ⟨D0, D1, D2, D3⟩⟩
  iframe

theorem slots_assemble (c : Dev nD) :
    iprop(laneSlots m ρ c 0 0 ∗ laneSlots m ρ c 1 0 ∗ laneSlots m ρ c 0 1 ∗ laneSlots m ρ c 1 1)
      ⊢ (((c : Thread nD τ).loc cc0_scratch0) ↦{fullShare} gluedS m ρ c : sProp 𝕄) := by
  unfold laneSlots
  refine .trans ?_ (scratch_split c (gluedS m ρ c)).mpr
  iintro ⟨⟨A0, A1, A2⟩, ⟨B0, B1, B2⟩, ⟨C0, C1, C2⟩, ⟨D0, D1, D2⟩⟩
  iframe

theorem post_assemble (K : Dev nD × CellIx → ℕ) (c : Dev nD) : EMid m ρ K c 24 ⊢ bodyPost m ρ c := by
  rw [show EMid m ρ K c 24 = iprop(shared m ρ K ∗ LaneW m ρ c 0 0 6 ∗ LaneW m ρ c 1 0 6 ∗ LaneW m ρ c 0 1 6 ∗ LaneW m ρ c 1 1 6
      ∗ (∃ W : Waits sig Unit, owes (c : Thread nD τ) 0 W) ∗ stg c cc0_stg0_0 (xs m ρ c)) from rfl]
  refine (Laws.sep_mono .rfl (Laws.sep_mono (laneW_fin m ρ c 0 0) (Laws.sep_mono (laneW_fin m ρ c 1 0)
    (Laws.sep_mono (laneW_fin m ρ c 0 1) (Laws.sep_mono (laneW_fin m ρ c 1 1) .rfl))))).trans ?_
  unfold bodyPost Φ₁ stg
  rw [sems_closed]
  iintro ⟨#Hsh, ⟨P0, T0, C0⟩, ⟨P1, T1, C1⟩, ⟨P2, T2, C2⟩, ⟨P3, T3, C3⟩, ⟨%W, HW⟩, Hx⟩
  isplitl [T0 T1 T2 T3 C0 C1 C2 C3]
  · isplitl [T0 T1 T2 T3]
    · iexists _; iapply (slots_assemble m ρ c); iframe
    · iframe
  isplitl [HW]
  · unfold Dat.owesAt Pipeline.owesWithin
    iexists W
    isplitr
    · ipureintro; exact fun _ _ => Or.inl trivial
    · iexact HW
  isplitl [Hx]
  · iexact Hx
  · iexists _
    isplitr
    · ipureintro; rfl
    · iapply (out_assemble c (outAt m ρ)); iframe

end Cert.KernelIdeal.Ring

end
-- ==== Proof.KernelIdeal.StepRSc.lean ====
import proofs.«900116_g7700000000000117_dist_ar_v7x_i4_i_m4096_n1024_bf16_1_alg».proof.Proof.KernelIdeal.State
import proofs.«900116_g7700000000000117_dist_ar_v7x_i4_i_m4096_n1024_bf16_1_alg».proof.Proof.KernelIdeal.Tables
import proofs.«900116_g7700000000000117_dist_ar_v7x_i4_i_m4096_n1024_bf16_1_alg».proof.Proof.KernelIdeal.Contents
import proofs.«900116_g7700000000000117_dist_ar_v7x_i4_i_m4096_n1024_bf16_1_alg».proof.Proof.KernelIdeal.Regions
import proofs.«900116_g7700000000000117_dist_ar_v7x_i4_i_m4096_n1024_bf16_1_alg».proof.Proof.KernelIdeal.PreFlat

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ) (c : Dev nD)

abbrev outRect (off : Fin 2 → Nat) (hoff : ∀ a, off a + S256x1024.size a ≤ S4096x1024.size a) : Rect S4096x1024 :=
  Rect.unit (s := S4096x1024) off S256x1024.size hoff
abbrev outSl (off : Fin 2 → Nat) (hoff : ∀ a, off a + S256x1024.size a ≤ S4096x1024.size a) : Memref sig .tc .vmem S256x1024 .bf16 :=
  oM.slice (outRect off hoff) (fun _ => rfl)
abbrev scrRect (si : Fin 5 → Nat) (hsi : ∀ a, si a + S1x1x1x256x1024.size a ≤ S2x3x2x256x1024.size a) : Rect S2x3x2x256x1024 :=
  Rect.unit (s := S2x3x2x256x1024) si S1x1x1x256x1024.size hsi

-- Payment `6 + n` goes to the receive cell of hop `h'` on the device ahead.
theorem rs_owed (d j : Fin 2) (h' : Fin 6) (n : ℕ) (hn : 4 + n = 4 * h'.val + 2 * j.val + d.val) :
    owedAfter c (6 + n) = owedAfter c (7 + n) + tallyAt (recvCell (dn d c) (kIdx d h' j)) () N := by
  have e := owedAfter_send c d h' j
  rwa [← hn, ← Nat.add_assoc, ← Nat.add_assoc] at e

-- Brings what a transfer leaves into the shape of the next receive cell's payload.
theorem rs_pay2 (d j : Fin 2) (u' : Fin 3) (q : Dev nD) (fs : OC (F := F)) (fd : SC (F := F)) (Fr : sProp 𝕄) :
    iprop((slotPt (dn d c) d j u' ((slot d j u').view.write (Elt F) fd ((outPc q d j).view.read (Elt F) fs) Finset.univ) ∗ Fr) ∗ outPt c q d j fs)
      ⊢ iprop(slotPt (dn d c) d j u' (landIn d j u' q fs) ∗ outAny (F := F) c q d j ∗ Fr) := by
  rw [land_slot_pt]
  iintro ⟨⟨Hs, HF⟩, Hsrc⟩
  iframe Hs HF
  iapply outPt_any; iexact Hsrc

-- The data in which hops 0 and 1 differ, with the facts the common proof needs of them.
inductive RsData (d j : Fin 2) (h : Fin 6) : Prop
  | mk (q : Dev nD) (u u' : Fin 3) (h' : Fin 6) (Sv : SC (F := F)) (Fr : sProp 𝕄)
      (hq : (if h.val = 0 then up d c else up d (up d c)) = q) (hu : u.val = h.val) (hu' : u'.val = h'.val) (hh' : h'.val = h.val + 1)
      (hL : Lane m ρ c d j h.val ⊢ iprop((outPt c q d j (X m ρ c) ∗ slotAny (F := F) (dn d c) d j u' ∗ rcvOpen c d j h ∗ sndOpen c d j h')
          ∗ ((slotPt c d j u Sv ∗ rcvDone c d j h ∗ sndFlight c d j h') -∗ Lane m ρ c d j (h.val + 1))))
      (hrest : recvPay m ρ c d j h.val = iprop(slotPt c d j u Sv ∗ Fr))
      (hsend : sendPay m ρ c d j h'.val = iprop(emp))
      (hnext : recvPay m ρ (dn d c) d j h'.val
          = iprop(slotPt (dn d c) d j u' (landIn d j u' q (accOn d j u q (X m ρ c) Sv)) ∗ outAny (F := F) c q d j ∗ Fr))

theorem rs_data (d j : Fin 2) (h : Fin 6) (hh : h.val ≤ 1) : RsData m ρ c d j h := by
  obtain rfl | rfl : h = 0 ∨ h = 1 := (by omega : h.val = 0 ∨ h.val = 1).imp Fin.ext Fin.ext
  · refine ⟨up d c, 0, 1, 1, S0 m ρ d j c, outAny (F := F) (up d c) (up d c) d j, rfl, rfl, rfl, rfl, ?_, rfl, rfl, ?_⟩
    · show iprop(_ ∗ _) ⊢ iprop(_ ∗ (_ -∗ iprop(_ ∗ _)))
      iintro ⟨Hout, Ho2, Ho3, Hs1, Hs2, Hr0, Hr1, Hr2, Hr3, Hr4, Hr5, Hf0, Hso1, Hso2, Hso3, Hso4, Hso5⟩
      iframe Hout Hs1 Hr0 Hso1
      iintro ⟨Hs, Hd, Hf⟩
      iframe
    · show iprop(slotPt _ d j 1 (S1 m ρ d j (dn d c)) ∗ _) = _
      rw [S1, up_dn]; rfl
  · refine ⟨up d (up d c), 1, 2, 2, S1 m ρ d j c, iprop(outAny (F := F) (up d c) (up d (up d c)) d j ∗ outAny (F := F) (up d (up d c)) (up d (up d c)) d j),
      rfl, rfl, rfl, rfl, ?_, rfl, rfl, ?_⟩
    · show iprop(_ ∗ _) ⊢ iprop(_ ∗ (_ -∗ iprop(_ ∗ _)))
      iintro ⟨Hout, Ho3, Hs0, Hs2, Hr0, Hr1, Hr2, Hr3, Hr4, Hr5, Hf0, Hf1, Hso2, Hso3, Hso4, Hso5⟩
      iframe Hout Hs2 Hr1 Hso2
      iintro ⟨Hs, Hd, Hf⟩
      iframe
    · show iprop(slotPt _ d j 2 (S2 m ρ d j (dn d c)) ∗ _) = _
      rw [S2, up_dn]; rfl

-- One proof for both hops, over the data of `rs_data`.
theorem step_rs (d j : Fin 2) (h : Fin 6) (hh : h.val ≤ 1) (s : ℕ) (hs : s = h.val)
    {α : Type} (Q : α → sProp 𝕄) (kont : PUnit → Prog (TpuEff nD τ sig (Elt F) Λ₀ .tc) α)
    (rsem : DmaSem sig) (hrsem : rsem = recvSem (kIdx d h j))
    (si : Fin 5 → Nat) (hsi : ∀ a, si a + S1x1x1x256x1024.size a ≤ S2x3x2x256x1024.size a) (esi : si = stgI d.val h.val j.val)
    (hw1 hw2 : (stgPc si hsi).view.WordExact)
    (off : Fin 2 → Nat) (hoff : ∀ a, off a + S256x1024.size a ≤ S4096x1024.size a)
    (eoff : off = pcOff (if h.val = 0 then up d c else up d (up d c)) d j)
    (l1 l3 : oM.view.LoadsAt (outRect off hoff).toLoadRect) (l2 : sM.view.LoadsAt (scrRect si hsi).toLoadRect)
    (pay : Vec F S256x1024 .bf16 → Vec F S1x1x1x256x1024 .bf16 → FVec F S256x1024 .bf16) (hpay : pay = k0_pay5)
    (st1 : (oM.access (outRect off hoff)).Stores Finset.univ) (st2 : (Finset.univ : Finset (outRect off hoff).shape.Idx) = Finset.univ ∨ ∀ a, (outRect off hoff).stride a = 1)
    (soff : Fin 2 → Nat) (hsoff : ∀ a, soff a + S256x1024.size a ≤ S4096x1024.size a) (esoff : soff = off)
    (tgt : Dev nD) (htgt : tgt = dn d c)
    (ti : Fin 5 → Nat) (hti : ∀ a, ti a + S1x1x1x256x1024.size a ≤ S2x3x2x256x1024.size a) (eti : ti = stgI d.val (h.val + 1) j.val)
    (ssem rsem' : DmaSem sig) (hssem : ssem = sendSem (kIdx d ⟨h.val + 1, by omega⟩ j)) (hrsem' : rsem' = recvSem (kIdx d ⟨h.val + 1, by omega⟩ j))
    (hsc : (stgPc ti hti).view.ref.isScScratch = false)
    (e1 : (outSl soff hsoff).view.WordExact) (e2 : (stgPc ti hti).view.WordExact)
    (e3 : DmaTarget.Typed .vmem (.dma rsem') (.remote (Dev.tc tgt : Thread nD τ) (stgPc ti hti) (.dma ssem) hsc))
    (O : CellTallies nD τ sig Unit) (n : ℕ) (hn : n = 4 * h.val + 2 * j.val + d.val) :
    iprop(shared m ρ K ∗ Lane m ρ c d j s ∗ (∃ W : Waits sig Unit, owes (c : Thread nD τ) (owedAfter c (6 + n)) W)
        ∗ ((Lane m ρ c d j (s + 1) ∗ (∃ W : Waits sig Unit, owes (c : Thread nD τ) (owedAfter c (7 + n)) W))
            -∗ wp frame (wpE (defs₀ (F := F)) 𝒱₀ (c : Thread nD τ) none) Set.univ (kont ⟨⟩) Q))
      ⊢ wp frame (wpE (defs₀ (F := F)) 𝒱₀ (c : Thread nD τ) none) Set.univ (.op (.waitDma2 rsem (stgPc si hsi) (stgPc si hsi) hw1 hw2) fun _ =>
           .op (.load oM (outRect off hoff).toLoadRect l1) fun v1 =>
           .op (.load sM (scrRect si hsi).toLoadRect l2) fun v2 =>
           .op (.load oM (outRect off hoff).toLoadRect l3) fun _ =>
           .op (.store oM (outRect off hoff) (pay v1 v2) Finset.univ st1 st2) fun _ =>
           .op (.enqueueDma (outSl soff hsoff) (.remote (Dev.tc tgt : Thread nD τ) (stgPc ti hti) (.dma ssem) hsc) (.dma rsem') e1 e2 e3) kont) Q := by
  obtain ⟨q, u, u', h', Sv, Fr, hq, hu, hu', hh', hL, hrest, hsend, hnext⟩ := rs_data m ρ c d j h hh
  rw [show (⟨h.val + 1, by omega⟩ : Fin 6) = h' from Fin.ext hh'.symm] at hssem hrsem'
  rw [← hu] at esi; rw [← hh', ← hu'] at eti; rw [hq] at eoff
  subst hs hrsem esi eoff hpay esoff htgt eti hssem hrsem' hn
  unfold rcvOpen rcvDone sndOpen sndFlight slotAny outPt slotPt at hL
  unfold slotPt at hrest
  iintro ⟨#Hsh, HL, ⟨%W, HO⟩, Hk⟩
  ihave #HIr := (shared_inv m ρ K c (some (true, kIdx d h j))) $$ Hsh
  ihave #Hlev := (shared_lev m ρ K) $$ Hsh
  ihave HL := hL $$ HL
  icases HL with ⟨⟨Hout, ⟨%fd, Hdst⟩, ⟨Hat, Hc⟩, HtS, HtR, HatS⟩, HL⟩
  iapply (Rounds.wp_wait_rest_token 𝒱₀ ER (ringRd m ρ) (c : Thread nD τ) none
      (wpE_waitDma2_eq 𝒱₀ (c : Thread nD τ) none Set.univ) (Set.mem_univ _) () (R := 0) (m := 0)
      (by rw [Nat.zero_add, expect_recv])) $$ [Hc HO Hat]
  · isplitr; · iexact HIr
    iframe Hc HO Hat
    iapply (mayWait_recv c d h j (by omega)); iexact Hlev
  iintro ⟨HO, Hat, -, Hpay⟩
  imod (Rounds.cell_close ER (ringRd m ρ) (Set.mem_univ _) id
    (duties_later m ρ (recvCell c (kIdx d h j)))) $$ [Hat] with Hz
  · isplitr; · iexact HIr
    iexact Hat
  ihave Hp := (BIBase.Entails.of_eq ((rest_recv m ρ c d h j).trans hrest)) $$ Hpay
  icases Hp with ⟨Hslot, HF⟩
  iapply (wp_load 𝒱₀ (c : Thread nD τ) none Set.univ (pc_load_sub q d j)) $$ Hout; iintro Hout
  iapply (wp_load 𝒱₀ (c : Thread nD τ) none Set.univ (slot_load_sub d j u)) $$ Hslot; iintro Hslot
  iapply (wp_load 𝒱₀ (c : Thread nD τ) none Set.univ (pc_load_sub q d j)) $$ Hout; iintro Hout
  iapply (wp_store 𝒱₀ (c : Thread nD τ) none Set.univ (pc_store_sub q d j)) $$ Hout; iintro Hout
  ihave #HIs := (shared_inv m ρ K c (some (false, kIdx d h' j))) $$ Hsh
  ihave #HIr' := (shared_inv m ρ K (dn d c) (some (true, kIdx d h' j))) $$ Hsh
  ihave #HRs := (shared_reached m ρ K c (some (false, kIdx d h' j))) $$ Hsh
  ihave #HRr' := (shared_reached m ρ K (dn d c) (some (true, kIdx d h' j))) $$ Hsh
  iapply (Rounds.wp_send_landing_pointsTo_with 𝒱₀ ER (ringRd m ρ) (c : Thread nD τ) none (c' := ((dn d c : Dev nD) : Thread nD τ))
      (src := outPc q d j) (dst := slot d j u') (sS := .dma (sendSem (kIdx d h' j))) (sem := .dma (recvSem (kIdx d h' j)))
      (fs := accOn d j u q (X m ρ c) Sv) (F := Fr)
      (r₁ := 0) (r₂ := 0) (d₁ := false) (d₂ := false)
      (by rw [duties_send]; exact Finset.mem_singleton_self _) (by rw [duties_recv]; exact Finset.mem_singleton_self _)
      () () N rfl (amount_send m ρ c _ false) (amount_recv m ρ (dn d c) _ false)
      (owedAfter c (7 + (4 * h.val + 2 * j.val + d.val))) (rs_owed c d j h' _ (by omega))
      (.of_eq ((payload_send m ρ c d _ j false).trans hsend).symm)
      (by rw [payload_recv]; exact (rs_pay2 c d j u' q _ fd Fr).trans (.of_eq hnext.symm))) $$ [Hout Hdst HF HO HtS HtR]
  · isplitr; · iexact HIs
    isplitr; · iexact HIr'
    isplitl [Hout]; · iexact Hout
    iframe Hdst HF HO HtS
    isplitr; · iexact HRs
    iframe HtR
    iexact HRr'
  iintro ⟨HcS, HO⟩
  iapply Hk
  isplitr [HO]
  · iapply HL; iframe
  · iexists _; iexact HO

end Cert.KernelIdeal.Ring

end
-- ==== Proof.KernelIdeal.StepAG.lean ====
import proofs.«900116_g7700000000000117_dist_ar_v7x_i4_i_m4096_n1024_bf16_1_alg».proof.Proof.KernelIdeal.State
import proofs.«900116_g7700000000000117_dist_ar_v7x_i4_i_m4096_n1024_bf16_1_alg».proof.Proof.KernelIdeal.Tables
import proofs.«900116_g7700000000000117_dist_ar_v7x_i4_i_m4096_n1024_bf16_1_alg».proof.Proof.KernelIdeal.Contents
import proofs.«900116_g7700000000000117_dist_ar_v7x_i4_i_m4096_n1024_bf16_1_alg».proof.Proof.KernelIdeal.PreFlat

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ) (c : Dev nD)

abbrev agRect (off : Fin 2 → Nat) (hoff : ∀ a, off a + S256x1024.size a ≤ S4096x1024.size a) : Rect S4096x1024 :=
  Rect.unit (s := S4096x1024) off S256x1024.size hoff
abbrev agSl (off : Fin 2 → Nat) (hoff : ∀ a, off a + S256x1024.size a ≤ S4096x1024.size a) : Memref sig .tc .vmem S256x1024 .bf16 :=
  oM.slice (agRect off hoff) (fun _ => rfl)

-- A step on a part `B` of `A` is a step on `A`.
theorem lift_step {S A A' B B' O O' W W0 : sProp 𝕄} (ho : A ⊢ iprop(B ∗ (B' -∗ A')))
    (hs : iprop(S ∗ B ∗ O ∗ ((B' ∗ O') -∗ W)) ⊢ W0) : iprop(S ∗ A ∗ O ∗ ((A' ∗ O') -∗ W)) ⊢ W0 := by
  refine .trans ?_ hs
  iintro ⟨HS, HA, HO, Hk⟩
  ihave HA := ho $$ HA
  icases HA with ⟨HB, Hw⟩
  iframe HS HB HO
  iintro ⟨HB', HO'⟩
  iapply Hk
  iframe HO'
  iapply Hw
  iexact HB'

-- A wait on a transfer cell of `c` closes the cell and hands over its round's payload.
theorem wait_cell {sm : DmaSem sig} {κ : ℕ} {O : CellTallies nD τ sig Unit} {P : sProp 𝕄}
    (hI : shared m ρ K ⊢ cellInv ER (ringRd m ρ) κ ((c : Thread nD τ), .dma sm))
    (hN : (ringRd m ρ).expect ((c : Thread nD τ), .dma sm) 0 = N)
    (hP : bigSep ((ringRd m ρ).duties ((c : Thread nD τ), .dma sm) 0 \ ∅) (fun b => (ringRd m ρ).payload ((c : Thread nD τ), .dma sm) 0 b) = P)
    (hmw : shared m ρ K ⊢ MayWait (c : Thread nD τ) (.dma sm) () O)
    {α : Type} (Q : α → sProp 𝕄) (kont : PUnit → Prog (TpuEff nD τ sig (Elt F) Λ₀ .tc) α)
    (a : Memref sig .tc .vmem S256x1024 .bf16) (off : Fin 2 → Nat) (hoff : ∀ a, off a + S256x1024.size a ≤ S4096x1024.size a)
    (hw1 : a.view.WordExact) (hw2 : (agSl off hoff).view.WordExact) :
    iprop(shared m ρ K ∗ (atPos ER ((c : Thread nD τ), .dma sm) 0 ∅ 0 ∗ cred (tallyAt ((c : Thread nD τ), .dma sm) () N))
        ∗ (∃ W : Waits sig Unit, owes (c : Thread nD τ) O W)
        ∗ (((semVal ((c : Thread nD τ), .dma sm) 0 ∗ P) ∗ (∃ W : Waits sig Unit, owes (c : Thread nD τ) O W))
            -∗ wp frame (wpE (defs₀ (F := F)) 𝒱₀ (c : Thread nD τ) none) Set.univ (kont ⟨⟩) Q))
      ⊢ wp frame (wpE (defs₀ (F := F)) 𝒱₀ (c : Thread nD τ) none) Set.univ (.op (.waitDma2 sm a (agSl off hoff) hw1 hw2) kont) Q := by
  subst hP
  iintro ⟨#Hsh, ⟨Hat, Hc⟩, ⟨%W, HO⟩, Hk⟩
  ihave #HI := hI $$ Hsh
  iapply (Rounds.wp_wait_rest_token 𝒱₀ ER (ringRd m ρ) (c : Thread nD τ) none (κ := κ)
      (wpE_waitDma2_eq 𝒱₀ (c : Thread nD τ) none Set.univ) (Set.mem_univ _) () (O := O) (W := W) (R := 0) (m := 0) (T := ∅)
      (by rw [Nat.zero_add, hN])) $$ [Hc HO Hat]
  · iframe HI Hc HO Hat
    iapply hmw; iexact Hsh
  iintro ⟨HO, Hat, -, Hpay⟩
  imod (Rounds.cell_close ER (ringRd m ρ) (Set.mem_univ κ) (fun h => h) (R := 0 + 1) (duties_later m ρ _)) $$ [Hat] with Hz
  · iframe HI Hat
  iapply Hk
  iframe Hz Hpay
  iexists _; iexact HO

-- What hops 3 and 4 differ in: the lane before and after, the piece `q` that lands, and what else (`Fr`) the landing brings.
def AgHop (d j : Fin 2) (h h' : Fin 6) (s : ℕ) (q : Dev nD) : Prop :=
  ∃ Fr : sProp 𝕄,
    (Lane m ρ c d j s ⊢ iprop((rcvOpen c d j h ∗ sndOpen c d j h') ∗ ((rcvDone c d j h ∗ sndFlight c d j h') -∗ Lane m ρ c d j (s + 1)))) ∧
    (recvPay m ρ c d j h.val ⊢ iprop(outPt c q d j (A2 m ρ d j (up d q)) ∗ (∃ f, outPt (F := F) (dn d c) q d j f) ∗ Fr)) ∧
    (outPt c q d j (A2 m ρ d j (up d q)) ⊢ sendPay m ρ c d j h'.val) ∧
    (iprop(outPt (dn d c) q d j (A2 m ρ d j (up d q)) ∗ Fr) ⊢ recvPay m ρ (dn d c) d j h'.val) ∧ h'.val = h.val + 1 ∧ h.val ≤ 4

theorem agHop3 (d j : Fin 2) : AgHop m ρ c d j 3 4 3 c :=
  ⟨_, by
    show _ ⊢ iprop(_ ∗ (_ -∗ Lane m ρ c d j 4))
    rw [Lane, Lane]
    iintro ⟨a, b, c, d, e, f, g, h, i, j, k, l, m, n, o⟩
    iframe
    iintro ⟨x, y⟩
    iframe, .rfl, .rfl,
    .of_eq (by show _ = recvPay m ρ (dn d c) d j 4; rw [recvPay, up_dn]), rfl, by decide⟩

theorem agHop4 (d j : Fin 2) : AgHop m ρ c d j 4 5 4 (up d c) :=
  ⟨iprop(emp), by
    show _ ⊢ iprop(_ ∗ (_ -∗ Lane m ρ c d j 5))
    rw [Lane, Lane]
    iintro ⟨a, b, c, d, e, f, g, h, i, j, k, l, m, n, o⟩
    iframe
    iintro ⟨x, y⟩
    iframe, sep_mono_right Laws.sep_emp.2, .rfl,
    Laws.sep_emp.1.trans (.of_eq (by show _ = recvPay m ρ (dn d c) d j 5; rw [recvPay, up_dn])), rfl, by decide⟩

-- Hops 3 and 4: the piece `q` lands at its final contents and goes on to the device ahead, whose copy of it came along.
theorem ag_hop (d j : Fin 2) (h h' : Fin 6) (s : ℕ) (q : Dev nD)
    (D : AgHop m ρ c d j h h' s q)
    {α : Type} (Q : α → sProp 𝕄) (kont : PUnit → Prog (TpuEff nD τ sig (Elt F) Λ₀ .tc) α)
    (rsem : DmaSem sig) (hrsem : rsem = recvSem (kIdx d h j))
    (off : Fin 2 → Nat) (hoff : ∀ a, off a + S256x1024.size a ≤ S4096x1024.size a)
    (hw1 hw2 : (agSl off hoff).view.WordExact)
    (soff : Fin 2 → Nat) (hsoff : ∀ a, soff a + S256x1024.size a ≤ S4096x1024.size a) (esoff : soff = pcOff q d j)
    (tgt : Dev nD) (htgt : tgt = dn d c)
    (ssem rsem' : DmaSem sig) (hssem : ssem = sendSem (kIdx d h' j)) (hrsem' : rsem' = recvSem (kIdx d h' j))
    (hsc : (agSl soff hsoff).view.ref.isScScratch = false)
    (e1 e2 : (agSl soff hsoff).view.WordExact)
    (e3 : DmaTarget.Typed .vmem (.dma rsem') (.remote (Dev.tc tgt : Thread nD τ) (agSl soff hsoff) (.dma ssem) hsc))
    (n : ℕ) (hn : n = 4 * h.val + 2 * j.val + d.val) :
    iprop(shared m ρ K ∗ Lane m ρ c d j s ∗ (∃ W : Waits sig Unit, owes (c : Thread nD τ) (owedAfter c (6 + n)) W)
        ∗ ((Lane m ρ c d j (s + 1) ∗ (∃ W : Waits sig Unit, owes (c : Thread nD τ) (owedAfter c (7 + n)) W))
            -∗ wp frame (wpE (defs₀ (F := F)) 𝒱₀ (c : Thread nD τ) none) Set.univ (kont ⟨⟩) Q))
      ⊢ wp frame (wpE (defs₀ (F := F)) 𝒱₀ (c : Thread nD τ) none) Set.univ
          (.op (.waitDma2 rsem (agSl off hoff) (agSl off hoff) hw1 hw2) fun _ =>
           .op (.enqueueDma (agSl soff hsoff) (.remote (Dev.tc tgt : Thread nD τ) (agSl soff hsoff) (.dma ssem) hsc) (.dma rsem') e1 e2 e3) kont) Q := by
  obtain ⟨Fr, ho, hx⟩ := D
  have hr := hx.1; have hs := hx.2.1; have hr' := hx.2.2.1; have hh := hx.2.2.2.1; have h4 := hx.2.2.2.2
  refine lift_step ho ?_
  subst hrsem esoff htgt hssem hrsem'
  unfold rcvOpen rcvDone sndOpen sndFlight
  unfold outPt at hr
  iintro ⟨#Hsh, ⟨Hro, HtS, HtR, HatS⟩, HO, Hk⟩
  iapply (wait_cell m ρ K c (shared_inv m ρ K c (some (true, kIdx d h j))) (expect_recv m ρ c _) (rest_recv m ρ c d h j)
      ((shared_lev m ρ K).trans (hn ▸ mayWait_recv c d h j h4)))
  iframe Hsh Hro HO
  iintro ⟨⟨Hrd, Hp⟩, %W, HO⟩
  ihave Hp := hr $$ Hp
  icases Hp with ⟨Hsrc, ⟨%fd, Hdst⟩, HF⟩
  iapply (Rounds.wp_send_pointsTo_with 𝒱₀ ER (ringRd m ρ) (c : Thread nD τ) none (c' := ((dn d c : Dev nD) : Thread nD τ))
      (src := outPc q d j) (dst := outPc q d j) (sS := .dma (sendSem (kIdx d h' j))) (sem := .dma (recvSem (kIdx d h' j)))
      (q := fullShare) (fs := A2 m ρ d j (up d q)) (fd := fd) (F := Fr) (W := W)
      (κ₁ := K (c, some (false, kIdx d h' j))) (κ₂ := K (dn d c, some (true, kIdx d h' j))) (r₁ := 0) (r₂ := 0) (d₁ := false) (d₂ := false)
      (by rw [duties_send]; exact Finset.mem_singleton_self _) (by rw [duties_recv]; exact Finset.mem_singleton_self _)
      () () N rfl (amount_send m ρ c _ false) (amount_recv m ρ (dn d c) _ false) (owedAfter c (7 + n))
      (show owedAfter c (6 + n) = _ by
          have e := owedAfter_send c d h' j
          rwa [show 2 + (4 * h'.val + 2 * j.val + d.val) = 6 + n by omega, show 3 + (4 * h'.val + 2 * j.val + d.val) = 7 + n by omega] at e)
      (by rw [payload_send]; exact hs) (by rw [payload_recv]; exact (sep_mono_left (.of_eq (land_out_pt (dn d c) q d j fd _))).trans hr')) $$ [Hsrc Hdst HF HO HtS HtR]
  · iframe Hsrc Hdst HF HO HtS HtR
    isplitr
    · iapply (shared_inv m ρ K c (some (false, kIdx d h' j))); iexact Hsh
    isplitr
    · iapply (shared_inv m ρ K (dn d c) (some (true, kIdx d h' j))); iexact Hsh
    isplitr
    · iapply (shared_reached m ρ K c (some (false, kIdx d h' j))); iexact Hsh
    iapply (shared_reached m ρ K (dn d c) (some (true, kIdx d h' j))); iexact Hsh
  iintro ⟨HcS, HO⟩
  iapply Hk
  iframe Hrd HatS HcS
  iexists _; iexact HO

theorem step_last (d j : Fin 2)
    {α : Type} (Q : α → sProp 𝕄) (kont : PUnit → Prog (TpuEff nD τ sig (Elt F) Λ₀ .tc) α)
    (rsem : DmaSem sig) (hrsem : rsem = recvSem (kIdx d 5 j))
    (off : Fin 2 → Nat) (hoff : ∀ a, off a + S256x1024.size a ≤ S4096x1024.size a)
    (hw1 hw2 : (agSl off hoff).view.WordExact) :
    iprop(shared m ρ K ∗ Lane m ρ c d j 5 ∗ (∃ W : Waits sig Unit, owes (c : Thread nD τ) (owedAfter c 26) W)
        ∗ ((Lane m ρ c d j 6 ∗ (∃ W : Waits sig Unit, owes (c : Thread nD τ) (owedAfter c 26) W))
            -∗ wp frame (wpE (defs₀ (F := F)) 𝒱₀ (c : Thread nD τ) none) Set.univ (kont ⟨⟩) Q))
      ⊢ wp frame (wpE (defs₀ (F := F)) 𝒱₀ (c : Thread nD τ) none) Set.univ
          (.op (.waitDma2 rsem (agSl off hoff) (agSl off hoff) hw1 hw2) kont) Q :=
  hrsem ▸ lift_step (by
      show _ ⊢ iprop(rcvOpen c d j 5 ∗ ((rcvDone c d j 5 ∗ recvPay m ρ c d j 5) -∗ _))
      simp only [Lane, recvPay]
      iintro ⟨a, b, c, d, e, f, g, h, i, j⟩
      iframe
      iintro ⟨x, y⟩
      iframe)
    (wait_cell m ρ K c (shared_inv m ρ K c (some (true, kIdx d 5 j))) (expect_recv m ρ c _) (rest_recv m ρ c d 5 j)
      (by rw [owedAfter_end, MayWait_zero]; iintro -; iempintro) Q kont _ off hoff hw1 hw2)

end Cert.KernelIdeal.Ring

end
-- ==== Proof.KernelIdeal.StepSW.lean ====
import proofs.«900116_g7700000000000117_dist_ar_v7x_i4_i_m4096_n1024_bf16_1_alg».proof.Proof.KernelIdeal.StepAG

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ) (c : Dev nD)

-- A lane gives up its next read-out in flight and takes it back waited for.
theorem laneW_open (d j : Fin 2) (h : Fin 6) :
    LaneW m ρ c d j h.val ⊢ iprop(sndFlight c d j h ∗ ((sndDone c d j h ∗ sendPay m ρ c d j h.val) -∗ LaneW m ρ c d j (h.val + 1))) := by
  unfold LaneW
  match h with
  | 0 | 1 | 2 | 3 | 4 | 5 =>
    simp (config := {decide := true}) only [sendPay, if_true, if_false]
    iintro ⟨a, b, c, d, e, f, g, h, i, j, k, l, m, n, o, p⟩
    iframe
    iintro ⟨x, y⟩
    iframe

theorem step_sw (d j : Fin 2) (h : Fin 6) (n : ℕ) (hn : n = 4 * h.val + 2 * j.val + d.val)
    {α : Type} (Q : α → sProp 𝕄) (kont : PUnit → Prog (TpuEff nD τ sig (Elt F) Λ₀ .tc) α)
    (ssem : DmaSem sig) (hssem : ssem = sendSem (kIdx d h j))
    (src : Memref sig .tc .vmem S256x1024 .bf16)
    (off : Fin 2 → Nat) (hoff : ∀ a, off a + S256x1024.size a ≤ S4096x1024.size a)
    (hw1 : src.view.WordExact)
    (hw2 : (oM.slice (Rect.unit (s := S4096x1024) off S256x1024.size hoff) (fun _ => rfl)).view.WordExact) :
    iprop(EMid m ρ K c n ∗ (EMid m ρ K c (n + 1) -∗ wp frame (wpE (defs₀ (F := F)) 𝒱₀ (c : Thread nD τ) none) Set.univ (kont ⟨⟩) Q))
      ⊢ wp frame (wpE (defs₀ (F := F)) 𝒱₀ (c : Thread nD τ) none) Set.univ (.op (.waitDma2 ssem src (oM.slice (Rect.unit (s := S4096x1024) off S256x1024.size hoff) (fun _ => rfl)) hw1 hw2) kont) Q := by
  subst hssem hn
  refine .trans ?_ (lift_step (laneW_open m ρ c d j h) (wait_cell m ρ K c (shared_inv m ρ K c (some (false, kIdx d h j)))
    (expect_send m ρ c _) (rest_send m ρ c d h j) (by rw [MayWait_zero]; iintro -; iempintro) Q kont src off hoff hw1 hw2))
  unfold EMid
  match d, j with
  | 0, 0 | 1, 0 | 0, 1 | 1, 1 =>
    simp (config := {decide := true}) only [Fin.val_zero, Fin.val_one, Nat.mul_zero, Nat.mul_one, Nat.add_zero, Nat.add_assoc, Nat.reduceAdd,
      Nat.mul_add_div, Nat.mul_div_cancel_left, Nat.reduceDiv]
    iintro ⟨⟨#Hsh, L0, L1, L2, L3, HO, Hx⟩, Hk⟩
    iframe Hsh HO
    iframe
    iintro ⟨HL, HO⟩
    iapply Hk
    iframe Hsh
    iframe

theorem mid_emid : Mid m ρ K c 24 ⊢ EMid m ρ K c 0 := by
  unfold Mid EMid LaneW
  simp (config := {decide := true}) only [Lane, owedAfter_end, if_false, Nat.reduceAdd, Nat.reduceDiv, Nat.min_eq_right]
  exact .rfl

end Cert.KernelIdeal.Ring

end
-- ==== Proof.KernelIdeal.StepRS2.lean ====
import proofs.«900116_g7700000000000117_dist_ar_v7x_i4_i_m4096_n1024_bf16_1_alg».proof.Proof.KernelIdeal.State
import proofs.«900116_g7700000000000117_dist_ar_v7x_i4_i_m4096_n1024_bf16_1_alg».proof.Proof.KernelIdeal.Tables
import proofs.«900116_g7700000000000117_dist_ar_v7x_i4_i_m4096_n1024_bf16_1_alg».proof.Proof.KernelIdeal.Contents
import proofs.«900116_g7700000000000117_dist_ar_v7x_i4_i_m4096_n1024_bf16_1_alg».proof.Proof.KernelIdeal.Regions
import proofs.«900116_g7700000000000117_dist_ar_v7x_i4_i_m4096_n1024_bf16_1_alg».proof.Proof.KernelIdeal.PreFlat

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ) (c : Dev nD)

abbrev rs2Rect (off : Fin 2 → Nat) (hoff : ∀ a, off a + S256x1024.size a ≤ S4096x1024.size a) : Rect S4096x1024 :=
  Rect.unit (s := S4096x1024) off S256x1024.size hoff
abbrev rs2Sl (off : Fin 2 → Nat) (hoff : ∀ a, off a + S256x1024.size a ≤ S4096x1024.size a) : Memref sig .tc .vmem S256x1024 .bf16 :=
  oM.slice (rs2Rect off hoff) (fun _ => rfl)
abbrev rs2Scr (si : Fin 5 → Nat) (hsi : ∀ a, si a + S1x1x1x256x1024.size a ≤ S2x3x2x256x1024.size a) : Rect S2x3x2x256x1024 :=
  Rect.unit (s := S2x3x2x256x1024) si S1x1x1x256x1024.size hsi

-- Payment `6 + n` goes to the receive cell of hop 3 on the device ahead.
theorem rs2_owed (d j : Fin 2) (n : ℕ) (hn : 4 + n = 4 * 3 + 2 * j.val + d.val) :
    owedAfter c (6 + n) = owedAfter c (7 + n) + tallyAt (recvCell (dn d c) (kIdx d 3 j)) () N := by
  have e := owedAfter_send c d 3 j
  rwa [show (3 : Fin 6).val = 3 from rfl, ← hn, ← Nat.add_assoc, ← Nat.add_assoc] at e

-- Hop 2's payload with every device counted from `c` down the ring.
theorem rs2_rest (d j : Fin 2) :
    recvPay m ρ c d j 2 = iprop(slotPt c d j 2 (S2 m ρ d j c)
          ∗ outAny (F := F) (dn d (dn d (dn d c))) (dn d c) d j ∗ outAny (F := F) (dn d (dn d c)) (dn d c) d j
          ∗ ∃ f : OC (F := F), outPt (dn d c) (dn d c) d j f) := by
  show iprop(_ ∗ _ ∗ _ ∗ _) = _
  rw [up3_eq_dn, show up d (up d c) = dn d (dn d c) by revert d c; decide, show up d c = dn d (dn d (dn d c)) by revert d c; decide]; rfl

-- Three steps up the ring are one step down.
theorem rs2_val (d j : Fin 2) : accOn d j 2 (dn d c) (X m ρ c) (S2 m ρ d j c) = A2 m ρ d j c := by
  rw [← up3_eq_dn]; rfl

theorem rs2_pay1 (d j : Fin 2) :
    outPt c (dn d c) d j (accOn d j 2 (dn d c) (X m ρ c) (S2 m ρ d j c)) ⊢ (ringRd m ρ).payload (sendCell c (kIdx d 3 j)) 0 false := by
  rw [payload_send, rs2_val]
  show _ ⊢ outPt c (up d (up d (up d c))) d j (A2 m ρ d j c)
  rw [up3_eq_dn]

theorem rs2_pay2 (d j : Fin 2) (fd : OC (F := F)) :
    iprop(outPt (dn d c) (dn d c) d j ((outPc (dn d c) d j).view.write (Elt F) fd
          ((outPc (dn d c) d j).view.read (Elt F) (accOn d j 2 (dn d c) (X m ρ c) (S2 m ρ d j c))) Finset.univ)
        ∗ (outAny (F := F) (dn d (dn d c)) (dn d c) d j ∗ outAny (F := F) (dn d (dn d (dn d c))) (dn d c) d j))
      ⊢ (ringRd m ρ).payload (recvCell (dn d c) (kIdx d 3 j)) 0 false := by
  rw [payload_recv, land_out_pt, rs2_val]
  show _ ⊢ iprop(outPt _ _ d j (A2 m ρ d j (up d (dn d c))) ∗ _)
  rw [up_dn]

-- The lane before hop 2 gives what the hop uses, and takes what it leaves into the lane after it.
theorem rs2_lane (d j : Fin 2) :
    Lane m ρ c d j 2 ⊢ iprop((outPt c (dn d c) d j (X m ρ c) ∗ rcvOpen c d j 2 ∗ sndOpen c d j 3)
      ∗ ((slotPt c d j 2 (S2 m ρ d j c) ∗ rcvDone c d j 2 ∗ sndFlight c d j 3) -∗ Lane m ρ c d j 3)) := by
  show iprop(_ ∗ _) ⊢ iprop(_ ∗ (_ -∗ iprop(_ ∗ _)))
  rw [up3_eq_dn]
  iintro ⟨Hout, Hs0, Hs1, Hr0, Hr1, Hr2, Hro3, Hro4, Hro5, Hf0, Hf1, Hf2, Hso3, Hso4, Hso5⟩
  iframe Hout Hr2 Hso3
  iintro ⟨Hs, Hd, Hf⟩
  iframe

-- Hop 2: the sum is complete and goes on into the result piece of the device ahead.
theorem step_rs2 (d j : Fin 2)
    {α : Type} (Q : α → sProp 𝕄) (kont : PUnit → Prog (TpuEff nD τ sig (Elt F) Λ₀ .tc) α)
    (rsem : DmaSem sig) (hrsem : rsem = recvSem (kIdx d 2 j))
    (si : Fin 5 → Nat) (hsi : ∀ a, si a + S1x1x1x256x1024.size a ≤ S2x3x2x256x1024.size a) (esi : si = stgI d.val 2 j.val)
    (hw1 hw2 : (stgPc si hsi).view.WordExact)
    (off : Fin 2 → Nat) (hoff : ∀ a, off a + S256x1024.size a ≤ S4096x1024.size a) (eoff : off = pcOff (dn d c) d j)
    (l1 l3 : oM.view.LoadsAt (rs2Rect off hoff).toLoadRect) (l2 : sM.view.LoadsAt (rs2Scr si hsi).toLoadRect)
    (pay : Vec F S256x1024 .bf16 → Vec F S1x1x1x256x1024 .bf16 → FVec F S256x1024 .bf16) (hpay : pay = k0_pay5)
    (st1 : (oM.access (rs2Rect off hoff)).Stores Finset.univ)
    (st2 : (Finset.univ : Finset (rs2Rect off hoff).shape.Idx) = Finset.univ ∨ ∀ a, (rs2Rect off hoff).stride a = 1)
    (soff : Fin 2 → Nat) (hsoff : ∀ a, soff a + S256x1024.size a ≤ S4096x1024.size a) (esoff : soff = pcOff (dn d c) d j)
    (tgt : Dev nD) (htgt : tgt = dn d c)
    (ssem rsem' : DmaSem sig) (hssem : ssem = sendSem (kIdx d 3 j)) (hrsem' : rsem' = recvSem (kIdx d 3 j))
    (hsc : (rs2Sl soff hsoff).view.ref.isScScratch = false)
    (e1 e2 : (rs2Sl soff hsoff).view.WordExact)
    (e3 : DmaTarget.Typed .vmem (.dma rsem') (.remote (Dev.tc tgt : Thread nD τ) (rs2Sl soff hsoff) (.dma ssem) hsc))
    (n : ℕ) (hn : n = 4 * 2 + 2 * j.val + d.val) :
    iprop(shared m ρ K ∗ Lane m ρ c d j 2 ∗ (∃ W : Waits sig Unit, owes (c : Thread nD τ) (owedAfter c (6 + n)) W)
        ∗ ((Lane m ρ c d j 3 ∗ (∃ W : Waits sig Unit, owes (c : Thread nD τ) (owedAfter c (7 + n)) W))
            -∗ wp frame (wpE (defs₀ (F := F)) 𝒱₀ (c : Thread nD τ) none) Set.univ (kont ⟨⟩) Q))
      ⊢ wp frame (wpE (defs₀ (F := F)) 𝒱₀ (c : Thread nD τ) none) Set.univ (.op (.waitDma2 rsem (stgPc si hsi) (stgPc si hsi) hw1 hw2) fun _ =>
           .op (.load oM (rs2Rect off hoff).toLoadRect l1) fun v1 =>
           .op (.load sM (rs2Scr si hsi).toLoadRect l2) fun v2 =>
           .op (.load oM (rs2Rect off hoff).toLoadRect l3) fun _ =>
           .op (.store oM (rs2Rect off hoff) (pay v1 v2) Finset.univ st1 st2) fun _ =>
           .op (.enqueueDma (rs2Sl soff hsoff) (.remote (Dev.tc tgt : Thread nD τ) (rs2Sl soff hsoff) (.dma ssem) hsc) (.dma rsem') e1 e2 e3) kont) Q := by
  subst hrsem esi eoff hpay esoff htgt hssem hrsem' hn
  have hL := rs2_lane m ρ c d j
  unfold rcvOpen rcvDone sndOpen sndFlight outPt slotPt at hL
  have hrest := rs2_rest m ρ c d j
  unfold outPt slotPt at hrest
  iintro ⟨#Hsh, HL, ⟨%W, HO⟩, Hk⟩
  ihave #HIr := (shared_inv m ρ K c (some (true, kIdx d 2 j))) $$ Hsh
  ihave #Hlev := (shared_lev m ρ K) $$ Hsh
  ihave HL := hL $$ HL
  icases HL with ⟨⟨Hout, ⟨Hat, Hc⟩, HtS, HtR, HatS⟩, HL⟩
  iapply (Rounds.wp_wait_rest_token 𝒱₀ ER (ringRd m ρ) (c : Thread nD τ) none
      (wpE_waitDma2_eq 𝒱₀ (c : Thread nD τ) none Set.univ) (Set.mem_univ _) () (R := 0) (m := 0)
      (by rw [Nat.zero_add, expect_recv])) $$ [Hc HO Hat]
  · isplitr; · iexact HIr
    iframe Hc HO Hat
    iapply (mayWait_recv c d 2 j (by decide)); iexact Hlev
  iintro ⟨HO, Hat, -, Hpay⟩
  imod (Rounds.cell_close ER (ringRd m ρ) (Set.mem_univ _) id
    (duties_later m ρ (recvCell c (kIdx d 2 j)))) $$ [Hat] with Hz
  · isplitr; · iexact HIr
    iexact Hat
  ihave Hp := (BIBase.Entails.of_eq ((rest_recv m ρ c d 2 j).trans hrest)) $$ Hpay
  icases Hp with ⟨Hslot, HA3, HA2, ⟨%fd, Hdst⟩⟩
  iapply (wp_load 𝒱₀ (c : Thread nD τ) none Set.univ (pc_load_sub (dn d c) d j)) $$ Hout; iintro Hout
  iapply (wp_load 𝒱₀ (c : Thread nD τ) none Set.univ (slot_load_sub d j 2)) $$ Hslot; iintro Hslot
  iapply (wp_load 𝒱₀ (c : Thread nD τ) none Set.univ (pc_load_sub (dn d c) d j)) $$ Hout; iintro Hout
  iapply (wp_store 𝒱₀ (c : Thread nD τ) none Set.univ (pc_store_sub (dn d c) d j)) $$ Hout; iintro Hout
  ihave #HIs := (shared_inv m ρ K c (some (false, kIdx d 3 j))) $$ Hsh
  ihave #HIr' := (shared_inv m ρ K (dn d c) (some (true, kIdx d 3 j))) $$ Hsh
  ihave #HRs := (shared_reached m ρ K c (some (false, kIdx d 3 j))) $$ Hsh
  ihave #HRr' := (shared_reached m ρ K (dn d c) (some (true, kIdx d 3 j))) $$ Hsh
  iapply (Rounds.wp_send_pointsTo_with 𝒱₀ ER (ringRd m ρ) (c : Thread nD τ) none (c' := ((dn d c : Dev nD) : Thread nD τ))
      (src := outPc (dn d c) d j) (dst := outPc (dn d c) d j) (sS := .dma (sendSem (kIdx d 3 j))) (sem := .dma (recvSem (kIdx d 3 j)))
      (fs := accOn d j 2 (dn d c) (X m ρ c) (S2 m ρ d j c))
      (F := iprop(outAny (F := F) (dn d (dn d c)) (dn d c) d j ∗ outAny (F := F) (dn d (dn d (dn d c))) (dn d c) d j))
      (r₁ := 0) (r₂ := 0) (d₁ := false) (d₂ := false)
      (by rw [duties_send]; exact Finset.mem_singleton_self _) (by rw [duties_recv]; exact Finset.mem_singleton_self _)
      () () N rfl (amount_send m ρ c _ false) (amount_recv m ρ (dn d c) _ false)
      (owedAfter c (7 + (4 * 2 + 2 * j.val + d.val))) (rs2_owed c d j _ (by omega))
      (rs2_pay1 m ρ c d j) (rs2_pay2 m ρ c d j fd)) $$ [Hout Hdst HA2 HA3 HO HtS HtR]
  · isplitr; · iexact HIs
    isplitr; · iexact HIr'
    isplitl [Hout]; · iexact Hout
    iframe Hdst HA2 HA3 HO HtS
    isplitr; · iexact HRs
    iframe HtR
    iexact HRr'
  iintro ⟨HcS, HO⟩
  iapply Hk
  isplitr [HO]
  · iapply HL; iframe
  · iexists _; iexact HO

theorem rs2_off5 (j : Fin 2) : k0_off5 c (BitVec.ofNat 32 2) (BitVec.ofNat 32 (256 * j.val)) = pcOff (dn 0 c) 0 j :=
  (k0_off5_pc c 2 j).trans (congrArg (pcOff · 0 j) (up3_eq_dn 0 c))
theorem rs2_off6 (j : Fin 2) : k0_off6 c (BitVec.ofNat 32 2) (BitVec.ofNat 32 (256 * j.val)) = pcOff (dn 1 c) 1 j :=
  (k0_off6_pc c 2 j).trans (congrArg (pcOff · 1 j) (up3_eq_dn 1 c))
theorem rs2_off7 (j : Fin 2) : k0_off7 c (BitVec.ofNat 32 0) (BitVec.ofNat 32 (256 * j.val)) = pcOff (dn 0 c) 0 j :=
  k0_off7_pc c 0 j
theorem rs2_off8 (j : Fin 2) : k0_off8 c (BitVec.ofNat 32 0) (BitVec.ofNat 32 (256 * j.val)) = pcOff (dn 1 c) 1 j :=
  k0_off8_pc c 0 j

end Cert.KernelIdeal.Ring

end
-- ==== Proof.KernelIdeal.Prologue.lean ====
import proofs.«900116_g7700000000000117_dist_ar_v7x_i4_i_m4096_n1024_bf16_1_alg».proof.Proof.KernelIdeal.State
import proofs.«900116_g7700000000000117_dist_ar_v7x_i4_i_m4096_n1024_bf16_1_alg».proof.Proof.KernelIdeal.Tables
import proofs.«900116_g7700000000000117_dist_ar_v7x_i4_i_m4096_n1024_bf16_1_alg».proof.Proof.KernelIdeal.Contents
import proofs.«900116_g7700000000000117_dist_ar_v7x_i4_i_m4096_n1024_bf16_1_alg».proof.Proof.KernelIdeal.Regions
import proofs.«900116_g7700000000000117_dist_ar_v7x_i4_i_m4096_n1024_bf16_1_alg».proof.Proof.KernelIdeal.PreFlat

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ) (c : Dev nD)

-- Each neighbour is handed the landing slots it will write; the wait hands back the neighbours' slots this device writes.
theorem pro_barrier {α : Type} (Q : α → sProp 𝕄) (kont : PUnit → Prog (TpuEff nD τ sig (Elt F) Λ₀ .tc) α)
    (t1 t2 : Dev nD) (ht1 : t1 = prv c) (ht2 : t2 = nxt c)
    (a1 a2 a3 : ℕ) (ha1 : a1 = 1) (ha2 : a2 = 1) (ha3 : a3 = 2) :
    iprop(shared m ρ K ∗ barG c
        ∗ (∃ f : Buf (Elt F) ((c : Thread nD τ).loc cc0_scratch0), ((c : Thread nD τ).loc cc0_scratch0) ↦{fullShare} f)
        ∗ (∃ W : Waits sig Unit, owes (c : Thread nD τ) (owedAfter c 0) W)
        ∗ ((slots6 (F := F) (prv c) 1 ∗ slots6 (F := F) (nxt c) 0 ∗ (∃ W : Waits sig Unit, owes (c : Thread nD τ) (owedAfter c 2) W))
            -∗ wp frame (wpE (defs₀ (F := F)) 𝒱₀ (c : Thread nD τ) none) Set.univ (kont ⟨⟩) Q))
      ⊢ wp frame (wpE (defs₀ (F := F)) 𝒱₀ (c : Thread nD τ) none) Set.univ
          (.op (.semSignal (Dev.tc t1 : Thread nD τ) barS a1) fun _ =>
           .op (.semSignal (Dev.tc t2 : Thread nD τ) barS a2) fun _ =>
           .op (.semWait barS a3) kont) Q := by
  subst ht1 ht2 ha1 ha2 ha3
  iintro ⟨#Hsh, Hbar, Hscr, HO, Hk⟩
  unfold barG
  icases Hbar with ⟨Ht1, Ht2, Hat, Hcr⟩
  icases HO with ⟨%W, HO⟩
  ihave Hsl := (slots_split (F := F) c) $$ Hscr
  icases Hsl with ⟨Hs0, Hs1⟩
  ihave #HI1 := (shared_inv m ρ K (prv c) none) $$ Hsh
  ihave #HI2 := (shared_inv m ρ K (nxt c) none) $$ Hsh
  ihave #HI0 := (shared_inv m ρ K c none) $$ Hsh
  ihave #HR1 := (shared_reached m ρ K (prv c) none) $$ Hsh
  ihave #HR2 := (shared_reached m ρ K (nxt c) none) $$ Hsh
  ihave #Hlev := (shared_lev m ρ K) $$ Hsh
  iapply (Rounds.wp_signal 𝒱₀ ER (ringRd m ρ) (c : Thread nD τ) none (dst := (prv c : Thread nD τ)) (κ := K (prv c, none))
      (d := true) (by rw [duties_bar]; exact Finset.mem_univ _) (amount_bar m ρ (prv c) true) () (owedAfter c 1) (owedAfter_bar0 c))
    $$ [HO Ht1 Hs0]
  · rw [payload_bar]; unfold barPay; rw [if_pos rfl, nxt_prv]
    isplitr; · iexact HI1
    iframe HO Ht1 Hs0; iexact HR1
  iintro HO
  iapply (Rounds.wp_signal 𝒱₀ ER (ringRd m ρ) (c : Thread nD τ) none (dst := (nxt c : Thread nD τ)) (κ := K (nxt c, none))
      (d := false) (by rw [duties_bar]; exact Finset.mem_univ _) (amount_bar m ρ (nxt c) false) () (owedAfter c 2) (owedAfter_bar1 c))
    $$ [HO Ht2 Hs1]
  · rw [payload_bar]; unfold barPay; rw [if_neg (by decide), prv_nxt]
    isplitr; · iexact HI2
    iframe HO Ht2 Hs1; iexact HR2
  iintro HO
  iapply (Rounds.wp_wait_rest_token 𝒱₀ ER (ringRd m ρ) (c : Thread nD τ) none (κ := K (c, none))
      (wpE_semWait_eq 𝒱₀ (c : Thread nD τ) none Set.univ) (Set.mem_univ _) () (O := owedAfter c 2) (W := W) (R := 0) (m := 0) (T := ∅)
      (by rw [expect_bar])) $$ [Hcr HO Hat]
  · isplitr; · iexact HI0
    iframe Hcr HO Hat; iapply (mayWait_bar c); iexact Hlev
  iintro ⟨HO, -, -, Hpay⟩
  ihave Hp := (Entails.of_eq (rest_bar m ρ c)) $$ Hpay
  unfold barPay
  rw [if_neg (by decide), if_pos rfl]
  icases Hp with ⟨Hp1, Hp0⟩
  iapply Hk
  iframe Hp1 Hp0; iexists _; iexact HO

abbrev chR (off : Fin 2 → Nat) (hoff : ∀ a, off a + S1024x1024.size a ≤ S4096x1024.size a) : Rect S4096x1024 :=
  Rect.unit (s := S4096x1024) off S1024x1024.size hoff

-- Chunk `q` of the device's own block, narrowed to the result's type, goes into the result buffer.
theorem pro_chunk (q : Dev nD) {α : Type} (Q : α → sProp 𝕄) (kont : PUnit → Prog (TpuEff nD τ sig (Elt F) Λ₀ .tc) α)
    (off : Fin 2 → Nat) (hoff : ∀ a, off a + S1024x1024.size a ≤ S4096x1024.size a) (eoff : off = chOff q)
    (l1 : xM.view.LoadsAt (chR off hoff).toLoadRect) (l2 : oM.view.LoadsAt (chR off hoff).toLoadRect)
    (pay : Vec F S1024x1024 .f32 → FVec F S1024x1024 .bf16) (hpay : pay = k0_pay1)
    (st1 : (oM.access (chR off hoff)).Stores Finset.univ)
    (st2 : (Finset.univ : Finset (chR off hoff).shape.Idx) = Finset.univ ∨ ∀ a, (chR off hoff).stride a = 1)
    (f : OC (F := F)) :
    iprop(stg c cc0_stg0_0 (xs m ρ c) ∗ chunkPt c q f
        ∗ ((stg c cc0_stg0_0 (xs m ρ c) ∗ chunkPt c q (X m ρ c))
            -∗ wp frame (wpE (defs₀ (F := F)) 𝒱₀ (c : Thread nD τ) none) Set.univ (kont ⟨⟩) Q))
      ⊢ wp frame (wpE (defs₀ (F := F)) 𝒱₀ (c : Thread nD τ) none) Set.univ
          (.op (.load xM (chR off hoff).toLoadRect l1) fun v1 =>
           .op (.load oM (chR off hoff).toLoadRect l2) fun _ =>
           .op (.store oM (chR off hoff) (pay v1) Finset.univ st1 st2) kont) Q := by
  subst eoff hpay
  iintro ⟨Hx, Hch, Hk⟩
  unfold stg
  icases Hx with ⟨%fx, %hfx, Hx⟩
  subst hfx
  unfold chunkPt
  iapply (wp_load 𝒱₀ (c : Thread nD τ) none Set.univ (m := xM) (Finset.subset_univ _)) $$ Hx; iintro Hx
  iapply (wp_load 𝒱₀ (c : Thread nD τ) none Set.univ (m := oM) (ch_load_sub q)) $$ Hch; iintro Hch
  iapply (wp_store 𝒱₀ (c : Thread nD τ) none Set.univ (m := oM) (r := chRect q) (Mk := Finset.univ) (ch_store_sub q)) $$ Hch; iintro Hch
  ihave Hch := (Entails.of_eq (chunk_store_pt m ρ c c q f)) $$ Hch
  iapply Hk
  iframe Hch; iexists _; iframe Hx; ipureintro; rfl

def laneT (c : Dev nD) (d j : Fin 2) : sProp 𝕄 :=
  iprop(rcvOpen c d j 0 ∗ rcvOpen c d j 1 ∗ rcvOpen c d j 2 ∗ rcvOpen c d j 3 ∗ rcvOpen c d j 4 ∗ rcvOpen c d j 5
    ∗ sndFlight c d j 0 ∗ sndOpen c d j 1 ∗ sndOpen c d j 2 ∗ sndOpen c d j 3 ∗ sndOpen c d j 4 ∗ sndOpen c d j 5)

-- A lane before any landing: three pieces still to be added onto, the two later slots ahead, its cells.
theorem lane0_of (d j : Fin 2) :
    iprop(outPt c (up d c) d j (X m ρ c) ∗ outPt c (up d (up d c)) d j (X m ρ c) ∗ outPt c (up d (up d (up d c))) d j (X m ρ c)
        ∗ slotAny (F := F) (dn d c) d j 1 ∗ slotAny (F := F) (dn d c) d j 2 ∗ laneT c d j)
      ⊢ Lane m ρ c d j 0 := by
  unfold laneT
  exact .rfl

-- A lane's first transfer: the device's own piece goes to slot 0 of the device ahead, its ownership with the landing.
theorem pro_send0T (d j : Fin 2) {α : Type} (Q : α → sProp 𝕄) (kont : PUnit → Prog (TpuEff nD τ sig (Elt F) Λ₀ .tc) α)
    (soff : Fin 2 → Nat) (hsoff : ∀ a, soff a + S256x1024.size a ≤ S4096x1024.size a) (esoff : soff = pcOff c d j)
    (tgt : Dev nD) (htgt : tgt = dn d c)
    (ti : Fin 5 → Nat) (hti : ∀ a, ti a + S1x1x1x256x1024.size a ≤ S2x3x2x256x1024.size a) (eti : ti = stgI d.val 0 j.val)
    (ssem rsem' : DmaSem sig) (hssem : ssem = sendSem (kIdx d 0 j)) (hrsem' : rsem' = recvSem (kIdx d 0 j))
    (hsc : (stgPc ti hti).view.ref.isScScratch = false)
    (e1 : (oM.slice (Rect.unit (s := S4096x1024) soff S256x1024.size hsoff) (fun _ => rfl)).view.WordExact)
    (e2 : (stgPc ti hti).view.WordExact)
    (e3 : DmaTarget.Typed .vmem (.dma rsem') (.remote (Dev.tc tgt : Thread nD τ) (stgPc ti hti) (.dma ssem) hsc))
    (n : ℕ) (hn : n = 2 * j.val + d.val) :
    iprop(shared m ρ K ∗ outPt c c d j (X m ρ c) ∗ slotAny (F := F) (dn d c) d j 0 ∗ laneG c d j
        ∗ (∃ W : Waits sig Unit, owes (c : Thread nD τ) (owedAfter c (2 + n)) W)
        ∗ ((laneT c d j ∗ (∃ W : Waits sig Unit, owes (c : Thread nD τ) (owedAfter c (3 + n)) W))
            -∗ wp frame (wpE (defs₀ (F := F)) 𝒱₀ (c : Thread nD τ) none) Set.univ (kont ⟨⟩) Q))
      ⊢ wp frame (wpE (defs₀ (F := F)) 𝒱₀ (c : Thread nD τ) none) Set.univ
          (.op (.enqueueDma (oM.slice (Rect.unit (s := S4096x1024) soff S256x1024.size hsoff) (fun _ => rfl))
            (.remote (Dev.tc tgt : Thread nD τ) (stgPc ti hti) (.dma ssem) hsc) (.dma rsem') e1 e2 e3) kont) Q := by
  subst esoff htgt eti hssem hrsem'
  have hO : owedAfter c (2 + n) = owedAfter c (3 + n) + tallyAt (recvCell (dn d c) (kIdx d 0 j)) () N := by
    have h := owedAfter_send c d 0 j
    have e : 4 * ((0 : Fin 6)).val + 2 * j.val + d.val = n := by
      subst hn; show 4 * 0 + 2 * j.val + d.val = 2 * j.val + d.val; omega
    rw [e] at h; exact h
  iintro ⟨#Hsh, Hsrc, Hdst, HG, HO, Hk⟩
  unfold laneG sndOpen
  icases HG with ⟨R0, R1, R2, R3, R4, R5, ⟨Htok1, Htok2, Hat⟩, O1, O2, O3, O4, O5⟩
  icases HO with ⟨%W, HO⟩
  unfold slotAny
  icases Hdst with ⟨%fd, Hdst⟩
  ihave #HI1 := (shared_inv m ρ K c (some (false, kIdx d 0 j))) $$ Hsh
  ihave #HI2 := (shared_inv m ρ K (dn d c) (some (true, kIdx d 0 j))) $$ Hsh
  ihave #HR1 := (shared_reached m ρ K c (some (false, kIdx d 0 j))) $$ Hsh
  ihave #HR2 := (shared_reached m ρ K (dn d c) (some (true, kIdx d 0 j))) $$ Hsh
  unfold outPt slotPt
  iapply (Rounds.wp_send_landing_pointsTo 𝒱₀ ER (ringRd m ρ) (c : Thread nD τ) none (c' := (dn d c : Thread nD τ))
      (src := outPc c d j) (dst := slot d j 0)
      (κ₁ := K (c, some (false, kIdx d 0 j))) (κ₂ := K (dn d c, some (true, kIdx d 0 j)))
      (d₁ := false) (d₂ := false) (r₁ := 0) (r₂ := 0) (fs := X m ρ c) (fd := fd) (q := fullShare)
      (by rw [duties_send]; exact Finset.mem_singleton_self _) (by rw [duties_recv]; exact Finset.mem_singleton_self _)
      () () N rfl (amount_send m ρ c _ false) (amount_recv m ρ (dn d c) _ false) (owedAfter c (3 + n)) hO
      (by rw [payload_send]; exact .rfl)
      (by
        rw [payload_recv]
        show _ ⊢ iprop(slotPt (dn d c) d j 0 (S0 m ρ d j (dn d c)) ∗ outAny (F := F) (up d (dn d c)) (up d (dn d c)) d j)
        unfold S0
        rw [up_dn]
        iintro ⟨Hd, Hs⟩
        isplitl [Hd]
        · rw [← land_slot_pt (dn d c) d j 0 c fd (X m ρ c)]; unfold slotPt; iexact Hd
        · iapply (outPt_any c c d j (X m ρ c)); unfold outPt; iexact Hs))
    $$ [Hsrc Hdst HO Htok1 Htok2]
  · isplitr; · iexact HI1
    isplitr; · iexact HI2
    iframe Hsrc Hdst HO Htok1 Htok2
    isplitr; · iexact HR1
    iexact HR2
  iintro ⟨Hcr, HO⟩
  iapply Hk
  unfold laneT sndFlight sndOpen; iframe; iexists _; iexact HO

theorem up0_1 : up 0 c = prv c := by revert c; decide
theorem up0_2 : up 0 (up 0 c) = nxt (nxt c) := by revert c; decide
theorem up0_3 : up 0 (up 0 (up 0 c)) = nxt c := by revert c; decide
theorem up1_1 : up 1 c = nxt c := by revert c; decide
theorem up1_2 : up 1 (up 1 c) = nxt (nxt c) := by revert c; decide
theorem up1_3 : up 1 (up 1 (up 1 c)) = prv c := by revert c; decide
theorem dn0 : dn 0 c = nxt c := by revert c; decide
theorem dn1 : dn 1 c = prv c := by revert c; decide

theorem nxt3 : nxt (nxt (nxt c)) = prv c := by revert c; decide

end Cert.KernelIdeal.Ring

end
-- ==== Proof.KernelIdeal.Body.lean ====
import proofs.«900116_g7700000000000117_dist_ar_v7x_i4_i_m4096_n1024_bf16_1_alg».proof.Proof.KernelIdeal.State
import proofs.«900116_g7700000000000117_dist_ar_v7x_i4_i_m4096_n1024_bf16_1_alg».proof.Proof.KernelIdeal.PreFlat
import proofs.«900116_g7700000000000117_dist_ar_v7x_i4_i_m4096_n1024_bf16_1_alg».proof.Proof.KernelIdeal.PostAsm
import proofs.«900116_g7700000000000117_dist_ar_v7x_i4_i_m4096_n1024_bf16_1_alg».proof.Proof.KernelIdeal.StepRSc
import proofs.«900116_g7700000000000117_dist_ar_v7x_i4_i_m4096_n1024_bf16_1_alg».proof.Proof.KernelIdeal.StepAG
import proofs.«900116_g7700000000000117_dist_ar_v7x_i4_i_m4096_n1024_bf16_1_alg».proof.Proof.KernelIdeal.StepSW
import proofs.«900116_g7700000000000117_dist_ar_v7x_i4_i_m4096_n1024_bf16_1_alg».proof.Proof.KernelIdeal.StepRS2
import proofs.«900116_g7700000000000117_dist_ar_v7x_i4_i_m4096_n1024_bf16_1_alg».proof.Proof.KernelIdeal.Prologue

noncomputable section

namespace Cert.KernelIdeal.Ring

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ) (c : Dev nD)

-- One device's body in program order: handshake, own stores and first transfers, 24 landings, 24 read-out waits, return.
theorem sound_body (Kt : PUnit → sProp 𝕄) :
    iprop(bodyPre m ρ K c ∗ (bodyPost m ρ c -∗ Kt ⟨⟩))
      ⊢ wp frame (wpE (defs₀ (F := F)) 𝒱₀ c none) Set.univ (theBody (F := F)) Kt := by
  unfold theBody
  simp only [cc0_body_eq_skeleton]; unfold cc0_body_skel
  simp only [k0_part39_eq_skeleton]; unfold k0_part39_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel
  simp only [semSignalWord, semWaitWord, Prog.lift, Prog.bind_op, Prog.bind_ret, Prog.pure_eq_ret, wp_deviceId]
  iintro ⟨Hpre, Hk⟩
  ihave Hpre := (pre_flat m ρ K c) $$ Hpre
  icases Hpre with ⟨#Hsh, Hbar, HGA, HGB, HGC, HGD, Hscr, HO, Hx, ⟨%f, Hout⟩⟩
  iapply (pro_barrier m ρ K c Kt _ ⟨_, k0_dev1_lt c⟩ ⟨_, k0_dev2_lt c⟩ (Fin.ext (k0_dev1_eq c)) (Fin.ext (k0_dev2_eq c)) _ _ _ rfl rfl rfl)
  iframe Hsh Hbar Hscr HO
  iintro ⟨Hsp, Hsn, HO⟩
  unfold slots6
  icases Hsp with ⟨Zp_00, Zp_10, Zp_01, Zp_11, Zp_02, Zp_12⟩
  icases Hsn with ⟨Zn_00, Zn_10, Zn_01, Zn_11, Zn_02, Zn_12⟩
  ihave Hc := (out_split_at c c f).1 $$ Hout
  icases Hc with ⟨Hc0, Hc1, Hc2, Hc3⟩
  iapply (pro_chunk m ρ c c Kt _ (k0_off1 c) _ (k0_off1_ch c) _ _ k0_pay1 rfl _ _ f)
  iframe Hx Hc0
  iintro ⟨Hx, Hc0⟩
  ihave Hp0 := (chunk_split c c (X m ρ c)).1 $$ Hc0
  icases Hp0 with ⟨P0_00, P0_01, P0_10, P0_11⟩
  iapply (pro_send0T m ρ K c 0 0 Kt _ (k0_off2 c 0#32 0#32) _ (k0_off2_pc c 0 0) ⟨_, k0_dev3_lt c⟩ ((Fin.ext (k0_dev3_eq c)).trans (dn0 c).symm) ![0, 0, 0, 0, 0] _ rfl _ _ rfl rfl _ _ _ _ 0 rfl)
  rw [dn0 c]
  iframe Hsh P0_00 Zn_00 HGA HO
  iintro ⟨TA, HO⟩
  iapply (pro_send0T m ρ K c 1 0 Kt _ (k0_off3 c 0#32 0#32) _ (k0_off3_pc c 0 0) ⟨_, k0_dev4_lt c⟩ ((Fin.ext (k0_dev4_eq c)).trans (dn1 c).symm) ![1, 0, 0, 0, 0] _ rfl _ _ rfl rfl _ _ _ _ 1 rfl)
  rw [dn1 c]
  iframe Hsh P0_10 Zp_00 HGB HO
  iintro ⟨TB, HO⟩
  iapply (pro_send0T m ρ K c 0 1 Kt _ (k0_off2 c 0#32 256#32) _ (k0_off2_pc c 0 1) ⟨_, k0_dev5_lt c⟩ ((Fin.ext (k0_dev5_eq c)).trans (dn0 c).symm) ![0, 0, 1, 0, 0] _ rfl _ _ rfl rfl _ _ _ _ 2 rfl)
  rw [dn0 c]
  iframe Hsh P0_01 Zn_10 HGC HO
  iintro ⟨TC, HO⟩
  iapply (pro_send0T m ρ K c 1 1 Kt _ (k0_off3 c 0#32 256#32) _ (k0_off3_pc c 0 1) ⟨_, k0_dev6_lt c⟩ ((Fin.ext (k0_dev6_eq c)).trans (dn1 c).symm) ![1, 0, 1, 0, 0] _ rfl _ _ rfl rfl _ _ _ _ 3 rfl)
  rw [dn1 c]
  iframe Hsh P0_11 Zp_10 HGD HO
  iintro ⟨TD, HO⟩
  iapply (pro_chunk m ρ c (nxt c) Kt _ (k0_off4 c 1#32) _ (k0_off4_ch c 0) _ _ k0_pay2 rfl _ _ f)
  iframe Hx Hc1
  iintro ⟨Hx, Hc1⟩
  ihave Hp1 := (chunk_split c (nxt c) (X m ρ c)).1 $$ Hc1
  icases Hp1 with ⟨P1_00, P1_01, P1_10, P1_11⟩
  iapply (pro_chunk m ρ c (nxt (nxt c)) Kt _ (k0_off4 c 2#32) _ (k0_off4_ch c 1) _ _ k0_pay3 rfl _ _ f)
  iframe Hx Hc2
  iintro ⟨Hx, Hc2⟩
  ihave Hp2 := (chunk_split c (nxt (nxt c)) (X m ρ c)).1 $$ Hc2
  icases Hp2 with ⟨P2_00, P2_01, P2_10, P2_11⟩
  iapply (pro_chunk m ρ c (prv c) Kt _ (k0_off4 c 3#32) _ ((k0_off4_ch c 2).trans (congrArg chOff (nxt3 c))) _ _ k0_pay4 rfl _ _ f)
  iframe Hx Hc3
  iintro ⟨Hx, Hc3⟩
  ihave Hp3 := (chunk_split c (prv c) (X m ρ c)).1 $$ Hc3
  icases Hp3 with ⟨P3_00, P3_01, P3_10, P3_11⟩
  ihave HL00 := (lane0_of m ρ c 0 0) $$ [P3_00 P2_00 P1_00 Zn_01 Zn_02 TA]
  · rw [up0_3 c, up0_2 c, up0_1 c, dn0 c]; iframe
  ihave HL10 := (lane0_of m ρ c 1 0) $$ [P1_10 P2_10 P3_10 Zp_01 Zp_02 TB]
  · rw [up1_3 c, up1_2 c, up1_1 c, dn1 c]; iframe
  ihave HL01 := (lane0_of m ρ c 0 1) $$ [P3_01 P2_01 P1_01 Zn_11 Zn_12 TC]
  · rw [up0_3 c, up0_2 c, up0_1 c, dn0 c]; iframe
  ihave HL11 := (lane0_of m ρ c 1 1) $$ [P1_11 P2_11 P3_11 Zp_11 Zp_12 TD]
  · rw [up1_3 c, up1_2 c, up1_1 c, dn1 c]; iframe
  iapply (step_rs m ρ K c 0 0 0 (by decide) 0 rfl Kt _ _ rfl ![0, 0, 0, 0, 0] _ rfl _ _ (k0_off5 c 0#32 0#32) _ (k0_off5_pc c 0 0) _ _ _ k0_pay5 rfl _ _ (k0_off2 c 1#32 0#32) _ ((k0_off2_pc c 1 0).trans (k0_off5_pc c 0 0).symm) ⟨_, k0_dev7_lt c⟩ (Fin.ext (k0_dev7_eq c)) ![0, 1, 0, 0, 0] _ rfl _ _ rfl rfl _ _ _ _ 0 0 rfl)
  iframe Hsh HL00 HO
  iintro ⟨HL00, HO⟩
  iapply (step_rs m ρ K c 1 0 0 (by decide) 0 rfl Kt _ _ rfl ![1, 0, 0, 0, 0] _ rfl _ _ (k0_off6 c 0#32 0#32) _ (k0_off6_pc c 0 0) _ _ _ k0_pay6 rfl _ _ (k0_off3 c 1#32 0#32) _ ((k0_off3_pc c 1 0).trans (k0_off6_pc c 0 0).symm) ⟨_, k0_dev8_lt c⟩ (Fin.ext (k0_dev8_eq c)) ![1, 1, 0, 0, 0] _ rfl _ _ rfl rfl _ _ _ _ 0 1 rfl)
  iframe Hsh HL10 HO
  iintro ⟨HL10, HO⟩
  iapply (step_rs m ρ K c 0 1 0 (by decide) 0 rfl Kt _ _ rfl ![0, 0, 1, 0, 0] _ rfl _ _ (k0_off5 c 0#32 256#32) _ (k0_off5_pc c 0 1) _ _ _ k0_pay7 rfl _ _ (k0_off2 c 1#32 256#32) _ ((k0_off2_pc c 1 1).trans (k0_off5_pc c 0 1).symm) ⟨_, k0_dev9_lt c⟩ (Fin.ext (k0_dev9_eq c)) ![0, 1, 1, 0, 0] _ rfl _ _ rfl rfl _ _ _ _ 0 2 rfl)
  iframe Hsh HL01 HO
  iintro ⟨HL01, HO⟩
  iapply (step_rs m ρ K c 1 1 0 (by decide) 0 rfl Kt _ _ rfl ![1, 0, 1, 0, 0] _ rfl _ _ (k0_off6 c 0#32 256#32) _ (k0_off6_pc c 0 1) _ _ _ k0_pay8 rfl _ _ (k0_off3 c 1#32 256#32) _ ((k0_off3_pc c 1 1).trans (k0_off6_pc c 0 1).symm) ⟨_, k0_dev10_lt c⟩ (Fin.ext (k0_dev10_eq c)) ![1, 1, 1, 0, 0] _ rfl _ _ rfl rfl _ _ _ _ 0 3 rfl)
  iframe Hsh HL11 HO
  iintro ⟨HL11, HO⟩
  iapply (step_rs m ρ K c 0 0 1 (by decide) 1 rfl Kt _ _ rfl ![0, 1, 0, 0, 0] _ rfl _ _ (k0_off5 c 1#32 0#32) _ (k0_off5_pc c 1 0) _ _ _ k0_pay9 rfl _ _ (k0_off2 c 2#32 0#32) _ ((k0_off2_pc c 2 0).trans (k0_off5_pc c 1 0).symm) ⟨_, k0_dev11_lt c⟩ (Fin.ext (k0_dev11_eq c)) ![0, 2, 0, 0, 0] _ rfl _ _ rfl rfl _ _ _ _ 0 4 rfl)
  iframe Hsh HL00 HO
  iintro ⟨HL00, HO⟩
  iapply (step_rs m ρ K c 1 0 1 (by decide) 1 rfl Kt _ _ rfl ![1, 1, 0, 0, 0] _ rfl _ _ (k0_off6 c 1#32 0#32) _ (k0_off6_pc c 1 0) _ _ _ k0_pay10 rfl _ _ (k0_off3 c 2#32 0#32) _ ((k0_off3_pc c 2 0).trans (k0_off6_pc c 1 0).symm) ⟨_, k0_dev12_lt c⟩ (Fin.ext (k0_dev12_eq c)) ![1, 2, 0, 0, 0] _ rfl _ _ rfl rfl _ _ _ _ 0 5 rfl)
  iframe Hsh HL10 HO
  iintro ⟨HL10, HO⟩
  iapply (step_rs m ρ K c 0 1 1 (by decide) 1 rfl Kt _ _ rfl ![0, 1, 1, 0, 0] _ rfl _ _ (k0_off5 c 1#32 256#32) _ (k0_off5_pc c 1 1) _ _ _ k0_pay11 rfl _ _ (k0_off2 c 2#32 256#32) _ ((k0_off2_pc c 2 1).trans (k0_off5_pc c 1 1).symm) ⟨_, k0_dev13_lt c⟩ (Fin.ext (k0_dev13_eq c)) ![0, 2, 1, 0, 0] _ rfl _ _ rfl rfl _ _ _ _ 0 6 rfl)
  iframe Hsh HL01 HO
  iintro ⟨HL01, HO⟩
  iapply (step_rs m ρ K c 1 1 1 (by decide) 1 rfl Kt _ _ rfl ![1, 1, 1, 0, 0] _ rfl _ _ (k0_off6 c 1#32 256#32) _ (k0_off6_pc c 1 1) _ _ _ k0_pay12 rfl _ _ (k0_off3 c 2#32 256#32) _ ((k0_off3_pc c 2 1).trans (k0_off6_pc c 1 1).symm) ⟨_, k0_dev14_lt c⟩ (Fin.ext (k0_dev14_eq c)) ![1, 2, 1, 0, 0] _ rfl _ _ rfl rfl _ _ _ _ 0 7 rfl)
  iframe Hsh HL11 HO
  iintro ⟨HL11, HO⟩
  iapply (step_rs2 m ρ K c 0 0 Kt _ _ rfl ![0, 2, 0, 0, 0] _ rfl _ _ (k0_off5 c 2#32 0#32) _ (rs2_off5 c 0) _ _ _ k0_pay13 rfl _ _ (k0_off7 c 0#32 0#32) _ (rs2_off7 c 0) ⟨_, k0_dev15_lt c⟩ (Fin.ext (k0_dev15_eq c)) _ _ rfl rfl _ _ _ _ 8 rfl)
  iframe Hsh HL00 HO
  iintro ⟨HL00, HO⟩
  iapply (step_rs2 m ρ K c 1 0 Kt _ _ rfl ![1, 2, 0, 0, 0] _ rfl _ _ (k0_off6 c 2#32 0#32) _ (rs2_off6 c 0) _ _ _ k0_pay14 rfl _ _ (k0_off8 c 0#32 0#32) _ (rs2_off8 c 0) ⟨_, k0_dev16_lt c⟩ (Fin.ext (k0_dev16_eq c)) _ _ rfl rfl _ _ _ _ 9 rfl)
  iframe Hsh HL10 HO
  iintro ⟨HL10, HO⟩
  iapply (step_rs2 m ρ K c 0 1 Kt _ _ rfl ![0, 2, 1, 0, 0] _ rfl _ _ (k0_off5 c 2#32 256#32) _ (rs2_off5 c 1) _ _ _ k0_pay15 rfl _ _ (k0_off7 c 0#32 256#32) _ (rs2_off7 c 1) ⟨_, k0_dev17_lt c⟩ (Fin.ext (k0_dev17_eq c)) _ _ rfl rfl _ _ _ _ 10 rfl)
  iframe Hsh HL01 HO
  iintro ⟨HL01, HO⟩
  iapply (step_rs2 m ρ K c 1 1 Kt _ _ rfl ![1, 2, 1, 0, 0] _ rfl _ _ (k0_off6 c 2#32 256#32) _ (rs2_off6 c 1) _ _ _ k0_pay16 rfl _ _ (k0_off8 c 0#32 256#32) _ (rs2_off8 c 1) ⟨_, k0_dev18_lt c⟩ (Fin.ext (k0_dev18_eq c)) _ _ rfl rfl _ _ _ _ 11 rfl)
  iframe Hsh HL11 HO
  iintro ⟨HL11, HO⟩
  iapply (ag_hop m ρ K c 0 0 3 4 3 c (agHop3 m ρ c 0 0) Kt _ _ rfl (k0_off2 c 0#32 0#32) _ _ _ (k0_off7 c 1#32 0#32) _ ((k0_off7_pc c 1 0).trans (congrArg (fun q => pcOff q 0 0) (up_dn 0 c))) ⟨_, k0_dev19_lt c⟩ (Fin.ext (k0_dev19_eq c)) _ _ rfl rfl _ _ _ _ 12 rfl)
  iframe Hsh HL00 HO
  iintro ⟨HL00, HO⟩
  iapply (ag_hop m ρ K c 1 0 3 4 3 c (agHop3 m ρ c 1 0) Kt _ _ rfl (k0_off3 c 0#32 0#32) _ _ _ (k0_off8 c 1#32 0#32) _ ((k0_off8_pc c 1 0).trans (congrArg (fun q => pcOff q 1 0) (up_dn 1 c))) ⟨_, k0_dev20_lt c⟩ (Fin.ext (k0_dev20_eq c)) _ _ rfl rfl _ _ _ _ 13 rfl)
  iframe Hsh HL10 HO
  iintro ⟨HL10, HO⟩
  iapply (ag_hop m ρ K c 0 1 3 4 3 c (agHop3 m ρ c 0 1) Kt _ _ rfl (k0_off2 c 0#32 256#32) _ _ _ (k0_off7 c 1#32 256#32) _ ((k0_off7_pc c 1 1).trans (congrArg (fun q => pcOff q 0 1) (up_dn 0 c))) ⟨_, k0_dev21_lt c⟩ (Fin.ext (k0_dev21_eq c)) _ _ rfl rfl _ _ _ _ 14 rfl)
  iframe Hsh HL01 HO
  iintro ⟨HL01, HO⟩
  iapply (ag_hop m ρ K c 1 1 3 4 3 c (agHop3 m ρ c 1 1) Kt _ _ rfl (k0_off3 c 0#32 256#32) _ _ _ (k0_off8 c 1#32 256#32) _ ((k0_off8_pc c 1 1).trans (congrArg (fun q => pcOff q 1 1) (up_dn 1 c))) ⟨_, k0_dev22_lt c⟩ (Fin.ext (k0_dev22_eq c)) _ _ rfl rfl _ _ _ _ 15 rfl)
  iframe Hsh HL11 HO
  iintro ⟨HL11, HO⟩
  iapply (ag_hop m ρ K c 0 0 4 5 4 (up 0 c) (agHop4 m ρ c 0 0) Kt _ _ rfl (k0_off2 c 1#32 0#32) _ _ _ (k0_off7 c 2#32 0#32) _ ((k0_off7_pc c 2 0).trans (congrArg (fun q => pcOff (up 0 q) 0 0) (up_dn 0 c))) ⟨_, k0_dev23_lt c⟩ (Fin.ext (k0_dev23_eq c)) _ _ rfl rfl _ _ _ _ 16 rfl)
  iframe Hsh HL00 HO
  iintro ⟨HL00, HO⟩
  iapply (ag_hop m ρ K c 1 0 4 5 4 (up 1 c) (agHop4 m ρ c 1 0) Kt _ _ rfl (k0_off3 c 1#32 0#32) _ _ _ (k0_off8 c 2#32 0#32) _ ((k0_off8_pc c 2 0).trans (congrArg (fun q => pcOff (up 1 q) 1 0) (up_dn 1 c))) ⟨_, k0_dev24_lt c⟩ (Fin.ext (k0_dev24_eq c)) _ _ rfl rfl _ _ _ _ 17 rfl)
  iframe Hsh HL10 HO
  iintro ⟨HL10, HO⟩
  iapply (ag_hop m ρ K c 0 1 4 5 4 (up 0 c) (agHop4 m ρ c 0 1) Kt _ _ rfl (k0_off2 c 1#32 256#32) _ _ _ (k0_off7 c 2#32 256#32) _ ((k0_off7_pc c 2 1).trans (congrArg (fun q => pcOff (up 0 q) 0 1) (up_dn 0 c))) ⟨_, k0_dev25_lt c⟩ (Fin.ext (k0_dev25_eq c)) _ _ rfl rfl _ _ _ _ 18 rfl)
  iframe Hsh HL01 HO
  iintro ⟨HL01, HO⟩
  iapply (ag_hop m ρ K c 1 1 4 5 4 (up 1 c) (agHop4 m ρ c 1 1) Kt _ _ rfl (k0_off3 c 1#32 256#32) _ _ _ (k0_off8 c 2#32 256#32) _ ((k0_off8_pc c 2 1).trans (congrArg (fun q => pcOff (up 1 q) 1 1) (up_dn 1 c))) ⟨_, k0_dev26_lt c⟩ (Fin.ext (k0_dev26_eq c)) _ _ rfl rfl _ _ _ _ 19 rfl)
  iframe Hsh HL11 HO
  iintro ⟨HL11, HO⟩
  iapply (step_last m ρ K c 0 0 Kt _ _ rfl (k0_off2 c 2#32 0#32) _ _ _)
  iframe Hsh HL00 HO
  iintro ⟨HL00, HO⟩
  iapply (step_last m ρ K c 1 0 Kt _ _ rfl (k0_off3 c 2#32 0#32) _ _ _)
  iframe Hsh HL10 HO
  iintro ⟨HL10, HO⟩
  iapply (step_last m ρ K c 0 1 Kt _ _ rfl (k0_off2 c 2#32 256#32) _ _ _)
  iframe Hsh HL01 HO
  iintro ⟨HL01, HO⟩
  iapply (step_last m ρ K c 1 1 Kt _ _ rfl (k0_off3 c 2#32 256#32) _ _ _)
  iframe Hsh HL11 HO
  iintro ⟨HL11, HO⟩
  ihave HE := (mid_emid m ρ K c) $$ [HL00 HL10 HL01 HL11 HO Hx]
  · unfold Mid; iframe Hsh HL00 HL10 HL01 HL11 Hx; iexact HO
  iapply (step_sw m ρ K c 0 0 0 0 rfl Kt _ _ rfl (stgPc ![0, 0, 0, 0, 0] inb_S2x3x2x256x1024_S1x1x1x256x1024_0_0_0_0_0) (k0_off2 c 0#32 0#32) _ _ _)
  iframe HE
  iintro HE
  iapply (step_sw m ρ K c 1 0 0 1 rfl Kt _ _ rfl (stgPc ![1, 0, 0, 0, 0] inb_S2x3x2x256x1024_S1x1x1x256x1024_1_0_0_0_0) (k0_off3 c 0#32 0#32) _ _ _)
  iframe HE
  iintro HE
  iapply (step_sw m ρ K c 0 1 0 2 rfl Kt _ _ rfl (stgPc ![0, 0, 1, 0, 0] inb_S2x3x2x256x1024_S1x1x1x256x1024_0_0_1_0_0) (k0_off2 c 0#32 256#32) _ _ _)
  iframe HE
  iintro HE
  iapply (step_sw m ρ K c 1 1 0 3 rfl Kt _ _ rfl (stgPc ![1, 0, 1, 0, 0] inb_S2x3x2x256x1024_S1x1x1x256x1024_1_0_1_0_0) (k0_off3 c 0#32 256#32) _ _ _)
  iframe HE
  iintro HE
  iapply (step_sw m ρ K c 0 0 1 4 rfl Kt _ _ rfl (stgPc ![0, 1, 0, 0, 0] inb_S2x3x2x256x1024_S1x1x1x256x1024_0_1_0_0_0) (k0_off2 c 1#32 0#32) _ _ _)
  iframe HE
  iintro HE
  iapply (step_sw m ρ K c 1 0 1 5 rfl Kt _ _ rfl (stgPc ![1, 1, 0, 0, 0] inb_S2x3x2x256x1024_S1x1x1x256x1024_1_1_0_0_0) (k0_off3 c 1#32 0#32) _ _ _)
  iframe HE
  iintro HE
  iapply (step_sw m ρ K c 0 1 1 6 rfl Kt _ _ rfl (stgPc ![0, 1, 1, 0, 0] inb_S2x3x2x256x1024_S1x1x1x256x1024_0_1_1_0_0) (k0_off2 c 1#32 256#32) _ _ _)
  iframe HE
  iintro HE
  iapply (step_sw m ρ K c 1 1 1 7 rfl Kt _ _ rfl (stgPc ![1, 1, 1, 0, 0] inb_S2x3x2x256x1024_S1x1x1x256x1024_1_1_1_0_0) (k0_off3 c 1#32 256#32) _ _ _)
  iframe HE
  iintro HE
  iapply (step_sw m ρ K c 0 0 2 8 rfl Kt _ _ rfl (stgPc ![0, 2, 0, 0, 0] inb_S2x3x2x256x1024_S1x1x1x256x1024_0_2_0_0_0) (k0_off2 c 2#32 0#32) _ _ _)
  iframe HE
  iintro HE
  iapply (step_sw m ρ K c 1 0 2 9 rfl Kt _ _ rfl (stgPc ![1, 2, 0, 0, 0] inb_S2x3x2x256x1024_S1x1x1x256x1024_1_2_0_0_0) (k0_off3 c 2#32 0#32) _ _ _)
  iframe HE
  iintro HE
  iapply (step_sw m ρ K c 0 1 2 10 rfl Kt _ _ rfl (stgPc ![0, 2, 1, 0, 0] inb_S2x3x2x256x1024_S1x1x1x256x1024_0_2_1_0_0) (k0_off2 c 2#32 256#32) _ _ _)
  iframe HE
  iintro HE
  iapply (step_sw m ρ K c 1 1 2 11 rfl Kt _ _ rfl (stgPc ![1, 2, 1, 0, 0] inb_S2x3x2x256x1024_S1x1x1x256x1024_1_2_1_0_0) (k0_off3 c 2#32 256#32) _ _ _)
  iframe HE
  iintro HE
  iapply (step_sw m ρ K c 0 0 3 12 rfl Kt _ _ rfl _ (k0_off7 c 0#32 0#32) _ _ _)
  iframe HE
  iintro HE
  iapply (step_sw m ρ K c 1 0 3 13 rfl Kt _ _ rfl _ (k0_off8 c 0#32 0#32) _ _ _)
  iframe HE
  iintro HE
  iapply (step_sw m ρ K c 0 1 3 14 rfl Kt _ _ rfl _ (k0_off7 c 0#32 256#32) _ _ _)
  iframe HE
  iintro HE
  iapply (step_sw m ρ K c 1 1 3 15 rfl Kt _ _ rfl _ (k0_off8 c 0#32 256#32) _ _ _)
  iframe HE
  iintro HE
  iapply (step_sw m ρ K c 0 0 4 16 rfl Kt _ _ rfl _ (k0_off7 c 1#32 0#32) _ _ _)
  iframe HE
  iintro HE
  iapply (step_sw m ρ K c 1 0 4 17 rfl Kt _ _ rfl _ (k0_off8 c 1#32 0#32) _ _ _)
  iframe HE
  iintro HE
  iapply (step_sw m ρ K c 0 1 4 18 rfl Kt _ _ rfl _ (k0_off7 c 1#32 256#32) _ _ _)
  iframe HE
  iintro HE
  iapply (step_sw m ρ K c 1 1 4 19 rfl Kt _ _ rfl _ (k0_off8 c 1#32 256#32) _ _ _)
  iframe HE
  iintro HE
  iapply (step_sw m ρ K c 0 0 5 20 rfl Kt _ _ rfl _ (k0_off7 c 2#32 0#32) _ _ _)
  iframe HE
  iintro HE
  iapply (step_sw m ρ K c 1 0 5 21 rfl Kt _ _ rfl _ (k0_off8 c 2#32 0#32) _ _ _)
  iframe HE
  iintro HE
  iapply (step_sw m ρ K c 0 1 5 22 rfl Kt _ _ rfl _ (k0_off7 c 2#32 256#32) _ _ _)
  iframe HE
  iintro HE
  iapply (step_sw m ρ K c 1 1 5 23 rfl Kt _ _ rfl _ (k0_off8 c 2#32 256#32) _ _ _)
  iframe HE
  iintro HE
  rw [wp_ret]
  imodintro
  iapply Hk
  iapply (post_assemble m ρ K c)
  iexact HE

end Cert.KernelIdeal.Ring

end
-- ==== Proof.Kernel.Setup.lean ====
import proofs.«900116_g7700000000000117_dist_ar_v7x_i4_i_m4096_n1024_bf16_1_alg».proof.Defs
import proofs.«900116_g7700000000000117_dist_ar_v7x_i4_i_m4096_n1024_bf16_1_alg».proof.Proof.Gen.Kernel
import proofs.«900116_g7700000000000117_dist_ar_v7x_i4_i_m4096_n1024_bf16_1_alg».proof.Proof.Gen.Kernel.Skeleton
import proofs.«900116_g7700000000000117_dist_ar_v7x_i4_i_m4096_n1024_bf16_1_alg».proof.Proof.Gen.Kernel.Launch
import proofs.«900116_g7700000000000117_dist_ar_v7x_i4_i_m4096_n1024_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Ring

open Cert.Kernel.Gen
open Idealize.ShloMosaic
open Idealize.ShloMosaic.TcCoe
open Idealize.SL Idealize.SL.RA Idealize.SL.BI
open Idealize.SL.BI.BIBase Idealize.SL.Sem
open Idealize.ShloMosaic.Rounds
open Idealize.ShloMosaic.Pipeline (Dat)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

def nxt (c : Dev nD) : Dev nD := ⟨(c.val + 1) % 4, Nat.mod_lt _ (by decide)⟩
def prv (c : Dev nD) : Dev nD := ⟨(c.val + 3) % 4, Nat.mod_lt _ (by decide)⟩

def up (d : Fin 2) (c : Dev nD) : Dev nD := if d = 0 then prv c else nxt c
def dn (d : Fin 2) (c : Dev nD) : Dev nD := if d = 0 then nxt c else prv c

theorem prv_nxt (c : Dev nD) : prv (nxt c) = c := by revert c; decide
theorem nxt_prv (c : Dev nD) : nxt (prv c) = c := by revert c; decide
theorem up_dn (d : Fin 2) (c : Dev nD) : up d (dn d c) = c := by revert d c; decide
theorem dn_up (d : Fin 2) (c : Dev nD) : dn d (up d c) = c := by revert d c; decide
theorem up3_eq_dn (d : Fin 2) (c : Dev nD) : up d (up d (up d c)) = dn d c := by revert d c; decide

abbrev xM : Memref sig .tc .vmem S4096x1024 .f32 := Memref.whole cc0_stg0_0
abbrev oM : Memref sig .tc .vmem S4096x1024 .bf16 := Memref.whole cc0_stg1_0
abbrev sM : Memref sig .tc .vmem S2x3x2x256x1024 .bf16 := Memref.whole cc0_scratch0

abbrev OC : Type := (cc0_stg1_0 : Ref sig .tc).ty.Contents (Elt F)
abbrev SC : Type := (cc0_scratch0 : Ref sig .tc).ty.Contents (Elt F)
abbrev XC : Type := (cc0_stg0_0 : Ref sig .tc).ty.Contents (Elt F)

def pcOff (q : Dev nD) (d j : Fin 2) : Fin 2 → Nat := ![1024 * q.val + 512 * d.val + 256 * j.val, 0]

theorem pcOff_inb (q : Dev nD) (d j : Fin 2) : ∀ a, pcOff q d j a + S256x1024.size a ≤ S4096x1024.size a := by
  revert q d j; decide

def chOff (q : Dev nD) : Fin 2 → Nat := ![1024 * q.val, 0]
theorem chOff_inb (q : Dev nD) : ∀ a, chOff q a + S1024x1024.size a ≤ S4096x1024.size a := by revert q; decide

abbrev outPc (q : Dev nD) (d j : Fin 2) : Memref sig .tc .vmem S256x1024 .bf16 :=
  oM.slice (Rect.unit (s := S4096x1024) (pcOff q d j) S256x1024.size (pcOff_inb q d j)) (fun _ => rfl)

def stgI (d h j : Nat) : Fin 5 → Nat := ![d, h, j, 0, 0]

abbrev stgPc (i : Fin 5 → Nat) (hi : ∀ a, i a + S1x1x1x256x1024.size a ≤ S2x3x2x256x1024.size a) : Memref sig .tc .vmem S256x1024 .bf16 :=
  (sM.slice (Rect.unit (s := S2x3x2x256x1024) i S1x1x1x256x1024.size hi) (fun _ => rfl)).squeeze S256x1024 squeezes_S1x1x1x256x1024_S256x1024

abbrev barS : Sem sig := (SemArray.scalar (sig.barrier 0 rfl) : Sems sig S_).sem

def sendSem (k : Fin 24) : DmaSem sig := ⟨2 + k.val, by have := k.isLt; show 2 + k.val < 50; omega⟩
def recvSem (k : Fin 24) : DmaSem sig := ⟨26 + k.val, by have := k.isLt; show 26 + k.val < 50; omega⟩

def kIdx (d : Fin 2) (h : Fin 6) (j : Fin 2) : Fin 24 := ⟨12 * d.val + 2 * h.val + j.val, by have := d.isLt; have := h.isLt; have := j.isLt; omega⟩

abbrev barCell (c : Dev nD) : GSem nD τ sig := ((c : Thread nD τ), .reg barS)
abbrev sendCell (c : Dev nD) (k : Fin 24) : GSem nD τ sig := ((c : Thread nD τ), .dma (sendSem k))
abbrev recvCell (c : Dev nD) (k : Fin 24) : GSem nD τ sig := ((c : Thread nD τ), .dma (recvSem k))

abbrev N : ℕ := (outPc (0 : Dev nD) 0 0).view.dmaCredit

def xs (e : Dev nD) : XC (F := F) :=
  (win0_0.blk (0 : Fin 1)).view.read (Elt F) ((s₀ m ρ).mem ((e : Thread nD τ).loc main_arg0))

def X (e : Dev nD) : OC (F := F) := truncf .bf16 (xs m ρ e) bitsLt_bf16_f32

abbrev pcRect (q : Dev nD) (d j : Fin 2) : Rect S4096x1024 := Rect.unit (s := S4096x1024) (pcOff q d j) S256x1024.size (pcOff_inb q d j)
abbrev chRect (q : Dev nD) : Rect S4096x1024 := Rect.unit (s := S4096x1024) (chOff q) S1024x1024.size (chOff_inb q)

theorem stgI_inb (d j : Fin 2) (h : Fin 3) : ∀ a, stgI d.val h.val j.val a + S1x1x1x256x1024.size a ≤ S2x3x2x256x1024.size a := by
  revert d j h; decide

abbrev stgRect (d j : Fin 2) (h : Fin 3) : Rect S2x3x2x256x1024 :=
  Rect.unit (s := S2x3x2x256x1024) (stgI d.val h.val j.val) S1x1x1x256x1024.size (stgI_inb d j h)

abbrev slot (d j : Fin 2) (h : Fin 3) : Memref sig .tc .vmem S256x1024 .bf16 := stgPc (stgI d.val h.val j.val) (stgI_inb d j h)

def sBase : SC (F := F) := fun _ => Classical.arbitrary _

section Lane
variable (d j : Fin 2)

def landIn (h : Fin 3) (q : Dev nD) (src : OC (F := F)) : SC (F := F) :=
  (slot d j h).view.write (Elt F) sBase ((outPc q d j).view.read (Elt F) src) Finset.univ

def accOn (h : Fin 3) (q : Dev nD) (f : OC (F := F)) (s : SC (F := F)) : OC (F := F) :=
  ((oM.access (pcRect q d j)) : View sig .tc _ _ _).write (Elt F) f
    (k0_pay5 (oM.view.readAt (Elt F) (pcRect q d j).toLoadRect f) (sM.view.readAt (Elt F) (stgRect d j h).toLoadRect s)) Finset.univ

def S0 (e : Dev nD) : SC (F := F) := landIn d j 0 (up d e) (X m ρ (up d e))
def A0 (e : Dev nD) : OC (F := F) := accOn d j 0 (up d e) (X m ρ e) (S0 m ρ d j e)
def S1 (e : Dev nD) : SC (F := F) := landIn d j 1 (up d (up d e)) (A0 m ρ d j (up d e))
def A1 (e : Dev nD) : OC (F := F) := accOn d j 1 (up d (up d e)) (X m ρ e) (S1 m ρ d j e)
def S2 (e : Dev nD) : SC (F := F) := landIn d j 2 (up d (up d (up d e))) (A1 m ρ d j (up d e))
def A2 (e : Dev nD) : OC (F := F) := accOn d j 2 (up d (up d (up d e))) (X m ρ e) (S2 m ρ d j e)

end Lane

def outAt : OC (F := F) := fun i =>
  A2 m ρ ⟨((i 0).val % 1024) / 512, by omega⟩ ⟨((i 0).val % 512) / 256, by omega⟩
    (up ⟨((i 0).val % 1024) / 512, by omega⟩ ⟨(i 0).val / 1024, by have := (i 0).isLt; show (i 0).val / 1024 < 4; have : (i 0).val < 4096 := (i 0).isLt; omega⟩) i

def outPt (e q : Dev nD) (d j : Fin 2) (f : OC (F := F)) : sProp 𝕄 :=
  (outPc q d j).view.loc (e : Thread nD τ) ↦[(outPc q d j).view.set]{fullShare} f

def slotPt (e : Dev nD) (d j : Fin 2) (h : Fin 3) (f : SC (F := F)) : sProp 𝕄 :=
  (slot d j h).view.loc (e : Thread nD τ) ↦[(slot d j h).view.set]{fullShare} f

def outAny (e q : Dev nD) (d j : Fin 2) : sProp 𝕄 := iprop(∃ f, outPt (F := F) e q d j f)
def slotAny (e : Dev nD) (d j : Fin 2) (h : Fin 3) : sProp 𝕄 := iprop(∃ f, slotPt (F := F) e d j h f)

def slots6 (e : Dev nD) (d : Fin 2) : sProp 𝕄 :=
  iprop(slotAny (F := F) e d 0 0 ∗ slotAny (F := F) e d 1 0 ∗ slotAny (F := F) e d 0 1 ∗ slotAny (F := F) e d 1 1 ∗ slotAny (F := F) e d 0 2 ∗ slotAny (F := F) e d 1 2)

def barPay (c : Dev nD) (b : Bool) : sProp 𝕄 := if b then slots6 (F := F) (nxt c) 0 else slots6 (F := F) (prv c) 1

def recvPay (c : Dev nD) (d j : Fin 2) (h : ℕ) : sProp 𝕄 :=
  match h with
  | 0 => iprop(slotPt c d j 0 (S0 m ρ d j c) ∗ outAny (F := F) (up d c) (up d c) d j)
  | 1 => iprop(slotPt c d j 1 (S1 m ρ d j c) ∗ outAny (F := F) (up d c) (up d (up d c)) d j ∗ outAny (F := F) (up d (up d c)) (up d (up d c)) d j)
  | 2 => iprop(slotPt c d j 2 (S2 m ρ d j c) ∗ outAny (F := F) (up d c) (up d (up d (up d c))) d j
        ∗ outAny (F := F) (up d (up d c)) (up d (up d (up d c))) d j ∗ outAny (F := F) (up d (up d (up d c))) (up d (up d (up d c))) d j)
  | 3 => iprop(outPt c c d j (A2 m ρ d j (up d c)) ∗ outAny (F := F) (dn d c) c d j ∗ outAny (F := F) (dn d (dn d c)) c d j)
  | 4 => iprop(outPt c (up d c) d j (A2 m ρ d j (up d (up d c))) ∗ outAny (F := F) (dn d c) (up d c) d j)
  | 5 => outPt c (up d (up d c)) d j (A2 m ρ d j (up d (up d (up d c))))
  | _ => iprop(emp)

def sendPay (c : Dev nD) (d j : Fin 2) (h : ℕ) : sProp 𝕄 :=
  match h with
  | 3 => outPt c (up d (up d (up d c))) d j (A2 m ρ d j c)
  | 4 => outPt c c d j (A2 m ρ d j (up d c))
  | 5 => outPt c (up d c) d j (A2 m ρ d j (up d (up d c)))
  | _ => iprop(emp)

def kD (k : ℕ) : Fin 2 := ⟨k / 12 % 2, Nat.mod_lt _ (by decide)⟩
def kH (k : ℕ) : ℕ := k % 12 / 2
def kJ (k : ℕ) : Fin 2 := ⟨k % 2, Nat.mod_lt _ (by decide)⟩

def ringRd : Rounds.Schedule (GSem nD τ sig) Bool 𝕄 where
  duties g r :=
    if r = 0 ∧ g.1.2 = .tc then
      (match g.2 with
        | .reg _ => Finset.univ
        | .dma q => if 2 ≤ q.val then {false} else ∅)
    else ∅
  unitless _ := False
  amount g _ _ := match g.2 with | .reg _ => 1 | .dma _ => N
  payload g _ b :=
    match g.2 with
    | .reg _ => barPay g.1.1 b
    | .dma q => if 26 ≤ q.val then recvPay m ρ g.1.1 (kD (q.val - 26)) (kJ (q.val - 26)) (kH (q.val - 26))
                else if 2 ≤ q.val then sendPay m ρ g.1.1 (kD (q.val - 2)) (kJ (q.val - 2)) (kH (q.val - 2)) else iprop(emp)
  amount_pos g _ _ _ := by
    cases g.2 with
    | reg _ => exact Nat.one_pos
    | dma _ => exact View.dmaCredit_pos _ (by decide)

def sendTally (c : Dev nD) (n : ℕ) : CellTallies nD τ sig Unit :=
  tallyAt (recvCell (dn ⟨n % 2, Nat.mod_lt _ (by decide)⟩ c) (kIdx ⟨n % 2, Nat.mod_lt _ (by decide)⟩ ⟨n / 4 % 6, Nat.mod_lt _ (by decide)⟩ ⟨n / 2 % 2, Nat.mod_lt _ (by decide)⟩)) () N

def payL (c : Dev nD) : List (CellTallies nD τ sig Unit) :=
  tallyAt (barCell (prv c)) () 1 :: tallyAt (barCell (nxt c)) () 1 :: (List.range 24).map (sendTally c)

def owedAfter (c : Dev nD) (n : ℕ) : CellTallies nD τ sig Unit := ((payL c).drop n).foldr (fun t acc => acc + t) 0

def O₀ (c : Dev nD) : CellTallies nD τ sig Unit := owedAfter c 0

def L (g : GSem nD τ sig) : Finset Unit := if g.1.2 = .tc then {()} else ∅

def lv (g : GSem nD τ sig) (_ : Unit) : ℕ :=
  match g.2 with
  | .reg _ => 1
  | .dma q => if 26 ≤ q.val then 2 + (4 * kH (q.val - 26) + 2 * (kJ (q.val - 26)).val + (kD (q.val - 26)).val) else 0

theorem L_of_ne (g : GSem nD τ sig) (h : g.1.2 ≠ .tc) : L g = ∅ := if_neg h
theorem L_tc (c : Dev nD) (sm : SemLoc sig) : L ((c : Thread nD τ), sm) = {()} := if_pos rfl

abbrev CellIx : Type := Option (Bool × Fin 24)

def csem : CellIx → SemLoc sig
  | none => .reg barS
  | some (false, k) => .dma (sendSem k)
  | some (true, k) => .dma (recvSem k)

abbrev kcell (ei : Dev nD × CellIx) : GSem nD τ sig := ((ei.1 : Thread nD τ), csem ei.2)

abbrev osem : Bool × Fin 24 → SemLoc sig := fun bk => csem (some bk)

def records (K : Dev nD × CellIx → ℕ) : sProp 𝕄 :=
  iprop((bigSep Finset.univ fun ei : Dev nD × CellIx => cellInv ER (ringRd m ρ) (K ei) (kcell ei))
    ∗ bigSep Finset.univ fun ei : Dev nD × CellIx => reached ER (kcell ei) 0)

instance records_persistent (K : Dev nD × CellIx → ℕ) : BI.Persistent (records m ρ K) := by unfold records; infer_instance

def linear (c : Dev nD) : sProp 𝕄 :=
  iprop((bigSep Finset.univ fun i : CellIx => atPos ER (kcell (c, i)) 0 ∅ 0)
    ∗ dutyTok ER (barCell (prv c)) 0 true ∗ dutyTok ER (barCell (nxt c)) 0 false
    ∗ (bigSep Finset.univ fun k : Fin 24 => iprop(dutyTok ER (sendCell c k) 0 false ∗ dutyTok ER (recvCell (dn (kD k.val) c) k) 0 false)))

def ghost (K : Dev nD × CellIx → ℕ) (c : Dev nD) : sProp 𝕄 := iprop(records m ρ K ∗ linear (F := F) c)

def start (c : Dev nD) : sProp 𝕄 :=
  iprop((∃ K, ghost m ρ K c) ∗ cred (tallyAt (barCell c) () 2) ∗ (bigSep Finset.univ fun k : Fin 24 => cred (tallyAt (recvCell c k) () N)) ∗ levAts L lv)

def Φ₀ (c : Dev nD) : sProp 𝕄 :=
  iprop(start m ρ c ∗ ∃ f : Buf (Elt F) ((c : Thread nD τ).loc cc0_scratch0), ((c : Thread nD τ).loc cc0_scratch0) ↦{fullShare} f)
def Φ₁ (c : Dev nD) : sProp 𝕄 :=
  iprop((∃ f : Buf (Elt F) ((c : Thread nD τ).loc cc0_scratch0), ((c : Thread nD τ).loc cc0_scratch0) ↦{fullShare} f)
    ∗ bigSep Finset.univ fun bk : Bool × Fin 24 => semVal ((c : Thread nD τ), osem bk) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outAt m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

abbrev stg (c : Dev nD) (b : Ref sig .tc) (Xc : b.ty.Contents (Elt F)) : sProp 𝕄 :=
  iprop(∃ f : Buf (Elt F) (((c : Dev nD) : Thread nD τ).loc b), ⌜f = Xc⌝ ∗ (((c : Thread nD τ).loc b) ↦{fullShare} f))

def bodyPre (K : Dev nD × CellIx → ℕ) (c : Dev nD) : sProp 𝕄 :=
  iprop((ghost m ρ K c ∗ cred (tallyAt (barCell c) () 2) ∗ (bigSep Finset.univ fun k : Fin 24 => cred (tallyAt (recvCell c k) () N)) ∗ levAts L lv
      ∗ ∃ f : Buf (Elt F) ((c : Thread nD τ).loc cc0_scratch0), ((c : Thread nD τ).loc cc0_scratch0) ↦{fullShare} f)
    ∗ (dats m ρ 0 c).owesAt () t0_0.castSucc
    ∗ stg c cc0_stg0_0 (xs m ρ c)
    ∗ (∃ f : Buf (Elt F) ((c : Thread nD τ).loc cc0_stg1_0), ((c : Thread nD τ).loc cc0_stg1_0) ↦{fullShare} f))

def bodyPost (c : Dev nD) : sProp 𝕄 :=
  iprop(Φ₁ (F := F) c ∗ (dats m ρ 0 c).owesAt () t0_0.succ ∗ stg c cc0_stg0_0 (xs m ρ c) ∗ stg c cc0_stg1_0 (outAt m ρ))

abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) cc0_scratch1 cc0_scratch2

end Cert.Kernel.Ring

end
-- ==== Proof.Kernel.Tables.lean ====
import proofs.«900116_g7700000000000117_dist_ar_v7x_i4_i_m4096_n1024_bf16_1_alg».proof.Proof.Kernel.Setup

noncomputable section

namespace Cert.Kernel.Ring

open Idealize.ShloMosaic
open Idealize.ShloMosaic.TcCoe
open Idealize.SL Idealize.SL.RA Idealize.SL.BI
open Idealize.SL.BI.BIBase
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem kD_kIdx (d : Fin 2) (h : Fin 6) (j : Fin 2) : kD (kIdx d h j).val = d := by revert d h j; decide
theorem kH_kIdx (d : Fin 2) (h : Fin 6) (j : Fin 2) : kH (kIdx d h j).val = h.val := by revert d h j; decide
theorem kJ_kIdx (d : Fin 2) (h : Fin 6) (j : Fin 2) : kJ (kIdx d h j).val = j := by revert d h j; decide

instance ringRd_payload_storable (g : GSem nD τ sig) (r : ℕ) (b : Bool) :
    BI.Storable (upEmb : UEmb _ 𝕄) ((ringRd m ρ).payload g r b) := by
  dsimp only [ringRd]; unfold barPay recvPay sendPay slots6 slotAny outAny outPt slotPt
  (repeat' split) <;> infer_instance

theorem bigSep_bool (Φ : Bool → sProp 𝕄) : bigSep Finset.univ Φ = iprop(Φ false ∗ Φ true) :=
  bigSep_univ_eq_bigSepL [false, true] (by decide) (by decide) Φ

theorem bigSep_option {α : Type} [Fintype α] [DecidableEq α] (Φ : Option α → sProp 𝕄) :
    bigSep Finset.univ Φ = iprop(Φ none ∗ bigSep Finset.univ fun a => Φ (some a)) := by
  rw [bigSep_univ_at Φ none]
  have h : (Finset.univ.erase none : Finset (Option α)) = Finset.univ.map Function.Embedding.some := by
    ext x; cases x <;> simp
  rw [h, bigSep_map]; rfl

section Sched
variable (c : Dev nD)

theorem sendSem_val (k : Fin 24) : (sendSem k).val = 2 + k.val := rfl
theorem recvSem_val (k : Fin 24) : (recvSem k).val = 26 + k.val := rfl

theorem duties_bar : (ringRd m ρ).duties (barCell c) 0 = Finset.univ := by dsimp only [ringRd]; exact if_pos ⟨rfl, rfl⟩
theorem duties_send (k : Fin 24) : (ringRd m ρ).duties (sendCell c k) 0 = {false} := by
  dsimp only [ringRd]; rw [if_pos ⟨rfl, rfl⟩]; exact if_pos (by rw [sendSem_val]; omega)
theorem duties_recv (k : Fin 24) : (ringRd m ρ).duties (recvCell c k) 0 = {false} := by
  dsimp only [ringRd]; rw [if_pos ⟨rfl, rfl⟩]; exact if_pos (by rw [recvSem_val]; omega)
theorem duties_later (g : GSem nD τ sig) : ∀ r, 1 ≤ r → (ringRd m ρ).duties g r = ∅ :=
  fun r hr => by dsimp only [ringRd]; rw [if_neg fun h => by omega]

theorem amount_bar (b : Bool) : (ringRd m ρ).amount (barCell c) 0 b = 1 := rfl
theorem amount_send (k : Fin 24) (b : Bool) : (ringRd m ρ).amount (sendCell c k) 0 b = N := rfl
theorem amount_recv (k : Fin 24) (b : Bool) : (ringRd m ρ).amount (recvCell c k) 0 b = N := rfl

theorem expect_bar : (ringRd m ρ).expect (barCell c) 0 = 2 := by
  unfold Schedule.expect Schedule.amountOf
  rw [duties_bar, Finset.sum_congr rfl fun b _ => amount_bar m ρ c b, Finset.sum_const, Finset.card_univ, Fintype.card_bool, smul_eq_mul]
theorem expect_send (k : Fin 24) : (ringRd m ρ).expect (sendCell c k) 0 = N := by
  unfold Schedule.expect Schedule.amountOf; rw [duties_send, Finset.sum_singleton, amount_send]
theorem expect_recv (k : Fin 24) : (ringRd m ρ).expect (recvCell c k) 0 = N := by
  unfold Schedule.expect Schedule.amountOf; rw [duties_recv, Finset.sum_singleton, amount_recv]

theorem payload_bar (b : Bool) : (ringRd m ρ).payload (barCell c) 0 b = barPay c b := rfl
theorem payload_send (d : Fin 2) (h : Fin 6) (j : Fin 2) (b : Bool) :
    (ringRd m ρ).payload (sendCell c (kIdx d h j)) 0 b = sendPay m ρ c d j h.val := by
  have hk := (kIdx d h j).isLt
  dsimp only [ringRd]
  rw [sendSem_val, if_neg (by omega), if_pos (by omega), Nat.add_sub_cancel_left, kD_kIdx, kJ_kIdx, kH_kIdx]
theorem payload_recv (d : Fin 2) (h : Fin 6) (j : Fin 2) (b : Bool) :
    (ringRd m ρ).payload (recvCell c (kIdx d h j)) 0 b = recvPay m ρ c d j h.val := by
  dsimp only [ringRd]
  rw [recvSem_val, if_pos (by omega), Nat.add_sub_cancel_left, kD_kIdx, kJ_kIdx, kH_kIdx]

theorem rest_bar : bigSep ((ringRd m ρ).duties (barCell c) 0 \ ∅) (fun b => (ringRd m ρ).payload (barCell c) 0 b)
    = iprop(barPay c false ∗ barPay c true) := by
  rw [Finset.sdiff_empty, duties_bar, bigSep_bool, payload_bar, payload_bar]
theorem rest_send (d : Fin 2) (h : Fin 6) (j : Fin 2) :
    bigSep ((ringRd m ρ).duties (sendCell c (kIdx d h j)) 0 \ ∅) (fun b => (ringRd m ρ).payload (sendCell c (kIdx d h j)) 0 b)
      = sendPay m ρ c d j h.val := by
  rw [Finset.sdiff_empty, duties_send, bigSep_singleton, payload_send]
theorem rest_recv (d : Fin 2) (h : Fin 6) (j : Fin 2) :
    bigSep ((ringRd m ρ).duties (recvCell c (kIdx d h j)) 0 \ ∅) (fun b => (ringRd m ρ).payload (recvCell c (kIdx d h j)) 0 b)
      = recvPay m ρ c d j h.val := by
  rw [Finset.sdiff_empty, duties_recv, bigSep_singleton, payload_recv]

end Sched

theorem payL_length (c : Dev nD) : (payL c).length = 26 := rfl

theorem owedAfter_succ (c : Dev nD) (n : ℕ) (hn : n < (payL c).length) : owedAfter c n = owedAfter c (n + 1) + (payL c)[n] := by
  unfold owedAfter
  rw [List.drop_eq_getElem_cons hn, List.foldr_cons]

theorem payL_get (c : Dev nD) (n : ℕ) (hn : n + 2 < (payL c).length) : (payL c)[n + 2] = sendTally c n := by
  simp only [payL, List.getElem_cons_succ, List.getElem_map, List.getElem_range]

theorem sendTally_eq (c : Dev nD) (d : Fin 2) (h : Fin 6) (j : Fin 2) :
    sendTally c (4 * h.val + 2 * j.val + d.val) = tallyAt (recvCell (dn d c) (kIdx d h j)) () N := by
  have e : ∀ (d : Fin 2) (h : Fin 6) (j : Fin 2),
      ((⟨(4 * h.val + 2 * j.val + d.val) % 2, Nat.mod_lt _ (by decide)⟩ : Fin 2) = d) ∧
      ((⟨(4 * h.val + 2 * j.val + d.val) / 4 % 6, Nat.mod_lt _ (by decide)⟩ : Fin 6) = h) ∧
      ((⟨(4 * h.val + 2 * j.val + d.val) / 2 % 2, Nat.mod_lt _ (by decide)⟩ : Fin 2) = j) := by decide
  obtain ⟨e1, e2, e3⟩ := e d h j
  unfold sendTally
  rw [e1, e2, e3]

theorem owedAfter_bar0 (c : Dev nD) : owedAfter c 0 = owedAfter c 1 + tallyAt (barCell (prv c)) () 1 := rfl
theorem owedAfter_bar1 (c : Dev nD) : owedAfter c 1 = owedAfter c 2 + tallyAt (barCell (nxt c)) () 1 := rfl

theorem owedAfter_send (c : Dev nD) (d : Fin 2) (h : Fin 6) (j : Fin 2) :
    owedAfter c (2 + (4 * h.val + 2 * j.val + d.val))
      = owedAfter c (3 + (4 * h.val + 2 * j.val + d.val)) + tallyAt (recvCell (dn d c) (kIdx d h j)) () N := by
  rw [← sendTally_eq]
  have hn : 4 * h.val + 2 * j.val + d.val < 24 := by omega
  generalize 4 * h.val + 2 * j.val + d.val = n at hn ⊢
  rw [Nat.add_comm 2, Nat.add_comm 3, owedAfter_succ c _ (by rw [payL_length]; omega), payL_get]

theorem owedAfter_end (c : Dev nD) : owedAfter c 26 = 0 := rfl

theorem tallyAt_pos {g₀ g : GSem nD τ sig} {k : ℕ} {u : Unit} (h : 0 < tallyAt g₀ () k g u) : g = g₀ := by
  rw [tallyAt_apply] at h
  by_contra hn
  rw [if_neg (fun h' => hn h'.1)] at h
  exact Nat.lt_irrefl 0 h

theorem foldr_pos {l : List (CellTallies nD τ sig Unit)} {g : GSem nD τ sig} {u : Unit}
    (h : 0 < (l.foldr (fun t acc => acc + t) (0 : CellTallies nD τ sig Unit)) g u) : ∃ t ∈ l, 0 < t g u := by
  induction l with
  | nil => exact absurd h (Nat.lt_irrefl 0)
  | cons a l ih =>
    rcases Pipeline.add_pos_cases h with h | h
    · exact (ih h).imp fun t ht => ⟨List.mem_cons_of_mem _ ht.1, ht.2⟩
    · exact ⟨a, List.mem_cons_self, h⟩

theorem mem_L (c : Dev nD) (sm : SemLoc sig) : () ∈ L ((c : Thread nD τ), sm) := by
  rw [L_tc]; exact Finset.mem_singleton_self _

theorem lv_recv (e : Dev nD) (d : Fin 2) (h : Fin 6) (j : Fin 2) :
    lv (recvCell e (kIdx d h j)) () = 2 + (4 * h.val + 2 * j.val + d.val) := by
  dsimp only [lv]
  rw [recvSem_val, if_pos (by omega), Nat.add_sub_cancel_left, kH_kIdx, kJ_kIdx, kD_kIdx]

-- The payment number `k` goes to a barrier cell (level 1, `k ≤ 1`) or, as the transfer `k - 2`, to the receive cell of level `k`.
theorem payL_pos {c : Dev nD} {k : ℕ} (hk : k < (payL c).length) {g : GSem nD τ sig} {u : Unit} (h : 0 < (payL c)[k] g u) :
    u ∈ L g ∧ 1 ≤ lv g u ∧ k ≤ lv g u := by
  match k, hk, h with
  | 0, _, h => rw [tallyAt_pos h]; exact ⟨mem_L _ _, le_refl 1, Nat.zero_le 1⟩
  | 1, _, h => rw [tallyAt_pos h]; exact ⟨mem_L _ _, le_refl 1, le_refl 1⟩
  | n + 2, hk, h =>
    rw [payL_get c n hk] at h
    rw [payL_length] at hk
    rw [tallyAt_pos h, lv_recv]
    exact ⟨mem_L _ _, by omega, by show n + 2 ≤ 2 + (4 * (n / 4 % 6) + 2 * (n / 2 % 2) + n % 2); omega⟩

-- What is owed after `n` payments is owed to cells of level at least `n`, and at least 1.
theorem owed_lv {c : Dev nD} {n : ℕ} {g : GSem nD τ sig} {u : Unit} (h : 0 < owedAfter c n g u) :
    u ∈ L g ∧ 1 ≤ lv g u ∧ n ≤ lv g u := by
  obtain ⟨t, ht, hp⟩ := foldr_pos h
  obtain ⟨i, hi, rfl⟩ := List.getElem_of_mem ht
  rw [List.getElem_drop] at hp
  have := payL_pos _ hp
  exact ⟨this.1, this.2.1, by omega⟩

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (mem_L c _) fun g u hg =>
      ⟨(owed_lv hg).1, lt_of_eq_of_lt (if_neg (by omega)) (owed_lv hg).2.1⟩
  · rw [MayWait_zero]; iintro -; iempintro

theorem mayWait_bar (c : Dev nD) :
    (levAts L lv : sProp 𝕄) ⊢ MayWait (c : Thread nD τ) (.reg barS) () (owedAfter c 2) :=
  Pipeline.mayWait_of_levAts (mem_L c _) fun g u hg => ⟨(owed_lv hg).1, (owed_lv hg).2.2⟩

theorem mayWait_recv (c : Dev nD) (d : Fin 2) (h : Fin 6) (j : Fin 2) (hh : h.val ≤ 4) :
    (levAts L lv : sProp 𝕄) ⊢ MayWait (c : Thread nD τ) (.dma (recvSem (kIdx d h j))) ()
      (owedAfter c (6 + (4 * h.val + 2 * j.val + d.val))) :=
  Pipeline.mayWait_of_levAts (mem_L c _) fun g u hg =>
    ⟨(owed_lv hg).1, by have := (owed_lv hg).2.2; rw [lv_recv]; omega⟩

end Cert.Kernel.Ring

end
-- ==== Proof.Kernel.Launch.lean ====
import proofs.«900116_g7700000000000117_dist_ar_v7x_i4_i_m4096_n1024_bf16_1_alg».proof.Proof.Kernel.Setup
import proofs.«900116_g7700000000000117_dist_ar_v7x_i4_i_m4096_n1024_bf16_1_alg».proof.Proof.Kernel.Tables

noncomputable section

namespace Cert.Kernel.Ring

open Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem csem_injective : Function.Injective csem := by
  rintro (_ | ⟨_ | _, k⟩) (_ | ⟨_ | _, k'⟩) h <;> first | rfl | cases h | skip
  all_goals
    simp only [csem, SemLoc.dma.injEq, sendSem, recvSem, Fin.mk.injEq] at h
    have := k.isLt; have := k'.isLt
    first | omega | (obtain rfl : k = k' := Fin.ext (by omega); rfl)

theorem kcell_injective : Function.Injective (kcell : Dev nD × CellIx → GSem nD τ sig) := by
  rintro ⟨c, i⟩ ⟨c', i'⟩ h
  obtain rfl : c = c' := congrArg (·.1.1) h
  obtain rfl : i = i' := csem_injective (congrArg Prod.snd h)
  rfl

def ringCells : Finset (GSem nD τ sig) := Finset.univ.map ⟨kcell, kcell_injective⟩

abbrev TokIx : Type := Bool ⊕ (Bool × Fin 24)

abbrev tokOf (cj : Dev nD × TokIx) : GSem nD τ sig × ℕ × Bool :=
  (kcell (cj.1, cj.2.elim (fun _ => none) some), 0, cj.2.elim id fun _ => false)

theorem tokOf_injective : Function.Injective (tokOf : Dev nD × TokIx → GSem nD τ sig × ℕ × Bool) := by
  rintro ⟨c, j⟩ ⟨c', j'⟩ h
  have h1 := kcell_injective (congrArg (·.1) h)
  have h2 : j.elim id (fun _ => false) = j'.elim id fun _ => false := congrArg (·.2.2) h
  rcases j with b | bk <;> rcases j' with b' | bk' <;> cases h1 <;> first | rfl | (cases h2; rfl)

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((dutyTok ER (barCell c) 0 false ∗ dutyTok ER (barCell c) 0 true)
    ∗ (bigSep Finset.univ fun k : Fin 24 => dutyTok ER (sendCell c k) 0 false)
    ∗ (bigSep Finset.univ fun k : Fin 24 => dutyTok ER (recvCell c k) 0 false))

def G (c : Dev nD) : sProp 𝕄 :=
  iprop((bigSep Finset.univ fun i : CellIx => roundState ER (ringRd m ρ) (kcell (c, i)) 0)
    ∗ (bigSep Finset.univ fun i : CellIx => iprop(atPos ER (kcell (c, i)) 0 ∅ 0 ∗ reached ER (kcell (c, i)) 0)) ∗ toks c)

def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : CellIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_bool, bigSep_univ_prod, bigSep_bool]; rfl
  refine (Rounds.fund ER (ringRd m ρ) ringCells ringToks).trans (Laws.bupd_mono ?_)
  rw [hX, hX, hX, hT]
  unfold G; simp only [bigSep_sep']
  iintro ⟨Hst, Hr, Hat, Htok⟩
  iframe

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CellIx => semVal (kcell (c, i)) 0 : sProp 𝕄) := by
  rw [unscopedSems0_eq, bigSep_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CellIx => iprop(∃ κ : ℕ, cellInv ER (ringRd m ρ) κ (kcell (c, i))))
          ∗ (bigSep Finset.univ fun i : CellIx => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · iframe
  imod ((Entails.of_eq (bigSep_sep' _ _ _).symm).trans ((bigSep_mono fun i _ => (Rounds.body_intro ER (ringRd m ρ) (kcell (c, i))).trans inv_alloc).trans
      (bigSep_fupd (E := Set.univ) _ _))) $$ [Hv Hst] with Hinv
  · iframe
  imodintro
  iframe

def payToks (c : Dev nD) : sProp 𝕄 :=
  iprop(dutyTok ER (barCell (prv c)) 0 true ∗ dutyTok ER (barCell (nxt c)) 0 false
    ∗ (bigSep Finset.univ fun k : Fin 24 => iprop(dutyTok ER (sendCell c k) 0 false ∗ dutyTok ER (recvCell (dn (kD k.val) c) k) 0 false)))

theorem ghost_intro (K : Dev nD × CellIx → ℕ) (c : Dev nD) : iprop(records m ρ K ∗ linear c) ⊢ G' m ρ c := by
  unfold G' ghost
  iintro H
  iexists K
  iexact H

def ringE : Dev nD ≃ Dev nD := ⟨nxt, prv, prv_nxt, nxt_prv⟩

def dnE : Dev nD × Fin 24 ≃ Dev nD × Fin 24 :=
  ⟨fun ck => (dn (kD ck.2.val) ck.1, ck.2), fun ck => (up (kD ck.2.val) ck.1, ck.2),
    fun _ => Prod.ext (up_dn _ _) rfl, fun _ => Prod.ext (dn_up _ _) rfl⟩

theorem toks_around : (bigSep Finset.univ fun c : Dev nD => (toks c : sProp 𝕄)) ⊢ bigSep Finset.univ fun c : Dev nD => payToks c := by
  unfold toks payToks
  simp only [bigSep_sep']
  rw [bigSep_univ_equiv ringE fun c => (dutyTok ER (barCell c) 0 false : sProp 𝕄),
    bigSep_univ_equiv ringE.symm fun c => (dutyTok ER (barCell c) 0 true : sProp 𝕄),
    ← bigSep_univ_prod fun ck : Dev nD × Fin 24 => (dutyTok ER (recvCell ck.1 ck.2) 0 false : sProp 𝕄), bigSep_univ_equiv dnE, bigSep_univ_prod]
  iintro ⟨⟨H1, H2⟩, H3, H4⟩
  isplitl [H2]; · iexact H2
  isplitl [H1]; · iexact H1
  isplitl [H3]; · iexact H3
  iexact H4

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CellIx => iprop(∃ κ : ℕ, cellInv ER (ringRd m ρ) κ (kcell (c, i))))
          ∗ (bigSep Finset.univ fun i : CellIx => iprop(atPos ER (kcell (c, i)) 0 ∅ 0 ∗ reached ER (kcell (c, i)) 0)) ∗ toks c) : sProp 𝕄)
      ⊢ bigSep Finset.univ (G' m ρ) := by
  simp only [bigSep_sep']
  rw [← bigSep_univ_prod (fun ei : Dev nD × CellIx => iprop(∃ κ : ℕ, cellInv ER (ringRd m ρ) κ (kcell ei))),
    ← bigSep_univ_prod (fun ei : Dev nD × CellIx => (reached ER (kcell ei) 0 : sProp 𝕄))]
  iintro ⟨HI, ⟨Hat, #HR⟩, Htok⟩
  ihave HK := (BI.bigSep_exists_pi Finset.univ (fun (ei : Dev nD × CellIx) (κ : ℕ) => (cellInv ER (ringRd m ρ) κ (kcell ei) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun i : CellIx => (atPos ER (kcell (c, i)) 0 ∅ 0 : sProp 𝕄)) payToks).symm).trans
      (bigSep_mono fun c _ => show _ ⊢ linear c from Entails.of_eq rfl))
    iframe

def sendK (n : Fin 24) : Fin 24 :=
  kIdx ⟨n.val % 2, Nat.mod_lt _ (by decide)⟩ ⟨n.val / 4 % 6, Nat.mod_lt _ (by decide)⟩ ⟨n.val / 2 % 2, Nat.mod_lt _ (by decide)⟩

def sendKE : Fin 24 ≃ Fin 24 :=
  ⟨sendK, fun k => ⟨4 * (k.val % 12 / 2) + 2 * (k.val % 2) + k.val / 12 % 2, by have := k.isLt; omega⟩, by decide, by decide⟩

theorem kD_sendK : ∀ n : Fin 24, kD (sendK n).val = ⟨n.val % 2, Nat.mod_lt _ (by decide)⟩ := by decide

theorem foldr_add_eq_sum {M : Type} [AddCommMonoid M] (l : List M) : l.foldr (fun t acc => acc + t) 0 = l.sum := by
  induction l with
  | nil => rfl
  | cons a l ih => rw [List.foldr_cons, List.sum_cons, ih, add_comm]

theorem sum_range_fin {M : Type} [AddCommMonoid M] (n : ℕ) (f : ℕ → M) : ((List.range n).map f).sum = ∑ i : Fin n, f i.val := by
  rw [← Finset.sum_range]; rfl

theorem O₀_eq : (O₀ : Dev nD → CellTallies nD τ sig Unit)
    = fun d => ((∑ n : Fin 24, sendTally d n.val) + tallyAt (barCell (nxt d)) () 1) + tallyAt (barCell (prv d)) () 1 := by
  funext d
  unfold O₀ owedAfter payL
  rw [List.drop_zero, List.foldr_cons, List.foldr_cons, foldr_add_eq_sum, sum_range_fin]

theorem creds_send (c : Dev nD) :
    (bigSep Finset.univ fun n : Fin 24 => (Pipeline.launchCred (fun d => sendTally d n.val) c : sProp 𝕄))
      ⊢ bigSep Finset.univ fun k : Fin 24 => cred (tallyAt (recvCell c k) () N) := by
  rw [bigSep_univ_equiv sendKE (fun k : Fin 24 => (cred (tallyAt (recvCell c k) () N) : sProp 𝕄))]
  refine bigSep_mono fun n _ => ?_
  have h : _ ⊢ (cred (tallyAt (recvCell c (sendK n)) () N) : sProp 𝕄) :=
    Pipeline.launchCred_tallyAt (.dma (recvSem (sendK n))) (dn (kD (sendK n).val)) (up (kD (sendK n).val)) (dn_up _) (up_dn _) () N c
  rw [kD_sendK] at h
  exact h

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem owns_whole_eq (c : Dev nD) (b : Ref sig .tc) (Xc : b.ty.Contents (Elt F)) :
    (owns (Ix := Unit) (Name := ℕ) (U := UU) (Lvl := ℕ) (c : Thread nD τ) (Memref.whole b) fullShare Xc : sProp 𝕄)
      = iprop(∃ f : Buf (Elt F) (((c : Dev nD) : Thread nD τ).loc b), ⌜f = Xc⌝ ∗ (((c : Thread nD τ).loc b) ↦{fullShare} f)) := by
  unfold owns; simp only [Memref.view_whole, View.read_whole, View.set_whole]

theorem before_x (c : Dev nD) (d) : (dats m ρ 0 c).before (0 : Fin 2) t0_0 d = xs m ρ c := by
  unfold Dat.before; rw [if_pos (fetch0_0 t0_0)]; rfl

theorem after_x (c : Dev nD) (t : Fin cfg0.N) : (dats m ρ 0 c).after (0 : Fin 2) t = xs m ρ c := by simp only [dats]

theorem after_o (c : Dev nD) (t : Fin cfg0.N) : (dats m ρ 0 c).after (1 : Fin 2) t = outAt m ρ := by simp only [dats]

def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main_of
    (hsound : ∀ (K : Dev nD × CellIx → ℕ) (c : Dev nD) (Kt : PUnit → sProp 𝕄),
      iprop(bodyPre m ρ K c ∗ (bodyPost m ρ c -∗ Kt ⟨⟩)) ⊢ wp frame (wpE (defs₀ (F := F)) 𝒱₀ c none) Set.univ (theBody (F := F)) Kt) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c t => by
        rw [fin_N0 t, bigSep_W0, bigSep_W0]
        simp only [owns_whole_eq]
        show bodyPre' m ρ c ⊢ _
        rw [show defs₀ (F := F) Proc.tc 0 (t0_0, cfg0.slots t0_0) = theBody (F := F) from rfl]
        simp only [after_o, after_x]
        rw [show (dats m ρ 0 c).Φ t0_0.succ = Φ₁ (F := F) c from rfl]
        unfold bodyPre' Φ₀ start
        simp only [before_x]
        iintro ⟨⟨⟨⟨%K, Hg⟩, H1, H2, H3⟩, Hscr⟩, Ho, ⟨%d0, Hx⟩, ⟨%d1, %f1, %hf1, Hout⟩⟩
        iapply (hsound K c _)
        unfold bodyPre bodyPost
        isplitr []
        · iframe
          iexists f1; iexact Hout
        · iintro ⟨HΦ, Ho', Hx', Hy'⟩
          iframe)
    (hne := fun w => by fin_cases w <;> exact Nat.succ_pos _) (harr := arr_whole0) (hstage := stage_whole0) (hshare := fun c w => by unfold Dat.share; split <;> rfl)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      iframe)
    (hglob := ((bigSep_mono fun c _ => core_alloc m ρ c).trans (bigSep_fupd _ _)).trans (BI.fupd_mono (regroup m ρ)))
    (hA := fun _ _ => rfl) (hpf := fun _ k => k.elim0)
    (X := start m ρ) (Y := fun _ => iprop(emp)) (Z := fun _ => iprop(emp))
    (hX := fun c => by
      rw [O₀_eq, Pipeline.launchCred_add, Pipeline.launchCred_add, Pipeline.launchCred_sum]
      iintro ⟨-, Hlev, ⟨⟨HS, HN⟩, HP⟩, -, HG⟩
      ihave HN' := (Pipeline.launchCred_tallyAt (.reg barS) nxt prv nxt_prv prv_nxt () 1 c) $$ HN
      ihave HP' := (Pipeline.launchCred_tallyAt (.reg barS) prv nxt prv_nxt nxt_prv () 1 c) $$ HP
      ihave HS' := (creds_send (F := F) c) $$ HS
      ihave H2 := (cred_add _ _).2 $$ [HN' HP']
      · iframe
      rw [tallyAt_add]
      imodintro
      unfold start G'
      iframe)
    (hin := fun c => by
      rw [show (dats m ρ 0 c).Φ 0 = Φ₀ m ρ c from rfl, scopedRest0_eq]
      unfold Φ₀
      iintro ⟨Hs, -, Hr⟩
      iframe)
    (hout := fun c => by
      rw [show (dats m ρ 0 c).Φ (Fin.last cfg0.N) = Φ₁ (F := F) c from rfl, scopedRest0_eq]
      unfold Φ₁ Pipeline.ownSems0
      iintro ⟨Hr, Hz⟩
      iframe)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_o (c : Dev nD) :
    (win0_1.blk (0 : Fin 1)).view.read (Elt F) (finalA m ρ c (1 : Fin 2)) = outAt m ρ := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from flush0_1 _, if_pos rfl]
  refine (View.read_write_univ _ _).trans ?_
  have h := after_o m ρ c t0_0
  generalize outAt m ρ = O at h ⊢
  show (cfg0.win (1 : Fin 2)).cut _ ((dats m ρ 0 c).after (1 : Fin 2) t0_0) = O
  rw [h]; rfl

end Cert.Kernel.Ring

end
-- ==== Proof.Kernel.State.lean ====
import proofs.«900116_g7700000000000117_dist_ar_v7x_i4_i_m4096_n1024_bf16_1_alg».proof.Proof.Kernel.Setup

noncomputable section

namespace Cert.Kernel.Ring

open Idealize.ShloMosaic
open Idealize.ShloMosaic.TcCoe
open Idealize.SL Idealize.SL.BI
open Idealize.SL.BI.BIBase
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Lane
variable (c : Dev nD) (d j : Fin 2)

def rcvOpen (h : Fin 6) : sProp 𝕄 :=
  iprop(atPos ER (recvCell c (kIdx d h j)) 0 ∅ 0 ∗ cred (tallyAt (recvCell c (kIdx d h j)) () N))

def rcvDone (h : Fin 6) : sProp 𝕄 := semVal (recvCell c (kIdx d h j)) 0

def sndOpen (h : Fin 6) : sProp 𝕄 :=
  iprop(dutyTok ER (sendCell c (kIdx d h j)) 0 false ∗ dutyTok ER (recvCell (dn d c) (kIdx d h j)) 0 false ∗ atPos ER (sendCell c (kIdx d h j)) 0 ∅ 0)

def sndFlight (h : Fin 6) : sProp 𝕄 :=
  iprop(atPos ER (sendCell c (kIdx d h j)) 0 ∅ 0 ∗ cred (tallyAt (sendCell c (kIdx d h j)) () N))

def Lane (s : ℕ) : sProp 𝕄 :=
  match s with
  | 0 => iprop(outPt c (up d c) d j (X m ρ c) ∗ outPt c (up d (up d c)) d j (X m ρ c) ∗ outPt c (up d (up d (up d c))) d j (X m ρ c)
        ∗ slotAny (F := F) (dn d c) d j 1 ∗ slotAny (F := F) (dn d c) d j 2
        ∗ rcvOpen c d j 0 ∗ rcvOpen c d j 1 ∗ rcvOpen c d j 2 ∗ rcvOpen c d j 3 ∗ rcvOpen c d j 4 ∗ rcvOpen c d j 5
        ∗ sndFlight c d j 0 ∗ sndOpen c d j 1 ∗ sndOpen c d j 2 ∗ sndOpen c d j 3 ∗ sndOpen c d j 4 ∗ sndOpen c d j 5)
  | 1 => iprop(outPt c (up d (up d c)) d j (X m ρ c) ∗ outPt c (up d (up d (up d c))) d j (X m ρ c)
        ∗ slotPt c d j 0 (S0 m ρ d j c) ∗ slotAny (F := F) (dn d c) d j 2
        ∗ rcvDone c d j 0 ∗ rcvOpen c d j 1 ∗ rcvOpen c d j 2 ∗ rcvOpen c d j 3 ∗ rcvOpen c d j 4 ∗ rcvOpen c d j 5
        ∗ sndFlight c d j 0 ∗ sndFlight c d j 1 ∗ sndOpen c d j 2 ∗ sndOpen c d j 3 ∗ sndOpen c d j 4 ∗ sndOpen c d j 5)
  | 2 => iprop(outPt c (up d (up d (up d c))) d j (X m ρ c)
        ∗ slotPt c d j 0 (S0 m ρ d j c) ∗ slotPt c d j 1 (S1 m ρ d j c)
        ∗ rcvDone c d j 0 ∗ rcvDone c d j 1 ∗ rcvOpen c d j 2 ∗ rcvOpen c d j 3 ∗ rcvOpen c d j 4 ∗ rcvOpen c d j 5
        ∗ sndFlight c d j 0 ∗ sndFlight c d j 1 ∗ sndFlight c d j 2 ∗ sndOpen c d j 3 ∗ sndOpen c d j 4 ∗ sndOpen c d j 5)
  | 3 => iprop(slotPt c d j 0 (S0 m ρ d j c) ∗ slotPt c d j 1 (S1 m ρ d j c) ∗ slotPt c d j 2 (S2 m ρ d j c)
        ∗ rcvDone c d j 0 ∗ rcvDone c d j 1 ∗ rcvDone c d j 2 ∗ rcvOpen c d j 3 ∗ rcvOpen c d j 4 ∗ rcvOpen c d j 5
        ∗ sndFlight c d j 0 ∗ sndFlight c d j 1 ∗ sndFlight c d j 2 ∗ sndFlight c d j 3 ∗ sndOpen c d j 4 ∗ sndOpen c d j 5)
  | 4 => iprop(slotPt c d j 0 (S0 m ρ d j c) ∗ slotPt c d j 1 (S1 m ρ d j c) ∗ slotPt c d j 2 (S2 m ρ d j c)
        ∗ rcvDone c d j 0 ∗ rcvDone c d j 1 ∗ rcvDone c d j 2 ∗ rcvDone c d j 3 ∗ rcvOpen c d j 4 ∗ rcvOpen c d j 5
        ∗ sndFlight c d j 0 ∗ sndFlight c d j 1 ∗ sndFlight c d j 2 ∗ sndFlight c d j 3 ∗ sndFlight c d j 4 ∗ sndOpen c d j 5)
  | 5 => iprop(slotPt c d j 0 (S0 m ρ d j c) ∗ slotPt c d j 1 (S1 m ρ d j c) ∗ slotPt c d j 2 (S2 m ρ d j c)
        ∗ rcvDone c d j 0 ∗ rcvDone c d j 1 ∗ rcvDone c d j 2 ∗ rcvDone c d j 3 ∗ rcvDone c d j 4 ∗ rcvOpen c d j 5
        ∗ sndFlight c d j 0 ∗ sndFlight c d j 1 ∗ sndFlight c d j 2 ∗ sndFlight c d j 3 ∗ sndFlight c d j 4 ∗ sndFlight c d j 5)
  | _ => iprop(outPt c (up d (up d c)) d j (A2 m ρ d j (up d (up d (up d c))))
        ∗ slotPt c d j 0 (S0 m ρ d j c) ∗ slotPt c d j 1 (S1 m ρ d j c) ∗ slotPt c d j 2 (S2 m ρ d j c)
        ∗ rcvDone c d j 0 ∗ rcvDone c d j 1 ∗ rcvDone c d j 2 ∗ rcvDone c d j 3 ∗ rcvDone c d j 4 ∗ rcvDone c d j 5
        ∗ sndFlight c d j 0 ∗ sndFlight c d j 1 ∗ sndFlight c d j 2 ∗ sndFlight c d j 3 ∗ sndFlight c d j 4 ∗ sndFlight c d j 5)

end Lane

def shared (K : Dev nD × CellIx → ℕ) : sProp 𝕄 := iprop(records m ρ K ∗ levAts L lv)

instance shared_persistent (K : Dev nD × CellIx → ℕ) : BI.Persistent (shared m ρ K) := by unfold shared; infer_instance

def Mid (K : Dev nD × CellIx → ℕ) (c : Dev nD) (n : ℕ) : sProp 𝕄 :=
  iprop(shared m ρ K
    ∗ Lane m ρ c 0 0 ((n + 3) / 4) ∗ Lane m ρ c 1 0 ((n + 2) / 4) ∗ Lane m ρ c 0 1 ((n + 1) / 4) ∗ Lane m ρ c 1 1 (n / 4)
    ∗ (∃ W : Waits sig Unit, owes (c : Thread nD τ) (owedAfter c (min (6 + n) 26)) W)
    ∗ stg c cc0_stg0_0 (xs m ρ c))

section LaneW
variable (c : Dev nD) (d j : Fin 2)

def sndDone (h : Fin 6) : sProp 𝕄 := semVal (sendCell c (kIdx d h j)) 0

def LaneW (t : ℕ) : sProp 𝕄 :=
  iprop(outPt c (up d (up d c)) d j (A2 m ρ d j (up d (up d (up d c))))
    ∗ slotPt c d j 0 (S0 m ρ d j c) ∗ slotPt c d j 1 (S1 m ρ d j c) ∗ slotPt c d j 2 (S2 m ρ d j c)
    ∗ rcvDone c d j 0 ∗ rcvDone c d j 1 ∗ rcvDone c d j 2 ∗ rcvDone c d j 3 ∗ rcvDone c d j 4 ∗ rcvDone c d j 5
    ∗ (if 0 < t then sndDone c d j 0 else sndFlight c d j 0)
    ∗ (if 1 < t then sndDone c d j 1 else sndFlight c d j 1)
    ∗ (if 2 < t then sndDone c d j 2 else sndFlight c d j 2)
    ∗ (if 3 < t then iprop(sndDone c d j 3 ∗ outPt c (up d (up d (up d c))) d j (A2 m ρ d j c)) else sndFlight c d j 3)
    ∗ (if 4 < t then iprop(sndDone c d j 4 ∗ outPt c c d j (A2 m ρ d j (up d c))) else sndFlight c d j 4)
    ∗ (if 5 < t then iprop(sndDone c d j 5 ∗ outPt c (up d c) d j (A2 m ρ d j (up d (up d c)))) else sndFlight c d j 5))

end LaneW

def EMid (K : Dev nD × CellIx → ℕ) (c : Dev nD) (n : ℕ) : sProp 𝕄 :=
  iprop(shared m ρ K
    ∗ LaneW m ρ c 0 0 ((n + 3) / 4) ∗ LaneW m ρ c 1 0 ((n + 2) / 4) ∗ LaneW m ρ c 0 1 ((n + 1) / 4) ∗ LaneW m ρ c 1 1 (n / 4)
    ∗ (∃ W : Waits sig Unit, owes (c : Thread nD τ) 0 W)
    ∗ stg c cc0_stg0_0 (xs m ρ c))

end Cert.Kernel.Ring

end
-- ==== Proof.Kernel.PreFlat.lean ====
import proofs.«900116_g7700000000000117_dist_ar_v7x_i4_i_m4096_n1024_bf16_1_alg».proof.Proof.Kernel.State
import proofs.«900116_g7700000000000117_dist_ar_v7x_i4_i_m4096_n1024_bf16_1_alg».proof.Proof.Kernel.Tables

noncomputable section

namespace Cert.Kernel.Ring

open Idealize.ShloMosaic
open Idealize.ShloMosaic.TcCoe
open Idealize.SL Idealize.SL.RA Idealize.SL.BI
open Idealize.SL.BI.BIBase Idealize.SL.BI.Laws
open Idealize.ShloMosaic.Rounds
open Idealize.ShloMosaic.Pipeline (Dat BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def laneG (c : Dev nD) (d j : Fin 2) : sProp 𝕄 :=
  iprop(rcvOpen c d j 0 ∗ rcvOpen c d j 1 ∗ rcvOpen c d j 2 ∗ rcvOpen c d j 3 ∗ rcvOpen c d j 4 ∗ rcvOpen c d j 5
    ∗ sndOpen c d j 0 ∗ sndOpen c d j 1 ∗ sndOpen c d j 2 ∗ sndOpen c d j 3 ∗ sndOpen c d j 4 ∗ sndOpen c d j 5)

def barG (c : Dev nD) : sProp 𝕄 :=
  iprop(dutyTok ER (barCell (prv c)) 0 true ∗ dutyTok ER (barCell (nxt c)) 0 false ∗ atPos ER (barCell c) 0 ∅ 0 ∗ cred (tallyAt (barCell c) () 2))

theorem bigSep_fin24 (Φ : Fin 24 → sProp 𝕄) : bigSep Finset.univ Φ = bigSepL [kIdx 0 0 0, kIdx 0 1 0, kIdx 0 2 0, kIdx 0 3 0, kIdx 0 4 0, kIdx 0 5 0, kIdx 1 0 0, kIdx 1 1 0, kIdx 1 2 0, kIdx 1 3 0, kIdx 1 4 0, kIdx 1 5 0, kIdx 0 0 1, kIdx 0 1 1, kIdx 0 2 1, kIdx 0 3 1, kIdx 0 4 1, kIdx 0 5 1, kIdx 1 0 1, kIdx 1 1 1, kIdx 1 2 1, kIdx 1 3 1, kIdx 1 4 1, kIdx 1 5 1] Φ :=
  bigSep_univ_eq_bigSepL _ (by decide) (by decide) Φ

theorem ghost_flat (K : Dev nD × CellIx → ℕ) (c : Dev nD) (R : sProp 𝕄) :
    iprop(ghost m ρ K c ∗ cred (tallyAt (barCell c) () 2) ∗ (bigSep Finset.univ fun k : Fin 24 => cred (tallyAt (recvCell c k) () N)) ∗ levAts L lv ∗ R)
      = iprop(shared m ρ K ∗ barG c ∗ laneG c 0 0 ∗ laneG c 1 0 ∗ laneG c 0 1 ∗ laneG c 1 1 ∗ R) := by
  unfold ghost linear shared barG laneG rcvOpen sndOpen
  rw [bigSep_option, bigSep_univ_prod, bigSep_bool]
  have e (P Q : sProp 𝕄) : iprop(P ∗ Q) = BI.sep P Q := rfl
  simp only [bigSep_fin24, bigSepL_cons_cons, bigSepL_singleton, kD_kIdx, kcell, csem, recvCell, sendCell, barCell, e]
  ac_rfl

theorem pre_flat (K : Dev nD × CellIx → ℕ) (c : Dev nD) :
    bodyPre m ρ K c ⊢ iprop(shared m ρ K ∗ barG c ∗ laneG c 0 0 ∗ laneG c 1 0 ∗ laneG c 0 1 ∗ laneG c 1 1
      ∗ (∃ f : Buf (Elt F) ((c : Thread nD τ).loc cc0_scratch0), ((c : Thread nD τ).loc cc0_scratch0) ↦{fullShare} f)
      ∗ (∃ W : Waits sig Unit, owes (c : Thread nD τ) (owedAfter c 0) W)
      ∗ stg c cc0_stg0_0 (xs m ρ c)
      ∗ (∃ f : Buf (Elt F) ((c : Thread nD τ).loc cc0_stg1_0), ((c : Thread nD τ).loc cc0_stg1_0) ↦{fullShare} f)) := by
  unfold bodyPre
  rw [ghost_flat]
  unfold Dat.owesAt Pipeline.owesWithin
  iintro ⟨⟨Hsh, Hbar, H00, H10, H01, H11, Hscr⟩, ⟨%W, -, HO⟩, Hx, Hout⟩
  iframe
  iexists W; iexact HO

theorem shared_inv (K : Dev nD × CellIx → ℕ) (e : Dev nD) (i : CellIx) :
    shared m ρ K ⊢ cellInv ER (ringRd m ρ) (K (e, i)) (kcell (e, i)) := by
  unfold shared records
  exact (sep_elim_left.trans sep_elim_left).trans (bigSep_elim (Finset.mem_univ (e, i)))

theorem shared_reached (K : Dev nD × CellIx → ℕ) (e : Dev nD) (i : CellIx) :
    shared m ρ K ⊢ reached ER (kcell (e, i)) 0 := by
  unfold shared records
  exact (sep_elim_left.trans sep_elim_right).trans (bigSep_elim (Finset.mem_univ (e, i)))

theorem shared_lev (K : Dev nD × CellIx → ℕ) : shared m ρ K ⊢ (levAts L lv : sProp 𝕄) := by
  unfold shared
  iintro ⟨-, HL⟩
  iexact HL

end Cert.Kernel.Ring

end
-- ==== Proof.Kernel.Contents.lean ====
import proofs.«900116_g7700000000000117_dist_ar_v7x_i4_i_m4096_n1024_bf16_1_alg».proof.Proof.Kernel.Setup
import Idealize.ShloMosaic.Lib.Pipeline.Value

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

theorem land_out_pt (e q : Dev nD) (d j : Fin 2) (fo src : OC (F := F)) :
    outPt e q d j ((outPc q d j).view.write (Elt F) fo ((outPc q d j).view.read (Elt F) src) Finset.univ)
      = outPt e q d j src :=
  BI.Region.is_congr fun i hi => by
    rw [View.write_read_eq_piecewise]; exact Finset.piecewise_eq_of_mem _ _ _ hi

/-- A write over the whole slot forgets the contents under it, so any base gives the same slot. -/
theorem land_slot_pt (e : Dev nD) (d j : Fin 2) (h : Fin 3) (q : Dev nD) (fd : SC (F := F)) (src : OC (F := F)) :
    slotPt e d j h ((slot d j h).view.write (Elt F) fd ((outPc q d j).view.read (Elt F) src) Finset.univ)
      = slotPt e d j h (landIn d j h q src) :=
  BI.Region.is_congr fun i hi =>
    (congrFun (View.write_eq_piecewise (v := (slot d j h).view) (Val := Elt F) fd (sBase (F := F)) _ Finset.univ) i).trans
      (Finset.piecewise_eq_of_mem _ _ _ hi)

/-- A row of the piece `(q, d, j)` has chunk `q`, half `d` and quarter `j`, which is how the result is read off there. -/
theorem outAt_pt (e q : Dev nD) (d j : Fin 2) :
    outPt e q d j (A2 m ρ d j (up d q)) = outPt e q d j (outAt m ρ) :=
  BI.Region.is_congr fun i hi => by
    have h : 1024 * q.val + 512 * d.val + 256 * j.val ≤ (i 0).val ∧ (i 0).val < 1024 * q.val + 512 * d.val + 256 * j.val + 256 :=
      Rect.mem_set_unit.mp (View.set_slice_whole _ _ ▸ hi) 0
    have hd := d.isLt; have hj := j.isLt
    have key : ∀ (d' j' : Fin 2) (q' : Dev nD), d' = d → j' = j → q' = q →
        A2 m ρ d j (up d q) i = A2 m ρ d' j' (up d' q') i := by rintro _ _ _ rfl rfl rfl; rfl
    exact key _ _ _ (Fin.ext (by show (i 0).val % 1024 / 512 = d.val; omega))
      (Fin.ext (by show (i 0).val % 512 / 256 = j.val; omega)) (Fin.ext (by show (i 0).val / 1024 = q.val; omega))

theorem k0_pay2_eq : (k0_pay2 (F := F)) = k0_pay1 := rfl
theorem k0_pay3_eq : (k0_pay3 (F := F)) = k0_pay1 := rfl
theorem k0_pay4_eq : (k0_pay4 (F := F)) = k0_pay1 := rfl

/-- Each element of the chunk is written with the narrowing of the block's element there, and that is `X`'s. -/
theorem chunk_store_pt (c e q : Dev nD) (f : OC (F := F)) :
    (((oM.access (chRect q)) : View sig .tc _ _ _).loc (c : Thread nD τ)
        ↦[((oM.access (chRect q)) : View sig .tc _ _ _).set]{fullShare}
          ((oM.access (chRect q)) : View sig .tc _ _ _).write (Elt F) f
            (k0_pay1 (xM.view.readAt (Elt F) (chRect q).toLoadRect (xs m ρ e))) Finset.univ : sProp 𝕄)
      = (((oM.access (chRect q)) : View sig .tc _ _ _).loc (c : Thread nD τ)
        ↦[((oM.access (chRect q)) : View sig .tc _ _ _).set]{fullShare} X m ρ e) :=
  BI.Region.is_congr fun i hi => by
    obtain ⟨x, rfl⟩ := View.exists_emb_of_mem_set _ hi
    rw [View.write_emb_of_mem _ _ (Finset.mem_univ x)]
    unfold k0_pay1
    rw [shapeCast_self]
    rfl

end Cert.Kernel.Ring

end
-- ==== Proof.Kernel.Regions.lean ====
import proofs.«900116_g7700000000000117_dist_ar_v7x_i4_i_m4096_n1024_bf16_1_alg».proof.Proof.Kernel.Setup

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Keyed
variable {ℓ : Loc nD τ sig} {q : PosShare TreeShare}

/-- Sets that are the fibres of a key over distinct values are pairwise disjoint, so a points-to over their union is the star of theirs. -/
theorem pt_keyed {T κT : Type} [Fintype T] (κ : Idx ℓ → κT) (k : T → κT) (hk : Function.Injective k)
    (K : T → Finset (Idx ℓ)) (hK : ∀ t i, i ∈ K t ↔ κ i = k t) {S : Finset (Idx ℓ)} (hS : ∀ i, i ∈ S ↔ ∃ t, κ i = k t)
    (f : Buf (Elt F) ℓ) : (ℓ ↦[S]{q} f : sProp 𝕄) = bigSep Finset.univ fun t => ℓ ↦[K t]{q} f := by
  classical
  have e : S = Finset.univ.biUnion K := by
    ext i; rw [hS, Finset.mem_biUnion]
    exact exists_congr fun t => (hK t i).symm.trans (and_iff_right (Finset.mem_univ t)).symm
  rw [e]
  exact pointsTo_biUnion _ _ fun t _ t' _ h => Finset.disjoint_left.mpr fun i hi hi' =>
    h (hk (((hK t i).mp hi).symm.trans ((hK t' i).mp hi')))

end Keyed

def chunkPt (e q : Dev nD) (f : OC (F := F)) : sProp 𝕄 :=
  ((e : Thread nD τ).loc cc0_stg1_0) ↦[((oM.access (chRect q)) : View sig .tc _ _ _).set]{fullShare} f

/-- A block of whole rows of the result buffer is told by its rows alone. -/
theorem mem_rows (off sz : Fin 2 → ℕ) (h : ∀ a, off a + sz a ≤ S4096x1024.size a) (h0 : off 1 = 0) (h1 : sz 1 = 1024)
    (i : S4096x1024.Idx) : i ∈ (Rect.unit (s := S4096x1024) off sz h).set ↔ off 0 ≤ (i 0).val ∧ (i 0).val < off 0 + sz 0 := by
  have : (i 1).val < 1024 := (i 1).isLt
  rw [Rect.mem_set_unit, Fin.forall_fin_two, h0, h1]
  exact and_iff_left ⟨Nat.zero_le _, by omega⟩

theorem mem_chSet (q : Dev nD) (i : S4096x1024.Idx) :
    i ∈ ((oM.access (chRect q)) : View sig .tc _ _ _).set ↔ (i 0).val / 1024 = q.val := by
  rw [View.set_slice_whole, mem_rows _ _ _ rfl rfl]
  show 1024 * q.val ≤ (i 0).val ∧ (i 0).val < 1024 * q.val + 1024 ↔ _
  omega

theorem mem_pcSet (q : Dev nD) (d j : Fin 2) (i : S4096x1024.Idx) :
    i ∈ (outPc q d j).view.set ↔ (i 0).val / 256 = 4 * q.val + 2 * d.val + j.val := by
  rw [View.set_slice_whole, mem_rows _ _ _ rfl rfl]
  show 1024 * q.val + 512 * d.val + 256 * j.val ≤ (i 0).val ∧ (i 0).val < 1024 * q.val + 512 * d.val + 256 * j.val + 256 ↔ _
  omega

/-- The four chunks, named around the ring from `c`, are all four. -/
theorem out_split_at (e c : Dev nD) (f : OC (F := F)) :
    (((e : Thread nD τ).loc cc0_stg1_0) ↦{fullShare} f : sProp 𝕄)
      ⊣⊢ iprop(chunkPt e c f ∗ chunkPt e (nxt c) f ∗ chunkPt e (nxt (nxt c)) f ∗ chunkPt e (prv c) f) :=
  .of_eq ((pt_keyed (ℓ := (e : Thread nD τ).loc cc0_stg1_0) (fun i : S4096x1024.Idx => (i 0).val / 1024) Fin.val Fin.val_injective _ mem_chSet
      (fun i => ⟨fun _ => ⟨⟨(i 0).val / 1024, by have : (i 0).val < 4096 := (i 0).isLt; show _ < 4; omega⟩, rfl⟩, fun _ => Finset.mem_univ _⟩) f).trans
    (bigSep_univ_eq_bigSepL [c, nxt c, nxt (nxt c), prv c] (by revert c; decide) (by revert c; decide) _))

theorem chunk_split (e q : Dev nD) (f : OC (F := F)) :
    chunkPt e q f ⊣⊢ iprop(outPt e q 0 0 f ∗ outPt e q 0 1 f ∗ outPt e q 1 0 f ∗ outPt e q 1 1 f) :=
  .of_eq ((pt_keyed (ℓ := (e : Thread nD τ).loc cc0_stg1_0) (fun i : S4096x1024.Idx => (i 0).val / 256) (fun t : Fin 2 × Fin 2 => 4 * q.val + 2 * t.1.val + t.2.val)
      (fun a b h => Prod.ext (Fin.ext (by have := a.2.isLt; have := b.2.isLt; dsimp only at h; omega))
        (Fin.ext (by have := a.2.isLt; have := b.2.isLt; dsimp only at h; omega)))
      (fun t => (outPc q t.1 t.2).view.set) (fun t i => mem_pcSet q t.1 t.2 i)
      (fun i => (mem_chSet q i).trans ⟨fun h => ⟨(⟨(i 0).val / 512 % 2, Nat.mod_lt _ (by decide)⟩, ⟨(i 0).val / 256 % 2, Nat.mod_lt _ (by decide)⟩),
          by show (i 0).val / 256 = 4 * q.val + 2 * ((i 0).val / 512 % 2) + (i 0).val / 256 % 2; omega⟩,
        fun ⟨t, h⟩ => by have := t.1.isLt; have := t.2.isLt; dsimp only at h; omega⟩) f).trans
    (bigSep_univ_eq_bigSepL [(0, 0), (0, 1), (1, 0), (1, 1)] (by decide) (by decide) _))

theorem pc_store_sub (q : Dev nD) (d j : Fin 2) :
    ((oM.access (pcRect q d j)) : View sig .tc _ _ _).setOn Finset.univ ⊆ (outPc q d j).view.set := subset_rfl

theorem pc_load_sub (q : Dev nD) (d j : Fin 2) :
    oM.view.setOn (pcRect q d j).toLoadRect.set ⊆ (outPc q d j).view.set :=
  (View.set_slice (v := oM.view) (pcRect q d j)).ge

theorem ch_store_sub (q : Dev nD) :
    ((oM.access (chRect q)) : View sig .tc _ _ _).setOn Finset.univ ⊆ ((oM.access (chRect q)) : View sig .tc _ _ _).set := subset_rfl

theorem ch_load_sub (q : Dev nD) :
    oM.view.setOn (chRect q).toLoadRect.set ⊆ ((oM.access (chRect q)) : View sig .tc _ _ _).set :=
  (View.set_slice (v := oM.view) (chRect q)).ge

theorem k0_off1_ch (c : Dev nD) : k0_off1 c = chOff c := by
  rw [Gen.k0_off1_eq]; rfl

theorem k0_off4_ch (c : Dev nD) (r : Fin 3) : k0_off4 c (BitVec.ofNat 32 (1 + r.val)) = chOff (nxt^[r.val + 1] c) := by
  rw [Gen.k0_off4_eq]; revert c r; decide

theorem k0_off2_pc (c : Dev nD) (r₁ : Fin 3) (r₂ : Fin 2) :
    k0_off2 c (BitVec.ofNat 32 r₁.val) (BitVec.ofNat 32 (256 * r₂.val)) = pcOff ((up 0)^[r₁.val] c) 0 r₂ := by
  rw [Gen.k0_off2_eq]; revert c r₁ r₂; decide

theorem k0_off3_pc (c : Dev nD) (r₁ : Fin 3) (r₂ : Fin 2) :
    k0_off3 c (BitVec.ofNat 32 r₁.val) (BitVec.ofNat 32 (256 * r₂.val)) = pcOff ((up 1)^[r₁.val] c) 1 r₂ := by
  rw [Gen.k0_off3_eq]; revert c r₁ r₂; decide

theorem k0_off5_pc (c : Dev nD) (r₁ : Fin 3) (r₂ : Fin 2) :
    k0_off5 c (BitVec.ofNat 32 r₁.val) (BitVec.ofNat 32 (256 * r₂.val)) = pcOff ((up 0)^[r₁.val + 1] c) 0 r₂ := by
  rw [Gen.k0_off5_eq]; revert c r₁ r₂; decide

theorem k0_off6_pc (c : Dev nD) (r₁ : Fin 3) (r₂ : Fin 2) :
    k0_off6 c (BitVec.ofNat 32 r₁.val) (BitVec.ofNat 32 (256 * r₂.val)) = pcOff ((up 1)^[r₁.val + 1] c) 1 r₂ := by
  rw [Gen.k0_off6_eq]; revert c r₁ r₂; decide

theorem k0_off7_pc (c : Dev nD) (r₁ : Fin 3) (r₂ : Fin 2) :
    k0_off7 c (BitVec.ofNat 32 r₁.val) (BitVec.ofNat 32 (256 * r₂.val)) = pcOff ((up 0)^[r₁.val] (dn 0 c)) 0 r₂ := by
  rw [Gen.k0_off7_eq]; revert c r₁ r₂; decide

theorem k0_off8_pc (c : Dev nD) (r₁ : Fin 3) (r₂ : Fin 2) :
    k0_off8 c (BitVec.ofNat 32 r₁.val) (BitVec.ofNat 32 (256 * r₂.val)) = pcOff ((up 1)^[r₁.val] (dn 1 c)) 1 r₂ := by
  rw [Gen.k0_off8_eq]; revert c r₁ r₂; decide

theorem slot_set_eq (d j : Fin 2) (h : Fin 3) : (slot d j h).view.set = (stgRect d j h).set :=
  (View.set_reshape _ _).trans (View.set_slice_whole _ _)

theorem mem_stgRect (d j : Fin 2) (h : Fin 3) (i : S2x3x2x256x1024.Idx) :
    i ∈ (stgRect d j h).set ↔ (i 0).val = d.val ∧ (i 1).val = h.val ∧ (i 2).val = j.val := by
  have h3 : (i 3).val < 256 := (i 3).isLt
  have h4 : (i 4).val < 1024 := (i 4).isLt
  rw [Rect.mem_set_unit, Fin.forall_fin_succ, Fin.forall_fin_succ, Fin.forall_fin_succ, Fin.forall_fin_succ, Fin.forall_fin_one]
  show (d.val ≤ (i 0).val ∧ (i 0).val < d.val + 1) ∧ (h.val ≤ (i 1).val ∧ (i 1).val < h.val + 1)
    ∧ (j.val ≤ (i 2).val ∧ (i 2).val < j.val + 1) ∧ (0 ≤ (i 3).val ∧ (i 3).val < 0 + 256) ∧ (0 ≤ (i 4).val ∧ (i 4).val < 0 + 1024) ↔ _
  omega

theorem slot_load_sub (d j : Fin 2) (h : Fin 3) :
    sM.view.setOn (stgRect d j h).toLoadRect.set ⊆ (slot d j h).view.set :=
  ((View.set_reshape _ _).trans (View.set_slice (v := sM.view) (stgRect d j h))).ge

/-- The scratch is its twelve slots: a slot is told by its direction, hop and piece. -/
theorem scratch_split (e : Dev nD) (f : SC (F := F)) :
    (((e : Thread nD τ).loc cc0_scratch0) ↦{fullShare} f : sProp 𝕄)
      ⊣⊢ iprop((slotPt e 0 0 0 f ∗ slotPt e 0 1 0 f ∗ slotPt e 0 0 1 f ∗ slotPt e 0 1 1 f ∗ slotPt e 0 0 2 f ∗ slotPt e 0 1 2 f)
        ∗ (slotPt e 1 0 0 f ∗ slotPt e 1 1 0 f ∗ slotPt e 1 0 1 f ∗ slotPt e 1 1 1 f ∗ slotPt e 1 0 2 f ∗ slotPt e 1 1 2 f)) := by
  have hL := fun Φ : Fin 3 × Fin 2 → sProp 𝕄 =>
    bigSep_univ_eq_bigSepL [(0, 0), (0, 1), (1, 0), (1, 1), (2, 0), (2, 1)] (by decide) (by decide) Φ
  rw [pt_keyed (ℓ := (e : Thread nD τ).loc cc0_scratch0) (fun i : S2x3x2x256x1024.Idx => ((i 0).val, (i 1).val, (i 2).val))
      (fun t : Fin 2 × Fin 3 × Fin 2 => (t.1.val, t.2.1.val, t.2.2.val))
      (fun a b h => by rw [Prod.mk.injEq, Prod.mk.injEq] at h; exact Prod.ext (Fin.ext h.1) (Prod.ext (Fin.ext h.2.1) (Fin.ext h.2.2)))
      (fun t => (slot t.1 t.2.2 t.2.1).view.set)
      (fun t i => by rw [slot_set_eq, mem_stgRect, Prod.mk.injEq, Prod.mk.injEq])
      (fun i => ⟨fun _ => ⟨(⟨(i 0).val, (i 0).isLt⟩, ⟨(i 1).val, (i 1).isLt⟩, ⟨(i 2).val, (i 2).isLt⟩), rfl⟩, fun _ => Finset.mem_univ _⟩) f,
    bigSep_univ_prod, bigSep_fin_two, hL, hL]
  exact .rfl

theorem outPt_any (e q : Dev nD) (d j : Fin 2) (f : OC (F := F)) : outPt e q d j f ⊢ outAny (F := F) e q d j := by
  unfold outAny; exact exists_intro (Φ := fun f => outPt (F := F) e q d j f) f

theorem slots_split (e : Dev nD) :
    iprop(∃ f : Buf (Elt F) ((e : Thread nD τ).loc cc0_scratch0), ((e : Thread nD τ).loc cc0_scratch0) ↦{fullShare} f)
      ⊢ iprop(slots6 (F := F) e 0 ∗ slots6 (F := F) e 1) := by
  refine exists_elim fun f => (scratch_split e f).1.trans ?_
  have any (d j : Fin 2) (h : Fin 3) : slotPt e d j h f ⊢ slotAny (F := F) e d j h :=
    exists_intro (Φ := fun f => slotPt (F := F) e d j h f) f
  have h6 (d : Fin 2) : iprop(slotPt e d 0 0 f ∗ slotPt e d 1 0 f ∗ slotPt e d 0 1 f ∗ slotPt e d 1 1 f ∗ slotPt e d 0 2 f ∗ slotPt e d 1 2 f)
      ⊢ slots6 (F := F) e d :=
    BI.sep_mono (any _ _ _) (BI.sep_mono (any _ _ _) (BI.sep_mono (any _ _ _) (BI.sep_mono (any _ _ _) (BI.sep_mono (any _ _ _) (any _ _ _)))))
  exact BI.sep_mono (h6 0) (h6 1)

end Cert.Kernel.Ring

end
-- ==== Proof.Kernel.PostAsm.lean ====
import proofs.«900116_g7700000000000117_dist_ar_v7x_i4_i_m4096_n1024_bf16_1_alg».proof.Proof.Kernel.State
import proofs.«900116_g7700000000000117_dist_ar_v7x_i4_i_m4096_n1024_bf16_1_alg».proof.Proof.Kernel.Contents
import proofs.«900116_g7700000000000117_dist_ar_v7x_i4_i_m4096_n1024_bf16_1_alg».proof.Proof.Kernel.Regions

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem up4 (d : Fin 2) (c : Dev nD) : up d (up d (up d (up d c))) = c := by revert d c; decide

theorem bigSepL_append {I : Type} (l₁ l₂ : List I) (Φ : I → sProp 𝕄) :
    bigSepL (l₁ ++ l₂) Φ = BI.sep (bigSepL l₁ Φ) (bigSepL l₂ Φ) := by
  induction l₁ with
  | nil => exact (equiv_iff.mp BI.emp_sep).symm
  | cons i l ih =>
    rw [List.cons_append, bigSepL_cons, bigSepL_cons, ih]; exact (equiv_iff.mp ⟨BI.sep_assoc, BI.sep_assoc'⟩).symm

/-- What the landing of hop `h` left in its slot. -/
def slotEnd (h : Fin 3) (d j : Fin 2) (c : Dev nD) : SC (F := F) :=
  match h with
  | 0 => S0 m ρ d j c
  | 1 => S1 m ρ d j c
  | 2 => S2 m ρ d j c

/-- Contents of the whole scratch that are `slotEnd` on every slot. -/
def gluedS (c : Dev nD) : SC (F := F) := fun i =>
  slotEnd m ρ ⟨(i 1).val, (i 1).isLt⟩ ⟨(i 0).val, (i 0).isLt⟩ ⟨(i 2).val, (i 2).isLt⟩ c i

theorem glueS (c : Dev nD) (d j : Fin 2) (h : Fin 3) : slotPt c d j h (slotEnd m ρ h d j c) = slotPt c d j h (gluedS m ρ c) :=
  BI.Region.is_congr fun i hi => by
    obtain ⟨e0, e1, e2⟩ := (mem_stgRect d j h i).mp (by rw [← slot_set_eq]; exact hi)
    have key : ∀ (h' : Fin 3) (d' j' : Fin 2), h' = h → d' = d → j' = j → slotEnd m ρ h d j c i = slotEnd m ρ h' d' j' c i := by
      rintro _ _ _ rfl rfl rfl; rfl
    exact key _ _ _ (Fin.ext e1) (Fin.ext e0) (Fin.ext e2)

section Lane
variable (c : Dev nD) (d j : Fin 2)

def lanePcs (f : OC (F := F)) : sProp 𝕄 :=
  iprop(outPt c c d j f ∗ outPt c (up d c) d j f ∗ outPt c (up d (up d c)) d j f ∗ outPt c (up d (up d (up d c))) d j f)

def laneSlots : sProp 𝕄 :=
  iprop(slotPt c d j 0 (gluedS m ρ c) ∗ slotPt c d j 1 (gluedS m ρ c) ∗ slotPt c d j 2 (gluedS m ρ c))

def laneCells : sProp 𝕄 :=
  iprop(rcvDone c d j 0 ∗ rcvDone c d j 1 ∗ rcvDone c d j 2 ∗ rcvDone c d j 3 ∗ rcvDone c d j 4 ∗ rcvDone c d j 5
    ∗ sndDone c d j 0 ∗ sndDone c d j 1 ∗ sndDone c d j 2 ∗ sndDone c d j 3 ∗ sndDone c d j 4 ∗ sndDone c d j 5)

def laneSems : List (Bool × Fin 24) :=
  [(true, kIdx d 0 j), (true, kIdx d 1 j), (true, kIdx d 2 j), (true, kIdx d 3 j), (true, kIdx d 4 j), (true, kIdx d 5 j),
    (false, kIdx d 0 j), (false, kIdx d 1 j), (false, kIdx d 2 j), (false, kIdx d 3 j), (false, kIdx d 4 j), (false, kIdx d 5 j)]

theorem laneW_fin : LaneW m ρ c d j 6 ⊢ iprop(lanePcs c d j (outAt m ρ) ∗ laneSlots m ρ c d j ∗ laneCells (F := F) c d j) := by
  unfold LaneW lanePcs laneSlots laneCells
  rw [if_pos (show 0 < 6 by decide), if_pos (show 1 < 6 by decide), if_pos (show 2 < 6 by decide),
    if_pos (show 3 < 6 by decide), if_pos (show 4 < 6 by decide), if_pos (show 5 < 6 by decide)]
  have e3 := outAt_pt m ρ c (up d (up d (up d c))) d j
  rw [up4] at e3
  have g0 : slotPt c d j 0 (S0 m ρ d j c) = _ := glueS m ρ c d j 0
  have g1 : slotPt c d j 1 (S1 m ρ d j c) = _ := glueS m ρ c d j 1
  have g2 : slotPt c d j 2 (S2 m ρ d j c) = _ := glueS m ρ c d j 2
  rw [outAt_pt m ρ c c d j, outAt_pt m ρ c (up d c) d j, outAt_pt m ρ c (up d (up d c)) d j, e3, g0, g1, g2]
  iintro ⟨P2, T0, T1, T2, R0, R1, R2, R3, R4, R5, Q0, Q1, Q2, ⟨Q3, P3⟩, ⟨Q4, P0⟩, ⟨Q5, P1⟩⟩
  iframe

end Lane

/-- The kernel's forty-eight cells are the four lanes' twelve. -/
theorem sems_closed (c : Dev nD) :
    (bigSep Finset.univ fun bk : Bool × Fin 24 => semVal ((c : Thread nD τ), osem bk) 0 : sProp 𝕄)
      = iprop(laneCells c 0 0 ∗ laneCells c 1 0 ∗ laneCells c 0 1 ∗ laneCells c 1 1) := by
  rw [bigSep_univ_eq_bigSepL (laneSems 0 0 ++ (laneSems 1 0 ++ (laneSems 0 1 ++ laneSems 1 1))) (by decide) (by decide),
    bigSepL_append, bigSepL_append, bigSepL_append]
  rfl

/-- The lanes hold, between them, every piece of every chunk. -/
theorem out_assemble (c : Dev nD) (f : OC (F := F)) :
    iprop(lanePcs c 0 0 f ∗ lanePcs c 1 0 f ∗ lanePcs c 0 1 f ∗ lanePcs c 1 1 f) ⊢ (((c : Thread nD τ).loc cc0_stg1_0) ↦{fullShare} f : sProp 𝕄) := by
  unfold lanePcs
  rw [show up 0 (up 0 (up 0 c)) = nxt c from by revert c; decide, show up 0 (up 0 c) = nxt (nxt c) from by revert c; decide,
    show up 0 c = prv c from by revert c; decide,
    show up 1 (up 1 (up 1 c)) = prv c from by revert c; decide, show up 1 (up 1 c) = nxt (nxt c) from by revert c; decide,
    show up 1 c = nxt c from by revert c; decide]
  refine .trans ?_ (out_split_at c c f).mpr
  refine .trans ?_ (Laws.sep_mono (chunk_split c c f).mpr (Laws.sep_mono (chunk_split c (nxt c) f).mpr
    (Laws.sep_mono (chunk_split c (nxt (nxt c)) f).mpr (chunk_split c (prv c) f).mpr)))
  iintro ⟨⟨A0, A1, A2, A3⟩, ⟨B0, B1, B2, B3⟩, ⟨C0, C1, C2, C3⟩, ⟨D0, D1, D2, D3⟩⟩
  iframe

theorem slots_assemble (c : Dev nD) :
    iprop(laneSlots m ρ c 0 0 ∗ laneSlots m ρ c 1 0 ∗ laneSlots m ρ c 0 1 ∗ laneSlots m ρ c 1 1)
      ⊢ (((c : Thread nD τ).loc cc0_scratch0) ↦{fullShare} gluedS m ρ c : sProp 𝕄) := by
  unfold laneSlots
  refine .trans ?_ (scratch_split c (gluedS m ρ c)).mpr
  iintro ⟨⟨A0, A1, A2⟩, ⟨B0, B1, B2⟩, ⟨C0, C1, C2⟩, ⟨D0, D1, D2⟩⟩
  iframe

theorem post_assemble (K : Dev nD × CellIx → ℕ) (c : Dev nD) : EMid m ρ K c 24 ⊢ bodyPost m ρ c := by
  rw [show EMid m ρ K c 24 = iprop(shared m ρ K ∗ LaneW m ρ c 0 0 6 ∗ LaneW m ρ c 1 0 6 ∗ LaneW m ρ c 0 1 6 ∗ LaneW m ρ c 1 1 6
      ∗ (∃ W : Waits sig Unit, owes (c : Thread nD τ) 0 W) ∗ stg c cc0_stg0_0 (xs m ρ c)) from rfl]
  refine (Laws.sep_mono .rfl (Laws.sep_mono (laneW_fin m ρ c 0 0) (Laws.sep_mono (laneW_fin m ρ c 1 0)
    (Laws.sep_mono (laneW_fin m ρ c 0 1) (Laws.sep_mono (laneW_fin m ρ c 1 1) .rfl))))).trans ?_
  unfold bodyPost Φ₁ stg
  rw [sems_closed]
  iintro ⟨#Hsh, ⟨P0, T0, C0⟩, ⟨P1, T1, C1⟩, ⟨P2, T2, C2⟩, ⟨P3, T3, C3⟩, ⟨%W, HW⟩, Hx⟩
  isplitl [T0 T1 T2 T3 C0 C1 C2 C3]
  · isplitl [T0 T1 T2 T3]
    · iexists _; iapply (slots_assemble m ρ c); iframe
    · iframe
  isplitl [HW]
  · unfold Dat.owesAt Pipeline.owesWithin
    iexists W
    isplitr
    · ipureintro; exact fun _ _ => Or.inl trivial
    · iexact HW
  isplitl [Hx]
  · iexact Hx
  · iexists _
    isplitr
    · ipureintro; rfl
    · iapply (out_assemble c (outAt m ρ)); iframe

end Cert.Kernel.Ring

end
-- ==== Proof.Kernel.StepRSc.lean ====
import proofs.«900116_g7700000000000117_dist_ar_v7x_i4_i_m4096_n1024_bf16_1_alg».proof.Proof.Kernel.State
import proofs.«900116_g7700000000000117_dist_ar_v7x_i4_i_m4096_n1024_bf16_1_alg».proof.Proof.Kernel.Tables
import proofs.«900116_g7700000000000117_dist_ar_v7x_i4_i_m4096_n1024_bf16_1_alg».proof.Proof.Kernel.Contents
import proofs.«900116_g7700000000000117_dist_ar_v7x_i4_i_m4096_n1024_bf16_1_alg».proof.Proof.Kernel.Regions
import proofs.«900116_g7700000000000117_dist_ar_v7x_i4_i_m4096_n1024_bf16_1_alg».proof.Proof.Kernel.PreFlat

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ) (c : Dev nD)

abbrev outRect (off : Fin 2 → Nat) (hoff : ∀ a, off a + S256x1024.size a ≤ S4096x1024.size a) : Rect S4096x1024 :=
  Rect.unit (s := S4096x1024) off S256x1024.size hoff
abbrev outSl (off : Fin 2 → Nat) (hoff : ∀ a, off a + S256x1024.size a ≤ S4096x1024.size a) : Memref sig .tc .vmem S256x1024 .bf16 :=
  oM.slice (outRect off hoff) (fun _ => rfl)
abbrev scrRect (si : Fin 5 → Nat) (hsi : ∀ a, si a + S1x1x1x256x1024.size a ≤ S2x3x2x256x1024.size a) : Rect S2x3x2x256x1024 :=
  Rect.unit (s := S2x3x2x256x1024) si S1x1x1x256x1024.size hsi

-- Payment `6 + n` goes to the receive cell of hop `h'` on the device ahead.
theorem rs_owed (d j : Fin 2) (h' : Fin 6) (n : ℕ) (hn : 4 + n = 4 * h'.val + 2 * j.val + d.val) :
    owedAfter c (6 + n) = owedAfter c (7 + n) + tallyAt (recvCell (dn d c) (kIdx d h' j)) () N := by
  have e := owedAfter_send c d h' j
  rwa [← hn, ← Nat.add_assoc, ← Nat.add_assoc] at e

-- Brings what a transfer leaves into the shape of the next receive cell's payload.
theorem rs_pay2 (d j : Fin 2) (u' : Fin 3) (q : Dev nD) (fs : OC (F := F)) (fd : SC (F := F)) (Fr : sProp 𝕄) :
    iprop((slotPt (dn d c) d j u' ((slot d j u').view.write (Elt F) fd ((outPc q d j).view.read (Elt F) fs) Finset.univ) ∗ Fr) ∗ outPt c q d j fs)
      ⊢ iprop(slotPt (dn d c) d j u' (landIn d j u' q fs) ∗ outAny (F := F) c q d j ∗ Fr) := by
  rw [land_slot_pt]
  iintro ⟨⟨Hs, HF⟩, Hsrc⟩
  iframe Hs HF
  iapply outPt_any; iexact Hsrc

-- The data in which hops 0 and 1 differ, with the facts the common proof needs of them.
inductive RsData (d j : Fin 2) (h : Fin 6) : Prop
  | mk (q : Dev nD) (u u' : Fin 3) (h' : Fin 6) (Sv : SC (F := F)) (Fr : sProp 𝕄)
      (hq : (if h.val = 0 then up d c else up d (up d c)) = q) (hu : u.val = h.val) (hu' : u'.val = h'.val) (hh' : h'.val = h.val + 1)
      (hL : Lane m ρ c d j h.val ⊢ iprop((outPt c q d j (X m ρ c) ∗ slotAny (F := F) (dn d c) d j u' ∗ rcvOpen c d j h ∗ sndOpen c d j h')
          ∗ ((slotPt c d j u Sv ∗ rcvDone c d j h ∗ sndFlight c d j h') -∗ Lane m ρ c d j (h.val + 1))))
      (hrest : recvPay m ρ c d j h.val = iprop(slotPt c d j u Sv ∗ Fr))
      (hsend : sendPay m ρ c d j h'.val = iprop(emp))
      (hnext : recvPay m ρ (dn d c) d j h'.val
          = iprop(slotPt (dn d c) d j u' (landIn d j u' q (accOn d j u q (X m ρ c) Sv)) ∗ outAny (F := F) c q d j ∗ Fr))

theorem rs_data (d j : Fin 2) (h : Fin 6) (hh : h.val ≤ 1) : RsData m ρ c d j h := by
  obtain rfl | rfl : h = 0 ∨ h = 1 := (by omega : h.val = 0 ∨ h.val = 1).imp Fin.ext Fin.ext
  · refine ⟨up d c, 0, 1, 1, S0 m ρ d j c, outAny (F := F) (up d c) (up d c) d j, rfl, rfl, rfl, rfl, ?_, rfl, rfl, ?_⟩
    · show iprop(_ ∗ _) ⊢ iprop(_ ∗ (_ -∗ iprop(_ ∗ _)))
      iintro ⟨Hout, Ho2, Ho3, Hs1, Hs2, Hr0, Hr1, Hr2, Hr3, Hr4, Hr5, Hf0, Hso1, Hso2, Hso3, Hso4, Hso5⟩
      iframe Hout Hs1 Hr0 Hso1
      iintro ⟨Hs, Hd, Hf⟩
      iframe
    · show iprop(slotPt _ d j 1 (S1 m ρ d j (dn d c)) ∗ _) = _
      rw [S1, up_dn]; rfl
  · refine ⟨up d (up d c), 1, 2, 2, S1 m ρ d j c, iprop(outAny (F := F) (up d c) (up d (up d c)) d j ∗ outAny (F := F) (up d (up d c)) (up d (up d c)) d j),
      rfl, rfl, rfl, rfl, ?_, rfl, rfl, ?_⟩
    · show iprop(_ ∗ _) ⊢ iprop(_ ∗ (_ -∗ iprop(_ ∗ _)))
      iintro ⟨Hout, Ho3, Hs0, Hs2, Hr0, Hr1, Hr2, Hr3, Hr4, Hr5, Hf0, Hf1, Hso2, Hso3, Hso4, Hso5⟩
      iframe Hout Hs2 Hr1 Hso2
      iintro ⟨Hs, Hd, Hf⟩
      iframe
    · show iprop(slotPt _ d j 2 (S2 m ρ d j (dn d c)) ∗ _) = _
      rw [S2, up_dn]; rfl

-- One proof for both hops, over the data of `rs_data`.
theorem step_rs (d j : Fin 2) (h : Fin 6) (hh : h.val ≤ 1) (s : ℕ) (hs : s = h.val)
    {α : Type} (Q : α → sProp 𝕄) (kont : PUnit → Prog (TpuEff nD τ sig (Elt F) Λ₀ .tc) α)
    (rsem : DmaSem sig) (hrsem : rsem = recvSem (kIdx d h j))
    (si : Fin 5 → Nat) (hsi : ∀ a, si a + S1x1x1x256x1024.size a ≤ S2x3x2x256x1024.size a) (esi : si = stgI d.val h.val j.val)
    (hw1 hw2 : (stgPc si hsi).view.WordExact)
    (off : Fin 2 → Nat) (hoff : ∀ a, off a + S256x1024.size a ≤ S4096x1024.size a)
    (eoff : off = pcOff (if h.val = 0 then up d c else up d (up d c)) d j)
    (l1 l3 : oM.view.LoadsAt (outRect off hoff).toLoadRect) (l2 : sM.view.LoadsAt (scrRect si hsi).toLoadRect)
    (pay : Vec F S256x1024 .bf16 → Vec F S1x1x1x256x1024 .bf16 → FVec F S256x1024 .bf16) (hpay : pay = k0_pay5)
    (st1 : (oM.access (outRect off hoff)).Stores Finset.univ) (st2 : (Finset.univ : Finset (outRect off hoff).shape.Idx) = Finset.univ ∨ ∀ a, (outRect off hoff).stride a = 1)
    (soff : Fin 2 → Nat) (hsoff : ∀ a, soff a + S256x1024.size a ≤ S4096x1024.size a) (esoff : soff = off)
    (tgt : Dev nD) (htgt : tgt = dn d c)
    (ti : Fin 5 → Nat) (hti : ∀ a, ti a + S1x1x1x256x1024.size a ≤ S2x3x2x256x1024.size a) (eti : ti = stgI d.val (h.val + 1) j.val)
    (ssem rsem' : DmaSem sig) (hssem : ssem = sendSem (kIdx d ⟨h.val + 1, by omega⟩ j)) (hrsem' : rsem' = recvSem (kIdx d ⟨h.val + 1, by omega⟩ j))
    (hsc : (stgPc ti hti).view.ref.isScScratch = false)
    (e1 : (outSl soff hsoff).view.WordExact) (e2 : (stgPc ti hti).view.WordExact)
    (e3 : DmaTarget.Typed .vmem (.dma rsem') (.remote (Dev.tc tgt : Thread nD τ) (stgPc ti hti) (.dma ssem) hsc))
    (O : CellTallies nD τ sig Unit) (n : ℕ) (hn : n = 4 * h.val + 2 * j.val + d.val) :
    iprop(shared m ρ K ∗ Lane m ρ c d j s ∗ (∃ W : Waits sig Unit, owes (c : Thread nD τ) (owedAfter c (6 + n)) W)
        ∗ ((Lane m ρ c d j (s + 1) ∗ (∃ W : Waits sig Unit, owes (c : Thread nD τ) (owedAfter c (7 + n)) W))
            -∗ wp frame (wpE (defs₀ (F := F)) 𝒱₀ (c : Thread nD τ) none) Set.univ (kont ⟨⟩) Q))
      ⊢ wp frame (wpE (defs₀ (F := F)) 𝒱₀ (c : Thread nD τ) none) Set.univ (.op (.waitDma2 rsem (stgPc si hsi) (stgPc si hsi) hw1 hw2) fun _ =>
           .op (.load oM (outRect off hoff).toLoadRect l1) fun v1 =>
           .op (.load sM (scrRect si hsi).toLoadRect l2) fun v2 =>
           .op (.load oM (outRect off hoff).toLoadRect l3) fun _ =>
           .op (.store oM (outRect off hoff) (pay v1 v2) Finset.univ st1 st2) fun _ =>
           .op (.enqueueDma (outSl soff hsoff) (.remote (Dev.tc tgt : Thread nD τ) (stgPc ti hti) (.dma ssem) hsc) (.dma rsem') e1 e2 e3) kont) Q := by
  obtain ⟨q, u, u', h', Sv, Fr, hq, hu, hu', hh', hL, hrest, hsend, hnext⟩ := rs_data m ρ c d j h hh
  rw [show (⟨h.val + 1, by omega⟩ : Fin 6) = h' from Fin.ext hh'.symm] at hssem hrsem'
  rw [← hu] at esi; rw [← hh', ← hu'] at eti; rw [hq] at eoff
  subst hs hrsem esi eoff hpay esoff htgt eti hssem hrsem' hn
  unfold rcvOpen rcvDone sndOpen sndFlight slotAny outPt slotPt at hL
  unfold slotPt at hrest
  iintro ⟨#Hsh, HL, ⟨%W, HO⟩, Hk⟩
  ihave #HIr := (shared_inv m ρ K c (some (true, kIdx d h j))) $$ Hsh
  ihave #Hlev := (shared_lev m ρ K) $$ Hsh
  ihave HL := hL $$ HL
  icases HL with ⟨⟨Hout, ⟨%fd, Hdst⟩, ⟨Hat, Hc⟩, HtS, HtR, HatS⟩, HL⟩
  iapply (Rounds.wp_wait_rest_token 𝒱₀ ER (ringRd m ρ) (c : Thread nD τ) none
      (wpE_waitDma2_eq 𝒱₀ (c : Thread nD τ) none Set.univ) (Set.mem_univ _) () (R := 0) (m := 0)
      (by rw [Nat.zero_add, expect_recv])) $$ [Hc HO Hat]
  · isplitr; · iexact HIr
    iframe Hc HO Hat
    iapply (mayWait_recv c d h j (by omega)); iexact Hlev
  iintro ⟨HO, Hat, -, Hpay⟩
  imod (Rounds.cell_close ER (ringRd m ρ) (Set.mem_univ _) id
    (duties_later m ρ (recvCell c (kIdx d h j)))) $$ [Hat] with Hz
  · isplitr; · iexact HIr
    iexact Hat
  ihave Hp := (BIBase.Entails.of_eq ((rest_recv m ρ c d h j).trans hrest)) $$ Hpay
  icases Hp with ⟨Hslot, HF⟩
  iapply (wp_load 𝒱₀ (c : Thread nD τ) none Set.univ (pc_load_sub q d j)) $$ Hout; iintro Hout
  iapply (wp_load 𝒱₀ (c : Thread nD τ) none Set.univ (slot_load_sub d j u)) $$ Hslot; iintro Hslot
  iapply (wp_load 𝒱₀ (c : Thread nD τ) none Set.univ (pc_load_sub q d j)) $$ Hout; iintro Hout
  iapply (wp_store 𝒱₀ (c : Thread nD τ) none Set.univ (pc_store_sub q d j)) $$ Hout; iintro Hout
  ihave #HIs := (shared_inv m ρ K c (some (false, kIdx d h' j))) $$ Hsh
  ihave #HIr' := (shared_inv m ρ K (dn d c) (some (true, kIdx d h' j))) $$ Hsh
  ihave #HRs := (shared_reached m ρ K c (some (false, kIdx d h' j))) $$ Hsh
  ihave #HRr' := (shared_reached m ρ K (dn d c) (some (true, kIdx d h' j))) $$ Hsh
  iapply (Rounds.wp_send_landing_pointsTo_with 𝒱₀ ER (ringRd m ρ) (c : Thread nD τ) none (c' := ((dn d c : Dev nD) : Thread nD τ))
      (src := outPc q d j) (dst := slot d j u') (sS := .dma (sendSem (kIdx d h' j))) (sem := .dma (recvSem (kIdx d h' j)))
      (fs := accOn d j u q (X m ρ c) Sv) (F := Fr)
      (r₁ := 0) (r₂ := 0) (d₁ := false) (d₂ := false)
      (by rw [duties_send]; exact Finset.mem_singleton_self _) (by rw [duties_recv]; exact Finset.mem_singleton_self _)
      () () N rfl (amount_send m ρ c _ false) (amount_recv m ρ (dn d c) _ false)
      (owedAfter c (7 + (4 * h.val + 2 * j.val + d.val))) (rs_owed c d j h' _ (by omega))
      (.of_eq ((payload_send m ρ c d _ j false).trans hsend).symm)
      (by rw [payload_recv]; exact (rs_pay2 c d j u' q _ fd Fr).trans (.of_eq hnext.symm))) $$ [Hout Hdst HF HO HtS HtR]
  · isplitr; · iexact HIs
    isplitr; · iexact HIr'
    isplitl [Hout]; · iexact Hout
    iframe Hdst HF HO HtS
    isplitr; · iexact HRs
    iframe HtR
    iexact HRr'
  iintro ⟨HcS, HO⟩
  iapply Hk
  isplitr [HO]
  · iapply HL; iframe
  · iexists _; iexact HO

end Cert.Kernel.Ring

end
-- ==== Proof.Kernel.StepAG.lean ====
import proofs.«900116_g7700000000000117_dist_ar_v7x_i4_i_m4096_n1024_bf16_1_alg».proof.Proof.Kernel.State
import proofs.«900116_g7700000000000117_dist_ar_v7x_i4_i_m4096_n1024_bf16_1_alg».proof.Proof.Kernel.Tables
import proofs.«900116_g7700000000000117_dist_ar_v7x_i4_i_m4096_n1024_bf16_1_alg».proof.Proof.Kernel.Contents
import proofs.«900116_g7700000000000117_dist_ar_v7x_i4_i_m4096_n1024_bf16_1_alg».proof.Proof.Kernel.PreFlat

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ) (c : Dev nD)

abbrev agRect (off : Fin 2 → Nat) (hoff : ∀ a, off a + S256x1024.size a ≤ S4096x1024.size a) : Rect S4096x1024 :=
  Rect.unit (s := S4096x1024) off S256x1024.size hoff
abbrev agSl (off : Fin 2 → Nat) (hoff : ∀ a, off a + S256x1024.size a ≤ S4096x1024.size a) : Memref sig .tc .vmem S256x1024 .bf16 :=
  oM.slice (agRect off hoff) (fun _ => rfl)

-- A step on a part `B` of `A` is a step on `A`.
theorem lift_step {S A A' B B' O O' W W0 : sProp 𝕄} (ho : A ⊢ iprop(B ∗ (B' -∗ A')))
    (hs : iprop(S ∗ B ∗ O ∗ ((B' ∗ O') -∗ W)) ⊢ W0) : iprop(S ∗ A ∗ O ∗ ((A' ∗ O') -∗ W)) ⊢ W0 := by
  refine .trans ?_ hs
  iintro ⟨HS, HA, HO, Hk⟩
  ihave HA := ho $$ HA
  icases HA with ⟨HB, Hw⟩
  iframe HS HB HO
  iintro ⟨HB', HO'⟩
  iapply Hk
  iframe HO'
  iapply Hw
  iexact HB'

-- A wait on a transfer cell of `c` closes the cell and hands over its round's payload.
theorem wait_cell {sm : DmaSem sig} {κ : ℕ} {O : CellTallies nD τ sig Unit} {P : sProp 𝕄}
    (hI : shared m ρ K ⊢ cellInv ER (ringRd m ρ) κ ((c : Thread nD τ), .dma sm))
    (hN : (ringRd m ρ).expect ((c : Thread nD τ), .dma sm) 0 = N)
    (hP : bigSep ((ringRd m ρ).duties ((c : Thread nD τ), .dma sm) 0 \ ∅) (fun b => (ringRd m ρ).payload ((c : Thread nD τ), .dma sm) 0 b) = P)
    (hmw : shared m ρ K ⊢ MayWait (c : Thread nD τ) (.dma sm) () O)
    {α : Type} (Q : α → sProp 𝕄) (kont : PUnit → Prog (TpuEff nD τ sig (Elt F) Λ₀ .tc) α)
    (a : Memref sig .tc .vmem S256x1024 .bf16) (off : Fin 2 → Nat) (hoff : ∀ a, off a + S256x1024.size a ≤ S4096x1024.size a)
    (hw1 : a.view.WordExact) (hw2 : (agSl off hoff).view.WordExact) :
    iprop(shared m ρ K ∗ (atPos ER ((c : Thread nD τ), .dma sm) 0 ∅ 0 ∗ cred (tallyAt ((c : Thread nD τ), .dma sm) () N))
        ∗ (∃ W : Waits sig Unit, owes (c : Thread nD τ) O W)
        ∗ (((semVal ((c : Thread nD τ), .dma sm) 0 ∗ P) ∗ (∃ W : Waits sig Unit, owes (c : Thread nD τ) O W))
            -∗ wp frame (wpE (defs₀ (F := F)) 𝒱₀ (c : Thread nD τ) none) Set.univ (kont ⟨⟩) Q))
      ⊢ wp frame (wpE (defs₀ (F := F)) 𝒱₀ (c : Thread nD τ) none) Set.univ (.op (.waitDma2 sm a (agSl off hoff) hw1 hw2) kont) Q := by
  subst hP
  iintro ⟨#Hsh, ⟨Hat, Hc⟩, ⟨%W, HO⟩, Hk⟩
  ihave #HI := hI $$ Hsh
  iapply (Rounds.wp_wait_rest_token 𝒱₀ ER (ringRd m ρ) (c : Thread nD τ) none (κ := κ)
      (wpE_waitDma2_eq 𝒱₀ (c : Thread nD τ) none Set.univ) (Set.mem_univ _) () (O := O) (W := W) (R := 0) (m := 0) (T := ∅)
      (by rw [Nat.zero_add, hN])) $$ [Hc HO Hat]
  · iframe HI Hc HO Hat
    iapply hmw; iexact Hsh
  iintro ⟨HO, Hat, -, Hpay⟩
  imod (Rounds.cell_close ER (ringRd m ρ) (Set.mem_univ κ) (fun h => h) (R := 0 + 1) (duties_later m ρ _)) $$ [Hat] with Hz
  · iframe HI Hat
  iapply Hk
  iframe Hz Hpay
  iexists _; iexact HO

-- What hops 3 and 4 differ in: the lane before and after, the piece `q` that lands, and what else (`Fr`) the landing brings.
def AgHop (d j : Fin 2) (h h' : Fin 6) (s : ℕ) (q : Dev nD) : Prop :=
  ∃ Fr : sProp 𝕄,
    (Lane m ρ c d j s ⊢ iprop((rcvOpen c d j h ∗ sndOpen c d j h') ∗ ((rcvDone c d j h ∗ sndFlight c d j h') -∗ Lane m ρ c d j (s + 1)))) ∧
    (recvPay m ρ c d j h.val ⊢ iprop(outPt c q d j (A2 m ρ d j (up d q)) ∗ (∃ f, outPt (F := F) (dn d c) q d j f) ∗ Fr)) ∧
    (outPt c q d j (A2 m ρ d j (up d q)) ⊢ sendPay m ρ c d j h'.val) ∧
    (iprop(outPt (dn d c) q d j (A2 m ρ d j (up d q)) ∗ Fr) ⊢ recvPay m ρ (dn d c) d j h'.val) ∧ h'.val = h.val + 1 ∧ h.val ≤ 4

theorem agHop3 (d j : Fin 2) : AgHop m ρ c d j 3 4 3 c :=
  ⟨_, by
    show _ ⊢ iprop(_ ∗ (_ -∗ Lane m ρ c d j 4))
    rw [Lane, Lane]
    iintro ⟨a, b, c, d, e, f, g, h, i, j, k, l, m, n, o⟩
    iframe
    iintro ⟨x, y⟩
    iframe, .rfl, .rfl,
    .of_eq (by show _ = recvPay m ρ (dn d c) d j 4; rw [recvPay, up_dn]), rfl, by decide⟩

theorem agHop4 (d j : Fin 2) : AgHop m ρ c d j 4 5 4 (up d c) :=
  ⟨iprop(emp), by
    show _ ⊢ iprop(_ ∗ (_ -∗ Lane m ρ c d j 5))
    rw [Lane, Lane]
    iintro ⟨a, b, c, d, e, f, g, h, i, j, k, l, m, n, o⟩
    iframe
    iintro ⟨x, y⟩
    iframe, sep_mono_right Laws.sep_emp.2, .rfl,
    Laws.sep_emp.1.trans (.of_eq (by show _ = recvPay m ρ (dn d c) d j 5; rw [recvPay, up_dn])), rfl, by decide⟩

-- Hops 3 and 4: the piece `q` lands at its final contents and goes on to the device ahead, whose copy of it came along.
theorem ag_hop (d j : Fin 2) (h h' : Fin 6) (s : ℕ) (q : Dev nD)
    (D : AgHop m ρ c d j h h' s q)
    {α : Type} (Q : α → sProp 𝕄) (kont : PUnit → Prog (TpuEff nD τ sig (Elt F) Λ₀ .tc) α)
    (rsem : DmaSem sig) (hrsem : rsem = recvSem (kIdx d h j))
    (off : Fin 2 → Nat) (hoff : ∀ a, off a + S256x1024.size a ≤ S4096x1024.size a)
    (hw1 hw2 : (agSl off hoff).view.WordExact)
    (soff : Fin 2 → Nat) (hsoff : ∀ a, soff a + S256x1024.size a ≤ S4096x1024.size a) (esoff : soff = pcOff q d j)
    (tgt : Dev nD) (htgt : tgt = dn d c)
    (ssem rsem' : DmaSem sig) (hssem : ssem = sendSem (kIdx d h' j)) (hrsem' : rsem' = recvSem (kIdx d h' j))
    (hsc : (agSl soff hsoff).view.ref.isScScratch = false)
    (e1 e2 : (agSl soff hsoff).view.WordExact)
    (e3 : DmaTarget.Typed .vmem (.dma rsem') (.remote (Dev.tc tgt : Thread nD τ) (agSl soff hsoff) (.dma ssem) hsc))
    (n : ℕ) (hn : n = 4 * h.val + 2 * j.val + d.val) :
    iprop(shared m ρ K ∗ Lane m ρ c d j s ∗ (∃ W : Waits sig Unit, owes (c : Thread nD τ) (owedAfter c (6 + n)) W)
        ∗ ((Lane m ρ c d j (s + 1) ∗ (∃ W : Waits sig Unit, owes (c : Thread nD τ) (owedAfter c (7 + n)) W))
            -∗ wp frame (wpE (defs₀ (F := F)) 𝒱₀ (c : Thread nD τ) none) Set.univ (kont ⟨⟩) Q))
      ⊢ wp frame (wpE (defs₀ (F := F)) 𝒱₀ (c : Thread nD τ) none) Set.univ
          (.op (.waitDma2 rsem (agSl off hoff) (agSl off hoff) hw1 hw2) fun _ =>
           .op (.enqueueDma (agSl soff hsoff) (.remote (Dev.tc tgt : Thread nD τ) (agSl soff hsoff) (.dma ssem) hsc) (.dma rsem') e1 e2 e3) kont) Q := by
  obtain ⟨Fr, ho, hx⟩ := D
  have hr := hx.1; have hs := hx.2.1; have hr' := hx.2.2.1; have hh := hx.2.2.2.1; have h4 := hx.2.2.2.2
  refine lift_step ho ?_
  subst hrsem esoff htgt hssem hrsem'
  unfold rcvOpen rcvDone sndOpen sndFlight
  unfold outPt at hr
  iintro ⟨#Hsh, ⟨Hro, HtS, HtR, HatS⟩, HO, Hk⟩
  iapply (wait_cell m ρ K c (shared_inv m ρ K c (some (true, kIdx d h j))) (expect_recv m ρ c _) (rest_recv m ρ c d h j)
      ((shared_lev m ρ K).trans (hn ▸ mayWait_recv c d h j h4)))
  iframe Hsh Hro HO
  iintro ⟨⟨Hrd, Hp⟩, %W, HO⟩
  ihave Hp := hr $$ Hp
  icases Hp with ⟨Hsrc, ⟨%fd, Hdst⟩, HF⟩
  iapply (Rounds.wp_send_pointsTo_with 𝒱₀ ER (ringRd m ρ) (c : Thread nD τ) none (c' := ((dn d c : Dev nD) : Thread nD τ))
      (src := outPc q d j) (dst := outPc q d j) (sS := .dma (sendSem (kIdx d h' j))) (sem := .dma (recvSem (kIdx d h' j)))
      (q := fullShare) (fs := A2 m ρ d j (up d q)) (fd := fd) (F := Fr) (W := W)
      (κ₁ := K (c, some (false, kIdx d h' j))) (κ₂ := K (dn d c, some (true, kIdx d h' j))) (r₁ := 0) (r₂ := 0) (d₁ := false) (d₂ := false)
      (by rw [duties_send]; exact Finset.mem_singleton_self _) (by rw [duties_recv]; exact Finset.mem_singleton_self _)
      () () N rfl (amount_send m ρ c _ false) (amount_recv m ρ (dn d c) _ false) (owedAfter c (7 + n))
      (show owedAfter c (6 + n) = _ by
          have e := owedAfter_send c d h' j
          rwa [show 2 + (4 * h'.val + 2 * j.val + d.val) = 6 + n by omega, show 3 + (4 * h'.val + 2 * j.val + d.val) = 7 + n by omega] at e)
      (by rw [payload_send]; exact hs) (by rw [payload_recv]; exact (sep_mono_left (.of_eq (land_out_pt (dn d c) q d j fd _))).trans hr')) $$ [Hsrc Hdst HF HO HtS HtR]
  · iframe Hsrc Hdst HF HO HtS HtR
    isplitr
    · iapply (shared_inv m ρ K c (some (false, kIdx d h' j))); iexact Hsh
    isplitr
    · iapply (shared_inv m ρ K (dn d c) (some (true, kIdx d h' j))); iexact Hsh
    isplitr
    · iapply (shared_reached m ρ K c (some (false, kIdx d h' j))); iexact Hsh
    iapply (shared_reached m ρ K (dn d c) (some (true, kIdx d h' j))); iexact Hsh
  iintro ⟨HcS, HO⟩
  iapply Hk
  iframe Hrd HatS HcS
  iexists _; iexact HO

theorem step_last (d j : Fin 2)
    {α : Type} (Q : α → sProp 𝕄) (kont : PUnit → Prog (TpuEff nD τ sig (Elt F) Λ₀ .tc) α)
    (rsem : DmaSem sig) (hrsem : rsem = recvSem (kIdx d 5 j))
    (off : Fin 2 → Nat) (hoff : ∀ a, off a + S256x1024.size a ≤ S4096x1024.size a)
    (hw1 hw2 : (agSl off hoff).view.WordExact) :
    iprop(shared m ρ K ∗ Lane m ρ c d j 5 ∗ (∃ W : Waits sig Unit, owes (c : Thread nD τ) (owedAfter c 26) W)
        ∗ ((Lane m ρ c d j 6 ∗ (∃ W : Waits sig Unit, owes (c : Thread nD τ) (owedAfter c 26) W))
            -∗ wp frame (wpE (defs₀ (F := F)) 𝒱₀ (c : Thread nD τ) none) Set.univ (kont ⟨⟩) Q))
      ⊢ wp frame (wpE (defs₀ (F := F)) 𝒱₀ (c : Thread nD τ) none) Set.univ
          (.op (.waitDma2 rsem (agSl off hoff) (agSl off hoff) hw1 hw2) kont) Q :=
  hrsem ▸ lift_step (by
      show _ ⊢ iprop(rcvOpen c d j 5 ∗ ((rcvDone c d j 5 ∗ recvPay m ρ c d j 5) -∗ _))
      simp only [Lane, recvPay]
      iintro ⟨a, b, c, d, e, f, g, h, i, j⟩
      iframe
      iintro ⟨x, y⟩
      iframe)
    (wait_cell m ρ K c (shared_inv m ρ K c (some (true, kIdx d 5 j))) (expect_recv m ρ c _) (rest_recv m ρ c d 5 j)
      (by rw [owedAfter_end, MayWait_zero]; iintro -; iempintro) Q kont _ off hoff hw1 hw2)

end Cert.Kernel.Ring

end
-- ==== Proof.Kernel.StepSW.lean ====
import proofs.«900116_g7700000000000117_dist_ar_v7x_i4_i_m4096_n1024_bf16_1_alg».proof.Proof.Kernel.StepAG

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ) (c : Dev nD)

-- A lane gives up its next read-out in flight and takes it back waited for.
theorem laneW_open (d j : Fin 2) (h : Fin 6) :
    LaneW m ρ c d j h.val ⊢ iprop(sndFlight c d j h ∗ ((sndDone c d j h ∗ sendPay m ρ c d j h.val) -∗ LaneW m ρ c d j (h.val + 1))) := by
  unfold LaneW
  match h with
  | 0 | 1 | 2 | 3 | 4 | 5 =>
    simp (config := {decide := true}) only [sendPay, if_true, if_false]
    iintro ⟨a, b, c, d, e, f, g, h, i, j, k, l, m, n, o, p⟩
    iframe
    iintro ⟨x, y⟩
    iframe

theorem step_sw (d j : Fin 2) (h : Fin 6) (n : ℕ) (hn : n = 4 * h.val + 2 * j.val + d.val)
    {α : Type} (Q : α → sProp 𝕄) (kont : PUnit → Prog (TpuEff nD τ sig (Elt F) Λ₀ .tc) α)
    (ssem : DmaSem sig) (hssem : ssem = sendSem (kIdx d h j))
    (src : Memref sig .tc .vmem S256x1024 .bf16)
    (off : Fin 2 → Nat) (hoff : ∀ a, off a + S256x1024.size a ≤ S4096x1024.size a)
    (hw1 : src.view.WordExact)
    (hw2 : (oM.slice (Rect.unit (s := S4096x1024) off S256x1024.size hoff) (fun _ => rfl)).view.WordExact) :
    iprop(EMid m ρ K c n ∗ (EMid m ρ K c (n + 1) -∗ wp frame (wpE (defs₀ (F := F)) 𝒱₀ (c : Thread nD τ) none) Set.univ (kont ⟨⟩) Q))
      ⊢ wp frame (wpE (defs₀ (F := F)) 𝒱₀ (c : Thread nD τ) none) Set.univ (.op (.waitDma2 ssem src (oM.slice (Rect.unit (s := S4096x1024) off S256x1024.size hoff) (fun _ => rfl)) hw1 hw2) kont) Q := by
  subst hssem hn
  refine .trans ?_ (lift_step (laneW_open m ρ c d j h) (wait_cell m ρ K c (shared_inv m ρ K c (some (false, kIdx d h j)))
    (expect_send m ρ c _) (rest_send m ρ c d h j) (by rw [MayWait_zero]; iintro -; iempintro) Q kont src off hoff hw1 hw2))
  unfold EMid
  match d, j with
  | 0, 0 | 1, 0 | 0, 1 | 1, 1 =>
    simp (config := {decide := true}) only [Fin.val_zero, Fin.val_one, Nat.mul_zero, Nat.mul_one, Nat.add_zero, Nat.add_assoc, Nat.reduceAdd,
      Nat.mul_add_div, Nat.mul_div_cancel_left, Nat.reduceDiv]
    iintro ⟨⟨#Hsh, L0, L1, L2, L3, HO, Hx⟩, Hk⟩
    iframe Hsh HO
    iframe
    iintro ⟨HL, HO⟩
    iapply Hk
    iframe Hsh
    iframe

theorem mid_emid : Mid m ρ K c 24 ⊢ EMid m ρ K c 0 := by
  unfold Mid EMid LaneW
  simp (config := {decide := true}) only [Lane, owedAfter_end, if_false, Nat.reduceAdd, Nat.reduceDiv, Nat.min_eq_right]
  exact .rfl

end Cert.Kernel.Ring

end
-- ==== Proof.Kernel.StepRS2.lean ====
import proofs.«900116_g7700000000000117_dist_ar_v7x_i4_i_m4096_n1024_bf16_1_alg».proof.Proof.Kernel.State
import proofs.«900116_g7700000000000117_dist_ar_v7x_i4_i_m4096_n1024_bf16_1_alg».proof.Proof.Kernel.Tables
import proofs.«900116_g7700000000000117_dist_ar_v7x_i4_i_m4096_n1024_bf16_1_alg».proof.Proof.Kernel.Contents
import proofs.«900116_g7700000000000117_dist_ar_v7x_i4_i_m4096_n1024_bf16_1_alg».proof.Proof.Kernel.Regions
import proofs.«900116_g7700000000000117_dist_ar_v7x_i4_i_m4096_n1024_bf16_1_alg».proof.Proof.Kernel.PreFlat

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ) (c : Dev nD)

abbrev rs2Rect (off : Fin 2 → Nat) (hoff : ∀ a, off a + S256x1024.size a ≤ S4096x1024.size a) : Rect S4096x1024 :=
  Rect.unit (s := S4096x1024) off S256x1024.size hoff
abbrev rs2Sl (off : Fin 2 → Nat) (hoff : ∀ a, off a + S256x1024.size a ≤ S4096x1024.size a) : Memref sig .tc .vmem S256x1024 .bf16 :=
  oM.slice (rs2Rect off hoff) (fun _ => rfl)
abbrev rs2Scr (si : Fin 5 → Nat) (hsi : ∀ a, si a + S1x1x1x256x1024.size a ≤ S2x3x2x256x1024.size a) : Rect S2x3x2x256x1024 :=
  Rect.unit (s := S2x3x2x256x1024) si S1x1x1x256x1024.size hsi

-- Payment `6 + n` goes to the receive cell of hop 3 on the device ahead.
theorem rs2_owed (d j : Fin 2) (n : ℕ) (hn : 4 + n = 4 * 3 + 2 * j.val + d.val) :
    owedAfter c (6 + n) = owedAfter c (7 + n) + tallyAt (recvCell (dn d c) (kIdx d 3 j)) () N := by
  have e := owedAfter_send c d 3 j
  rwa [show (3 : Fin 6).val = 3 from rfl, ← hn, ← Nat.add_assoc, ← Nat.add_assoc] at e

-- Hop 2's payload with every device counted from `c` down the ring.
theorem rs2_rest (d j : Fin 2) :
    recvPay m ρ c d j 2 = iprop(slotPt c d j 2 (S2 m ρ d j c)
          ∗ outAny (F := F) (dn d (dn d (dn d c))) (dn d c) d j ∗ outAny (F := F) (dn d (dn d c)) (dn d c) d j
          ∗ ∃ f : OC (F := F), outPt (dn d c) (dn d c) d j f) := by
  show iprop(_ ∗ _ ∗ _ ∗ _) = _
  rw [up3_eq_dn, show up d (up d c) = dn d (dn d c) by revert d c; decide, show up d c = dn d (dn d (dn d c)) by revert d c; decide]; rfl

-- Three steps up the ring are one step down.
theorem rs2_val (d j : Fin 2) : accOn d j 2 (dn d c) (X m ρ c) (S2 m ρ d j c) = A2 m ρ d j c := by
  rw [← up3_eq_dn]; rfl

theorem rs2_pay1 (d j : Fin 2) :
    outPt c (dn d c) d j (accOn d j 2 (dn d c) (X m ρ c) (S2 m ρ d j c)) ⊢ (ringRd m ρ).payload (sendCell c (kIdx d 3 j)) 0 false := by
  rw [payload_send, rs2_val]
  show _ ⊢ outPt c (up d (up d (up d c))) d j (A2 m ρ d j c)
  rw [up3_eq_dn]

theorem rs2_pay2 (d j : Fin 2) (fd : OC (F := F)) :
    iprop(outPt (dn d c) (dn d c) d j ((outPc (dn d c) d j).view.write (Elt F) fd
          ((outPc (dn d c) d j).view.read (Elt F) (accOn d j 2 (dn d c) (X m ρ c) (S2 m ρ d j c))) Finset.univ)
        ∗ (outAny (F := F) (dn d (dn d c)) (dn d c) d j ∗ outAny (F := F) (dn d (dn d (dn d c))) (dn d c) d j))
      ⊢ (ringRd m ρ).payload (recvCell (dn d c) (kIdx d 3 j)) 0 false := by
  rw [payload_recv, land_out_pt, rs2_val]
  show _ ⊢ iprop(outPt _ _ d j (A2 m ρ d j (up d (dn d c))) ∗ _)
  rw [up_dn]

-- The lane before hop 2 gives what the hop uses, and takes what it leaves into the lane after it.
theorem rs2_lane (d j : Fin 2) :
    Lane m ρ c d j 2 ⊢ iprop((outPt c (dn d c) d j (X m ρ c) ∗ rcvOpen c d j 2 ∗ sndOpen c d j 3)
      ∗ ((slotPt c d j 2 (S2 m ρ d j c) ∗ rcvDone c d j 2 ∗ sndFlight c d j 3) -∗ Lane m ρ c d j 3)) := by
  show iprop(_ ∗ _) ⊢ iprop(_ ∗ (_ -∗ iprop(_ ∗ _)))
  rw [up3_eq_dn]
  iintro ⟨Hout, Hs0, Hs1, Hr0, Hr1, Hr2, Hro3, Hro4, Hro5, Hf0, Hf1, Hf2, Hso3, Hso4, Hso5⟩
  iframe Hout Hr2 Hso3
  iintro ⟨Hs, Hd, Hf⟩
  iframe

-- Hop 2: the sum is complete and goes on into the result piece of the device ahead.
theorem step_rs2 (d j : Fin 2)
    {α : Type} (Q : α → sProp 𝕄) (kont : PUnit → Prog (TpuEff nD τ sig (Elt F) Λ₀ .tc) α)
    (rsem : DmaSem sig) (hrsem : rsem = recvSem (kIdx d 2 j))
    (si : Fin 5 → Nat) (hsi : ∀ a, si a + S1x1x1x256x1024.size a ≤ S2x3x2x256x1024.size a) (esi : si = stgI d.val 2 j.val)
    (hw1 hw2 : (stgPc si hsi).view.WordExact)
    (off : Fin 2 → Nat) (hoff : ∀ a, off a + S256x1024.size a ≤ S4096x1024.size a) (eoff : off = pcOff (dn d c) d j)
    (l1 l3 : oM.view.LoadsAt (rs2Rect off hoff).toLoadRect) (l2 : sM.view.LoadsAt (rs2Scr si hsi).toLoadRect)
    (pay : Vec F S256x1024 .bf16 → Vec F S1x1x1x256x1024 .bf16 → FVec F S256x1024 .bf16) (hpay : pay = k0_pay5)
    (st1 : (oM.access (rs2Rect off hoff)).Stores Finset.univ)
    (st2 : (Finset.univ : Finset (rs2Rect off hoff).shape.Idx) = Finset.univ ∨ ∀ a, (rs2Rect off hoff).stride a = 1)
    (soff : Fin 2 → Nat) (hsoff : ∀ a, soff a + S256x1024.size a ≤ S4096x1024.size a) (esoff : soff = pcOff (dn d c) d j)
    (tgt : Dev nD) (htgt : tgt = dn d c)
    (ssem rsem' : DmaSem sig) (hssem : ssem = sendSem (kIdx d 3 j)) (hrsem' : rsem' = recvSem (kIdx d 3 j))
    (hsc : (rs2Sl soff hsoff).view.ref.isScScratch = false)
    (e1 e2 : (rs2Sl soff hsoff).view.WordExact)
    (e3 : DmaTarget.Typed .vmem (.dma rsem') (.remote (Dev.tc tgt : Thread nD τ) (rs2Sl soff hsoff) (.dma ssem) hsc))
    (n : ℕ) (hn : n = 4 * 2 + 2 * j.val + d.val) :
    iprop(shared m ρ K ∗ Lane m ρ c d j 2 ∗ (∃ W : Waits sig Unit, owes (c : Thread nD τ) (owedAfter c (6 + n)) W)
        ∗ ((Lane m ρ c d j 3 ∗ (∃ W : Waits sig Unit, owes (c : Thread nD τ) (owedAfter c (7 + n)) W))
            -∗ wp frame (wpE (defs₀ (F := F)) 𝒱₀ (c : Thread nD τ) none) Set.univ (kont ⟨⟩) Q))
      ⊢ wp frame (wpE (defs₀ (F := F)) 𝒱₀ (c : Thread nD τ) none) Set.univ (.op (.waitDma2 rsem (stgPc si hsi) (stgPc si hsi) hw1 hw2) fun _ =>
           .op (.load oM (rs2Rect off hoff).toLoadRect l1) fun v1 =>
           .op (.load sM (rs2Scr si hsi).toLoadRect l2) fun v2 =>
           .op (.load oM (rs2Rect off hoff).toLoadRect l3) fun _ =>
           .op (.store oM (rs2Rect off hoff) (pay v1 v2) Finset.univ st1 st2) fun _ =>
           .op (.enqueueDma (rs2Sl soff hsoff) (.remote (Dev.tc tgt : Thread nD τ) (rs2Sl soff hsoff) (.dma ssem) hsc) (.dma rsem') e1 e2 e3) kont) Q := by
  subst hrsem esi eoff hpay esoff htgt hssem hrsem' hn
  have hL := rs2_lane m ρ c d j
  unfold rcvOpen rcvDone sndOpen sndFlight outPt slotPt at hL
  have hrest := rs2_rest m ρ c d j
  unfold outPt slotPt at hrest
  iintro ⟨#Hsh, HL, ⟨%W, HO⟩, Hk⟩
  ihave #HIr := (shared_inv m ρ K c (some (true, kIdx d 2 j))) $$ Hsh
  ihave #Hlev := (shared_lev m ρ K) $$ Hsh
  ihave HL := hL $$ HL
  icases HL with ⟨⟨Hout, ⟨Hat, Hc⟩, HtS, HtR, HatS⟩, HL⟩
  iapply (Rounds.wp_wait_rest_token 𝒱₀ ER (ringRd m ρ) (c : Thread nD τ) none
      (wpE_waitDma2_eq 𝒱₀ (c : Thread nD τ) none Set.univ) (Set.mem_univ _) () (R := 0) (m := 0)
      (by rw [Nat.zero_add, expect_recv])) $$ [Hc HO Hat]
  · isplitr; · iexact HIr
    iframe Hc HO Hat
    iapply (mayWait_recv c d 2 j (by decide)); iexact Hlev
  iintro ⟨HO, Hat, -, Hpay⟩
  imod (Rounds.cell_close ER (ringRd m ρ) (Set.mem_univ _) id
    (duties_later m ρ (recvCell c (kIdx d 2 j)))) $$ [Hat] with Hz
  · isplitr; · iexact HIr
    iexact Hat
  ihave Hp := (BIBase.Entails.of_eq ((rest_recv m ρ c d 2 j).trans hrest)) $$ Hpay
  icases Hp with ⟨Hslot, HA3, HA2, ⟨%fd, Hdst⟩⟩
  iapply (wp_load 𝒱₀ (c : Thread nD τ) none Set.univ (pc_load_sub (dn d c) d j)) $$ Hout; iintro Hout
  iapply (wp_load 𝒱₀ (c : Thread nD τ) none Set.univ (slot_load_sub d j 2)) $$ Hslot; iintro Hslot
  iapply (wp_load 𝒱₀ (c : Thread nD τ) none Set.univ (pc_load_sub (dn d c) d j)) $$ Hout; iintro Hout
  iapply (wp_store 𝒱₀ (c : Thread nD τ) none Set.univ (pc_store_sub (dn d c) d j)) $$ Hout; iintro Hout
  ihave #HIs := (shared_inv m ρ K c (some (false, kIdx d 3 j))) $$ Hsh
  ihave #HIr' := (shared_inv m ρ K (dn d c) (some (true, kIdx d 3 j))) $$ Hsh
  ihave #HRs := (shared_reached m ρ K c (some (false, kIdx d 3 j))) $$ Hsh
  ihave #HRr' := (shared_reached m ρ K (dn d c) (some (true, kIdx d 3 j))) $$ Hsh
  iapply (Rounds.wp_send_pointsTo_with 𝒱₀ ER (ringRd m ρ) (c : Thread nD τ) none (c' := ((dn d c : Dev nD) : Thread nD τ))
      (src := outPc (dn d c) d j) (dst := outPc (dn d c) d j) (sS := .dma (sendSem (kIdx d 3 j))) (sem := .dma (recvSem (kIdx d 3 j)))
      (fs := accOn d j 2 (dn d c) (X m ρ c) (S2 m ρ d j c))
      (F := iprop(outAny (F := F) (dn d (dn d c)) (dn d c) d j ∗ outAny (F := F) (dn d (dn d (dn d c))) (dn d c) d j))
      (r₁ := 0) (r₂ := 0) (d₁ := false) (d₂ := false)
      (by rw [duties_send]; exact Finset.mem_singleton_self _) (by rw [duties_recv]; exact Finset.mem_singleton_self _)
      () () N rfl (amount_send m ρ c _ false) (amount_recv m ρ (dn d c) _ false)
      (owedAfter c (7 + (4 * 2 + 2 * j.val + d.val))) (rs2_owed c d j _ (by omega))
      (rs2_pay1 m ρ c d j) (rs2_pay2 m ρ c d j fd)) $$ [Hout Hdst HA2 HA3 HO HtS HtR]
  · isplitr; · iexact HIs
    isplitr; · iexact HIr'
    isplitl [Hout]; · iexact Hout
    iframe Hdst HA2 HA3 HO HtS
    isplitr; · iexact HRs
    iframe HtR
    iexact HRr'
  iintro ⟨HcS, HO⟩
  iapply Hk
  isplitr [HO]
  · iapply HL; iframe
  · iexists _; iexact HO

theorem rs2_off5 (j : Fin 2) : k0_off5 c (BitVec.ofNat 32 2) (BitVec.ofNat 32 (256 * j.val)) = pcOff (dn 0 c) 0 j :=
  (k0_off5_pc c 2 j).trans (congrArg (pcOff · 0 j) (up3_eq_dn 0 c))
theorem rs2_off6 (j : Fin 2) : k0_off6 c (BitVec.ofNat 32 2) (BitVec.ofNat 32 (256 * j.val)) = pcOff (dn 1 c) 1 j :=
  (k0_off6_pc c 2 j).trans (congrArg (pcOff · 1 j) (up3_eq_dn 1 c))
theorem rs2_off7 (j : Fin 2) : k0_off7 c (BitVec.ofNat 32 0) (BitVec.ofNat 32 (256 * j.val)) = pcOff (dn 0 c) 0 j :=
  k0_off7_pc c 0 j
theorem rs2_off8 (j : Fin 2) : k0_off8 c (BitVec.ofNat 32 0) (BitVec.ofNat 32 (256 * j.val)) = pcOff (dn 1 c) 1 j :=
  k0_off8_pc c 0 j

end Cert.Kernel.Ring

end
-- ==== Proof.Kernel.Prologue.lean ====
import proofs.«900116_g7700000000000117_dist_ar_v7x_i4_i_m4096_n1024_bf16_1_alg».proof.Proof.Kernel.State
import proofs.«900116_g7700000000000117_dist_ar_v7x_i4_i_m4096_n1024_bf16_1_alg».proof.Proof.Kernel.Tables
import proofs.«900116_g7700000000000117_dist_ar_v7x_i4_i_m4096_n1024_bf16_1_alg».proof.Proof.Kernel.Contents
import proofs.«900116_g7700000000000117_dist_ar_v7x_i4_i_m4096_n1024_bf16_1_alg».proof.Proof.Kernel.Regions
import proofs.«900116_g7700000000000117_dist_ar_v7x_i4_i_m4096_n1024_bf16_1_alg».proof.Proof.Kernel.PreFlat

noncomputable section

namespace Cert.Kernel.Ring

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ) (c : Dev nD)

-- Each neighbour is handed the landing slots it will write; the wait hands back the neighbours' slots this device writes.
theorem pro_barrier {α : Type} (Q : α → sProp 𝕄) (kont : PUnit → Prog (TpuEff nD τ sig (Elt F) Λ₀ .tc) α)
    (t1 t2 : Dev nD) (ht1 : t1 = prv c) (ht2 : t2 = nxt c)
    (a1 a2 a3 : ℕ) (ha1 : a1 = 1) (ha2 : a2 = 1) (ha3 : a3 = 2) :
    iprop(shared m ρ K ∗ barG c
        ∗ (∃ f : Buf (Elt F) ((c : Thread nD τ).loc cc0_scratch0), ((c : Thread nD τ).loc cc0_scratch0) ↦{fullShare} f)
        ∗ (∃ W : Waits sig Unit, owes (c : Thread nD τ) (owedAfter c 0) W)
        ∗ ((slots6 (F := F) (prv c) 1 ∗ slots6 (F := F) (nxt c) 0 ∗ (∃ W : Waits sig Unit, owes (c : Thread nD τ) (owedAfter c 2) W))
            -∗ wp frame (wpE (defs₀ (F := F)) 𝒱₀ (c : Thread nD τ) none) Set.univ (kont ⟨⟩) Q))
      ⊢ wp frame (wpE (defs₀ (F := F)) 𝒱₀ (c : Thread nD τ) none) Set.univ
          (.op (.semSignal (Dev.tc t1 : Thread nD τ) barS a1) fun _ =>
           .op (.semSignal (Dev.tc t2 : Thread nD τ) barS a2) fun _ =>
           .op (.semWait barS a3) kont) Q := by
  subst ht1 ht2 ha1 ha2 ha3
  iintro ⟨#Hsh, Hbar, Hscr, HO, Hk⟩
  unfold barG
  icases Hbar with ⟨Ht1, Ht2, Hat, Hcr⟩
  icases HO with ⟨%W, HO⟩
  ihave Hsl := (slots_split (F := F) c) $$ Hscr
  icases Hsl with ⟨Hs0, Hs1⟩
  ihave #HI1 := (shared_inv m ρ K (prv c) none) $$ Hsh
  ihave #HI2 := (shared_inv m ρ K (nxt c) none) $$ Hsh
  ihave #HI0 := (shared_inv m ρ K c none) $$ Hsh
  ihave #HR1 := (shared_reached m ρ K (prv c) none) $$ Hsh
  ihave #HR2 := (shared_reached m ρ K (nxt c) none) $$ Hsh
  ihave #Hlev := (shared_lev m ρ K) $$ Hsh
  iapply (Rounds.wp_signal 𝒱₀ ER (ringRd m ρ) (c : Thread nD τ) none (dst := (prv c : Thread nD τ)) (κ := K (prv c, none))
      (d := true) (by rw [duties_bar]; exact Finset.mem_univ _) (amount_bar m ρ (prv c) true) () (owedAfter c 1) (owedAfter_bar0 c))
    $$ [HO Ht1 Hs0]
  · rw [payload_bar]; unfold barPay; rw [if_pos rfl, nxt_prv]
    isplitr; · iexact HI1
    iframe HO Ht1 Hs0; iexact HR1
  iintro HO
  iapply (Rounds.wp_signal 𝒱₀ ER (ringRd m ρ) (c : Thread nD τ) none (dst := (nxt c : Thread nD τ)) (κ := K (nxt c, none))
      (d := false) (by rw [duties_bar]; exact Finset.mem_univ _) (amount_bar m ρ (nxt c) false) () (owedAfter c 2) (owedAfter_bar1 c))
    $$ [HO Ht2 Hs1]
  · rw [payload_bar]; unfold barPay; rw [if_neg (by decide), prv_nxt]
    isplitr; · iexact HI2
    iframe HO Ht2 Hs1; iexact HR2
  iintro HO
  iapply (Rounds.wp_wait_rest_token 𝒱₀ ER (ringRd m ρ) (c : Thread nD τ) none (κ := K (c, none))
      (wpE_semWait_eq 𝒱₀ (c : Thread nD τ) none Set.univ) (Set.mem_univ _) () (O := owedAfter c 2) (W := W) (R := 0) (m := 0) (T := ∅)
      (by rw [expect_bar])) $$ [Hcr HO Hat]
  · isplitr; · iexact HI0
    iframe Hcr HO Hat; iapply (mayWait_bar c); iexact Hlev
  iintro ⟨HO, -, -, Hpay⟩
  ihave Hp := (Entails.of_eq (rest_bar m ρ c)) $$ Hpay
  unfold barPay
  rw [if_neg (by decide), if_pos rfl]
  icases Hp with ⟨Hp1, Hp0⟩
  iapply Hk
  iframe Hp1 Hp0; iexists _; iexact HO

abbrev chR (off : Fin 2 → Nat) (hoff : ∀ a, off a + S1024x1024.size a ≤ S4096x1024.size a) : Rect S4096x1024 :=
  Rect.unit (s := S4096x1024) off S1024x1024.size hoff

-- Chunk `q` of the device's own block, narrowed to the result's type, goes into the result buffer.
theorem pro_chunk (q : Dev nD) {α : Type} (Q : α → sProp 𝕄) (kont : PUnit → Prog (TpuEff nD τ sig (Elt F) Λ₀ .tc) α)
    (off : Fin 2 → Nat) (hoff : ∀ a, off a + S1024x1024.size a ≤ S4096x1024.size a) (eoff : off = chOff q)
    (l1 : xM.view.LoadsAt (chR off hoff).toLoadRect) (l2 : oM.view.LoadsAt (chR off hoff).toLoadRect)
    (pay : Vec F S1024x1024 .f32 → FVec F S1024x1024 .bf16) (hpay : pay = k0_pay1)
    (st1 : (oM.access (chR off hoff)).Stores Finset.univ)
    (st2 : (Finset.univ : Finset (chR off hoff).shape.Idx) = Finset.univ ∨ ∀ a, (chR off hoff).stride a = 1)
    (f : OC (F := F)) :
    iprop(stg c cc0_stg0_0 (xs m ρ c) ∗ chunkPt c q f
        ∗ ((stg c cc0_stg0_0 (xs m ρ c) ∗ chunkPt c q (X m ρ c))
            -∗ wp frame (wpE (defs₀ (F := F)) 𝒱₀ (c : Thread nD τ) none) Set.univ (kont ⟨⟩) Q))
      ⊢ wp frame (wpE (defs₀ (F := F)) 𝒱₀ (c : Thread nD τ) none) Set.univ
          (.op (.load xM (chR off hoff).toLoadRect l1) fun v1 =>
           .op (.load oM (chR off hoff).toLoadRect l2) fun _ =>
           .op (.store oM (chR off hoff) (pay v1) Finset.univ st1 st2) kont) Q := by
  subst eoff hpay
  iintro ⟨Hx, Hch, Hk⟩
  unfold stg
  icases Hx with ⟨%fx, %hfx, Hx⟩
  subst hfx
  unfold chunkPt
  iapply (wp_load 𝒱₀ (c : Thread nD τ) none Set.univ (m := xM) (Finset.subset_univ _)) $$ Hx; iintro Hx
  iapply (wp_load 𝒱₀ (c : Thread nD τ) none Set.univ (m := oM) (ch_load_sub q)) $$ Hch; iintro Hch
  iapply (wp_store 𝒱₀ (c : Thread nD τ) none Set.univ (m := oM) (r := chRect q) (Mk := Finset.univ) (ch_store_sub q)) $$ Hch; iintro Hch
  ihave Hch := (Entails.of_eq (chunk_store_pt m ρ c c q f)) $$ Hch
  iapply Hk
  iframe Hch; iexists _; iframe Hx; ipureintro; rfl

def laneT (c : Dev nD) (d j : Fin 2) : sProp 𝕄 :=
  iprop(rcvOpen c d j 0 ∗ rcvOpen c d j 1 ∗ rcvOpen c d j 2 ∗ rcvOpen c d j 3 ∗ rcvOpen c d j 4 ∗ rcvOpen c d j 5
    ∗ sndFlight c d j 0 ∗ sndOpen c d j 1 ∗ sndOpen c d j 2 ∗ sndOpen c d j 3 ∗ sndOpen c d j 4 ∗ sndOpen c d j 5)

-- A lane before any landing: three pieces still to be added onto, the two later slots ahead, its cells.
theorem lane0_of (d j : Fin 2) :
    iprop(outPt c (up d c) d j (X m ρ c) ∗ outPt c (up d (up d c)) d j (X m ρ c) ∗ outPt c (up d (up d (up d c))) d j (X m ρ c)
        ∗ slotAny (F := F) (dn d c) d j 1 ∗ slotAny (F := F) (dn d c) d j 2 ∗ laneT c d j)
      ⊢ Lane m ρ c d j 0 := by
  unfold laneT
  exact .rfl

-- A lane's first transfer: the device's own piece goes to slot 0 of the device ahead, its ownership with the landing.
theorem pro_send0T (d j : Fin 2) {α : Type} (Q : α → sProp 𝕄) (kont : PUnit → Prog (TpuEff nD τ sig (Elt F) Λ₀ .tc) α)
    (soff : Fin 2 → Nat) (hsoff : ∀ a, soff a + S256x1024.size a ≤ S4096x1024.size a) (esoff : soff = pcOff c d j)
    (tgt : Dev nD) (htgt : tgt = dn d c)
    (ti : Fin 5 → Nat) (hti : ∀ a, ti a + S1x1x1x256x1024.size a ≤ S2x3x2x256x1024.size a) (eti : ti = stgI d.val 0 j.val)
    (ssem rsem' : DmaSem sig) (hssem : ssem = sendSem (kIdx d 0 j)) (hrsem' : rsem' = recvSem (kIdx d 0 j))
    (hsc : (stgPc ti hti).view.ref.isScScratch = false)
    (e1 : (oM.slice (Rect.unit (s := S4096x1024) soff S256x1024.size hsoff) (fun _ => rfl)).view.WordExact)
    (e2 : (stgPc ti hti).view.WordExact)
    (e3 : DmaTarget.Typed .vmem (.dma rsem') (.remote (Dev.tc tgt : Thread nD τ) (stgPc ti hti) (.dma ssem) hsc))
    (n : ℕ) (hn : n = 2 * j.val + d.val) :
    iprop(shared m ρ K ∗ outPt c c d j (X m ρ c) ∗ slotAny (F := F) (dn d c) d j 0 ∗ laneG c d j
        ∗ (∃ W : Waits sig Unit, owes (c : Thread nD τ) (owedAfter c (2 + n)) W)
        ∗ ((laneT c d j ∗ (∃ W : Waits sig Unit, owes (c : Thread nD τ) (owedAfter c (3 + n)) W))
            -∗ wp frame (wpE (defs₀ (F := F)) 𝒱₀ (c : Thread nD τ) none) Set.univ (kont ⟨⟩) Q))
      ⊢ wp frame (wpE (defs₀ (F := F)) 𝒱₀ (c : Thread nD τ) none) Set.univ
          (.op (.enqueueDma (oM.slice (Rect.unit (s := S4096x1024) soff S256x1024.size hsoff) (fun _ => rfl))
            (.remote (Dev.tc tgt : Thread nD τ) (stgPc ti hti) (.dma ssem) hsc) (.dma rsem') e1 e2 e3) kont) Q := by
  subst esoff htgt eti hssem hrsem'
  have hO : owedAfter c (2 + n) = owedAfter c (3 + n) + tallyAt (recvCell (dn d c) (kIdx d 0 j)) () N := by
    have h := owedAfter_send c d 0 j
    have e : 4 * ((0 : Fin 6)).val + 2 * j.val + d.val = n := by
      subst hn; show 4 * 0 + 2 * j.val + d.val = 2 * j.val + d.val; omega
    rw [e] at h; exact h
  iintro ⟨#Hsh, Hsrc, Hdst, HG, HO, Hk⟩
  unfold laneG sndOpen
  icases HG with ⟨R0, R1, R2, R3, R4, R5, ⟨Htok1, Htok2, Hat⟩, O1, O2, O3, O4, O5⟩
  icases HO with ⟨%W, HO⟩
  unfold slotAny
  icases Hdst with ⟨%fd, Hdst⟩
  ihave #HI1 := (shared_inv m ρ K c (some (false, kIdx d 0 j))) $$ Hsh
  ihave #HI2 := (shared_inv m ρ K (dn d c) (some (true, kIdx d 0 j))) $$ Hsh
  ihave #HR1 := (shared_reached m ρ K c (some (false, kIdx d 0 j))) $$ Hsh
  ihave #HR2 := (shared_reached m ρ K (dn d c) (some (true, kIdx d 0 j))) $$ Hsh
  unfold outPt slotPt
  iapply (Rounds.wp_send_landing_pointsTo 𝒱₀ ER (ringRd m ρ) (c : Thread nD τ) none (c' := (dn d c : Thread nD τ))
      (src := outPc c d j) (dst := slot d j 0)
      (κ₁ := K (c, some (false, kIdx d 0 j))) (κ₂ := K (dn d c, some (true, kIdx d 0 j)))
      (d₁ := false) (d₂ := false) (r₁ := 0) (r₂ := 0) (fs := X m ρ c) (fd := fd) (q := fullShare)
      (by rw [duties_send]; exact Finset.mem_singleton_self _) (by rw [duties_recv]; exact Finset.mem_singleton_self _)
      () () N rfl (amount_send m ρ c _ false) (amount_recv m ρ (dn d c) _ false) (owedAfter c (3 + n)) hO
      (by rw [payload_send]; exact .rfl)
      (by
        rw [payload_recv]
        show _ ⊢ iprop(slotPt (dn d c) d j 0 (S0 m ρ d j (dn d c)) ∗ outAny (F := F) (up d (dn d c)) (up d (dn d c)) d j)
        unfold S0
        rw [up_dn]
        iintro ⟨Hd, Hs⟩
        isplitl [Hd]
        · rw [← land_slot_pt (dn d c) d j 0 c fd (X m ρ c)]; unfold slotPt; iexact Hd
        · iapply (outPt_any c c d j (X m ρ c)); unfold outPt; iexact Hs))
    $$ [Hsrc Hdst HO Htok1 Htok2]
  · isplitr; · iexact HI1
    isplitr; · iexact HI2
    iframe Hsrc Hdst HO Htok1 Htok2
    isplitr; · iexact HR1
    iexact HR2
  iintro ⟨Hcr, HO⟩
  iapply Hk
  unfold laneT sndFlight sndOpen; iframe; iexists _; iexact HO

theorem up0_1 : up 0 c = prv c := by revert c; decide
theorem up0_2 : up 0 (up 0 c) = nxt (nxt c) := by revert c; decide
theorem up0_3 : up 0 (up 0 (up 0 c)) = nxt c := by revert c; decide
theorem up1_1 : up 1 c = nxt c := by revert c; decide
theorem up1_2 : up 1 (up 1 c) = nxt (nxt c) := by revert c; decide
theorem up1_3 : up 1 (up 1 (up 1 c)) = prv c := by revert c; decide
theorem dn0 : dn 0 c = nxt c := by revert c; decide
theorem dn1 : dn 1 c = prv c := by revert c; decide

theorem nxt3 : nxt (nxt (nxt c)) = prv c := by revert c; decide

end Cert.Kernel.Ring

end
-- ==== Proof.Kernel.Body.lean ====
import proofs.«900116_g7700000000000117_dist_ar_v7x_i4_i_m4096_n1024_bf16_1_alg».proof.Proof.Kernel.State
import proofs.«900116_g7700000000000117_dist_ar_v7x_i4_i_m4096_n1024_bf16_1_alg».proof.Proof.Kernel.PreFlat
import proofs.«900116_g7700000000000117_dist_ar_v7x_i4_i_m4096_n1024_bf16_1_alg».proof.Proof.Kernel.PostAsm
import proofs.«900116_g7700000000000117_dist_ar_v7x_i4_i_m4096_n1024_bf16_1_alg».proof.Proof.Kernel.StepRSc
import proofs.«900116_g7700000000000117_dist_ar_v7x_i4_i_m4096_n1024_bf16_1_alg».proof.Proof.Kernel.StepAG
import proofs.«900116_g7700000000000117_dist_ar_v7x_i4_i_m4096_n1024_bf16_1_alg».proof.Proof.Kernel.StepSW
import proofs.«900116_g7700000000000117_dist_ar_v7x_i4_i_m4096_n1024_bf16_1_alg».proof.Proof.Kernel.StepRS2
import proofs.«900116_g7700000000000117_dist_ar_v7x_i4_i_m4096_n1024_bf16_1_alg».proof.Proof.Kernel.Prologue

noncomputable section

namespace Cert.Kernel.Ring

open Cert.Kernel Cert.Kernel.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CellIx → ℕ) (c : Dev nD)

-- One device's body in program order: handshake, own stores and first transfers, 24 landings, 24 read-out waits, return.
theorem sound_body (Kt : PUnit → sProp 𝕄) :
    iprop(bodyPre m ρ K c ∗ (bodyPost m ρ c -∗ Kt ⟨⟩))
      ⊢ wp frame (wpE (defs₀ (F := F)) 𝒱₀ c none) Set.univ (theBody (F := F)) Kt := by
  unfold theBody
  simp only [cc0_body_eq_skeleton]; unfold cc0_body_skel
  simp only [k0_part39_eq_skeleton]; unfold k0_part39_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel
  simp only [semSignalWord, semWaitWord, Prog.lift, Prog.bind_op, Prog.bind_ret, Prog.pure_eq_ret, wp_deviceId]
  iintro ⟨Hpre, Hk⟩
  ihave Hpre := (pre_flat m ρ K c) $$ Hpre
  icases Hpre with ⟨#Hsh, Hbar, HGA, HGB, HGC, HGD, Hscr, HO, Hx, ⟨%f, Hout⟩⟩
  iapply (pro_barrier m ρ K c Kt _ ⟨_, k0_dev1_lt c⟩ ⟨_, k0_dev2_lt c⟩ (Fin.ext (k0_dev1_eq c)) (Fin.ext (k0_dev2_eq c)) _ _ _ rfl rfl rfl)
  iframe Hsh Hbar Hscr HO
  iintro ⟨Hsp, Hsn, HO⟩
  unfold slots6
  icases Hsp with ⟨Zp_00, Zp_10, Zp_01, Zp_11, Zp_02, Zp_12⟩
  icases Hsn with ⟨Zn_00, Zn_10, Zn_01, Zn_11, Zn_02, Zn_12⟩
  ihave Hc := (out_split_at c c f).1 $$ Hout
  icases Hc with ⟨Hc0, Hc1, Hc2, Hc3⟩
  iapply (pro_chunk m ρ c c Kt _ (k0_off1 c) _ (k0_off1_ch c) _ _ k0_pay1 rfl _ _ f)
  iframe Hx Hc0
  iintro ⟨Hx, Hc0⟩
  ihave Hp0 := (chunk_split c c (X m ρ c)).1 $$ Hc0
  icases Hp0 with ⟨P0_00, P0_01, P0_10, P0_11⟩
  iapply (pro_send0T m ρ K c 0 0 Kt _ (k0_off2 c 0#32 0#32) _ (k0_off2_pc c 0 0) ⟨_, k0_dev3_lt c⟩ ((Fin.ext (k0_dev3_eq c)).trans (dn0 c).symm) ![0, 0, 0, 0, 0] _ rfl _ _ rfl rfl _ _ _ _ 0 rfl)
  rw [dn0 c]
  iframe Hsh P0_00 Zn_00 HGA HO
  iintro ⟨TA, HO⟩
  iapply (pro_send0T m ρ K c 1 0 Kt _ (k0_off3 c 0#32 0#32) _ (k0_off3_pc c 0 0) ⟨_, k0_dev4_lt c⟩ ((Fin.ext (k0_dev4_eq c)).trans (dn1 c).symm) ![1, 0, 0, 0, 0] _ rfl _ _ rfl rfl _ _ _ _ 1 rfl)
  rw [dn1 c]
  iframe Hsh P0_10 Zp_00 HGB HO
  iintro ⟨TB, HO⟩
  iapply (pro_send0T m ρ K c 0 1 Kt _ (k0_off2 c 0#32 256#32) _ (k0_off2_pc c 0 1) ⟨_, k0_dev5_lt c⟩ ((Fin.ext (k0_dev5_eq c)).trans (dn0 c).symm) ![0, 0, 1, 0, 0] _ rfl _ _ rfl rfl _ _ _ _ 2 rfl)
  rw [dn0 c]
  iframe Hsh P0_01 Zn_10 HGC HO
  iintro ⟨TC, HO⟩
  iapply (pro_send0T m ρ K c 1 1 Kt _ (k0_off3 c 0#32 256#32) _ (k0_off3_pc c 0 1) ⟨_, k0_dev6_lt c⟩ ((Fin.ext (k0_dev6_eq c)).trans (dn1 c).symm) ![1, 0, 1, 0, 0] _ rfl _ _ rfl rfl _ _ _ _ 3 rfl)
  rw [dn1 c]
  iframe Hsh P0_11 Zp_10 HGD HO
  iintro ⟨TD, HO⟩
  iapply (pro_chunk m ρ c (nxt c) Kt _ (k0_off4 c 1#32) _ (k0_off4_ch c 0) _ _ k0_pay2 rfl _ _ f)
  iframe Hx Hc1
  iintro ⟨Hx, Hc1⟩
  ihave Hp1 := (chunk_split c (nxt c) (X m ρ c)).1 $$ Hc1
  icases Hp1 with ⟨P1_00, P1_01, P1_10, P1_11⟩
  iapply (pro_chunk m ρ c (nxt (nxt c)) Kt _ (k0_off4 c 2#32) _ (k0_off4_ch c 1) _ _ k0_pay3 rfl _ _ f)
  iframe Hx Hc2
  iintro ⟨Hx, Hc2⟩
  ihave Hp2 := (chunk_split c (nxt (nxt c)) (X m ρ c)).1 $$ Hc2
  icases Hp2 with ⟨P2_00, P2_01, P2_10, P2_11⟩
  iapply (pro_chunk m ρ c (prv c) Kt _ (k0_off4 c 3#32) _ ((k0_off4_ch c 2).trans (congrArg chOff (nxt3 c))) _ _ k0_pay4 rfl _ _ f)
  iframe Hx Hc3
  iintro ⟨Hx, Hc3⟩
  ihave Hp3 := (chunk_split c (prv c) (X m ρ c)).1 $$ Hc3
  icases Hp3 with ⟨P3_00, P3_01, P3_10, P3_11⟩
  ihave HL00 := (lane0_of m ρ c 0 0) $$ [P3_00 P2_00 P1_00 Zn_01 Zn_02 TA]
  · rw [up0_3 c, up0_2 c, up0_1 c, dn0 c]; iframe
  ihave HL10 := (lane0_of m ρ c 1 0) $$ [P1_10 P2_10 P3_10 Zp_01 Zp_02 TB]
  · rw [up1_3 c, up1_2 c, up1_1 c, dn1 c]; iframe
  ihave HL01 := (lane0_of m ρ c 0 1) $$ [P3_01 P2_01 P1_01 Zn_11 Zn_12 TC]
  · rw [up0_3 c, up0_2 c, up0_1 c, dn0 c]; iframe
  ihave HL11 := (lane0_of m ρ c 1 1) $$ [P1_11 P2_11 P3_11 Zp_11 Zp_12 TD]
  · rw [up1_3 c, up1_2 c, up1_1 c, dn1 c]; iframe
  iapply (step_rs m ρ K c 0 0 0 (by decide) 0 rfl Kt _ _ rfl ![0, 0, 0, 0, 0] _ rfl _ _ (k0_off5 c 0#32 0#32) _ (k0_off5_pc c 0 0) _ _ _ k0_pay5 rfl _ _ (k0_off2 c 1#32 0#32) _ ((k0_off2_pc c 1 0).trans (k0_off5_pc c 0 0).symm) ⟨_, k0_dev7_lt c⟩ (Fin.ext (k0_dev7_eq c)) ![0, 1, 0, 0, 0] _ rfl _ _ rfl rfl _ _ _ _ 0 0 rfl)
  iframe Hsh HL00 HO
  iintro ⟨HL00, HO⟩
  iapply (step_rs m ρ K c 1 0 0 (by decide) 0 rfl Kt _ _ rfl ![1, 0, 0, 0, 0] _ rfl _ _ (k0_off6 c 0#32 0#32) _ (k0_off6_pc c 0 0) _ _ _ k0_pay6 rfl _ _ (k0_off3 c 1#32 0#32) _ ((k0_off3_pc c 1 0).trans (k0_off6_pc c 0 0).symm) ⟨_, k0_dev8_lt c⟩ (Fin.ext (k0_dev8_eq c)) ![1, 1, 0, 0, 0] _ rfl _ _ rfl rfl _ _ _ _ 0 1 rfl)
  iframe Hsh HL10 HO
  iintro ⟨HL10, HO⟩
  iapply (step_rs m ρ K c 0 1 0 (by decide) 0 rfl Kt _ _ rfl ![0, 0, 1, 0, 0] _ rfl _ _ (k0_off5 c 0#32 256#32) _ (k0_off5_pc c 0 1) _ _ _ k0_pay7 rfl _ _ (k0_off2 c 1#32 256#32) _ ((k0_off2_pc c 1 1).trans (k0_off5_pc c 0 1).symm) ⟨_, k0_dev9_lt c⟩ (Fin.ext (k0_dev9_eq c)) ![0, 1, 1, 0, 0] _ rfl _ _ rfl rfl _ _ _ _ 0 2 rfl)
  iframe Hsh HL01 HO
  iintro ⟨HL01, HO⟩
  iapply (step_rs m ρ K c 1 1 0 (by decide) 0 rfl Kt _ _ rfl ![1, 0, 1, 0, 0] _ rfl _ _ (k0_off6 c 0#32 256#32) _ (k0_off6_pc c 0 1) _ _ _ k0_pay8 rfl _ _ (k0_off3 c 1#32 256#32) _ ((k0_off3_pc c 1 1).trans (k0_off6_pc c 0 1).symm) ⟨_, k0_dev10_lt c⟩ (Fin.ext (k0_dev10_eq c)) ![1, 1, 1, 0, 0] _ rfl _ _ rfl rfl _ _ _ _ 0 3 rfl)
  iframe Hsh HL11 HO
  iintro ⟨HL11, HO⟩
  iapply (step_rs m ρ K c 0 0 1 (by decide) 1 rfl Kt _ _ rfl ![0, 1, 0, 0, 0] _ rfl _ _ (k0_off5 c 1#32 0#32) _ (k0_off5_pc c 1 0) _ _ _ k0_pay9 rfl _ _ (k0_off2 c 2#32 0#32) _ ((k0_off2_pc c 2 0).trans (k0_off5_pc c 1 0).symm) ⟨_, k0_dev11_lt c⟩ (Fin.ext (k0_dev11_eq c)) ![0, 2, 0, 0, 0] _ rfl _ _ rfl rfl _ _ _ _ 0 4 rfl)
  iframe Hsh HL00 HO
  iintro ⟨HL00, HO⟩
  iapply (step_rs m ρ K c 1 0 1 (by decide) 1 rfl Kt _ _ rfl ![1, 1, 0, 0, 0] _ rfl _ _ (k0_off6 c 1#32 0#32) _ (k0_off6_pc c 1 0) _ _ _ k0_pay10 rfl _ _ (k0_off3 c 2#32 0#32) _ ((k0_off3_pc c 2 0).trans (k0_off6_pc c 1 0).symm) ⟨_, k0_dev12_lt c⟩ (Fin.ext (k0_dev12_eq c)) ![1, 2, 0, 0, 0] _ rfl _ _ rfl rfl _ _ _ _ 0 5 rfl)
  iframe Hsh HL10 HO
  iintro ⟨HL10, HO⟩
  iapply (step_rs m ρ K c 0 1 1 (by decide) 1 rfl Kt _ _ rfl ![0, 1, 1, 0, 0] _ rfl _ _ (k0_off5 c 1#32 256#32) _ (k0_off5_pc c 1 1) _ _ _ k0_pay11 rfl _ _ (k0_off2 c 2#32 256#32) _ ((k0_off2_pc c 2 1).trans (k0_off5_pc c 1 1).symm) ⟨_, k0_dev13_lt c⟩ (Fin.ext (k0_dev13_eq c)) ![0, 2, 1, 0, 0] _ rfl _ _ rfl rfl _ _ _ _ 0 6 rfl)
  iframe Hsh HL01 HO
  iintro ⟨HL01, HO⟩
  iapply (step_rs m ρ K c 1 1 1 (by decide) 1 rfl Kt _ _ rfl ![1, 1, 1, 0, 0] _ rfl _ _ (k0_off6 c 1#32 256#32) _ (k0_off6_pc c 1 1) _ _ _ k0_pay12 rfl _ _ (k0_off3 c 2#32 256#32) _ ((k0_off3_pc c 2 1).trans (k0_off6_pc c 1 1).symm) ⟨_, k0_dev14_lt c⟩ (Fin.ext (k0_dev14_eq c)) ![1, 2, 1, 0, 0] _ rfl _ _ rfl rfl _ _ _ _ 0 7 rfl)
  iframe Hsh HL11 HO
  iintro ⟨HL11, HO⟩
  iapply (step_rs2 m ρ K c 0 0 Kt _ _ rfl ![0, 2, 0, 0, 0] _ rfl _ _ (k0_off5 c 2#32 0#32) _ (rs2_off5 c 0) _ _ _ k0_pay13 rfl _ _ (k0_off7 c 0#32 0#32) _ (rs2_off7 c 0) ⟨_, k0_dev15_lt c⟩ (Fin.ext (k0_dev15_eq c)) _ _ rfl rfl _ _ _ _ 8 rfl)
  iframe Hsh HL00 HO
  iintro ⟨HL00, HO⟩
  iapply (step_rs2 m ρ K c 1 0 Kt _ _ rfl ![1, 2, 0, 0, 0] _ rfl _ _ (k0_off6 c 2#32 0#32) _ (rs2_off6 c 0) _ _ _ k0_pay14 rfl _ _ (k0_off8 c 0#32 0#32) _ (rs2_off8 c 0) ⟨_, k0_dev16_lt c⟩ (Fin.ext (k0_dev16_eq c)) _ _ rfl rfl _ _ _ _ 9 rfl)
  iframe Hsh HL10 HO
  iintro ⟨HL10, HO⟩
  iapply (step_rs2 m ρ K c 0 1 Kt _ _ rfl ![0, 2, 1, 0, 0] _ rfl _ _ (k0_off5 c 2#32 256#32) _ (rs2_off5 c 1) _ _ _ k0_pay15 rfl _ _ (k0_off7 c 0#32 256#32) _ (rs2_off7 c 1) ⟨_, k0_dev17_lt c⟩ (Fin.ext (k0_dev17_eq c)) _ _ rfl rfl _ _ _ _ 10 rfl)
  iframe Hsh HL01 HO
  iintro ⟨HL01, HO⟩
  iapply (step_rs2 m ρ K c 1 1 Kt _ _ rfl ![1, 2, 1, 0, 0] _ rfl _ _ (k0_off6 c 2#32 256#32) _ (rs2_off6 c 1) _ _ _ k0_pay16 rfl _ _ (k0_off8 c 0#32 256#32) _ (rs2_off8 c 1) ⟨_, k0_dev18_lt c⟩ (Fin.ext (k0_dev18_eq c)) _ _ rfl rfl _ _ _ _ 11 rfl)
  iframe Hsh HL11 HO
  iintro ⟨HL11, HO⟩
  iapply (ag_hop m ρ K c 0 0 3 4 3 c (agHop3 m ρ c 0 0) Kt _ _ rfl (k0_off2 c 0#32 0#32) _ _ _ (k0_off7 c 1#32 0#32) _ ((k0_off7_pc c 1 0).trans (congrArg (fun q => pcOff q 0 0) (up_dn 0 c))) ⟨_, k0_dev19_lt c⟩ (Fin.ext (k0_dev19_eq c)) _ _ rfl rfl _ _ _ _ 12 rfl)
  iframe Hsh HL00 HO
  iintro ⟨HL00, HO⟩
  iapply (ag_hop m ρ K c 1 0 3 4 3 c (agHop3 m ρ c 1 0) Kt _ _ rfl (k0_off3 c 0#32 0#32) _ _ _ (k0_off8 c 1#32 0#32) _ ((k0_off8_pc c 1 0).trans (congrArg (fun q => pcOff q 1 0) (up_dn 1 c))) ⟨_, k0_dev20_lt c⟩ (Fin.ext (k0_dev20_eq c)) _ _ rfl rfl _ _ _ _ 13 rfl)
  iframe Hsh HL10 HO
  iintro ⟨HL10, HO⟩
  iapply (ag_hop m ρ K c 0 1 3 4 3 c (agHop3 m ρ c 0 1) Kt _ _ rfl (k0_off2 c 0#32 256#32) _ _ _ (k0_off7 c 1#32 256#32) _ ((k0_off7_pc c 1 1).trans (congrArg (fun q => pcOff q 0 1) (up_dn 0 c))) ⟨_, k0_dev21_lt c⟩ (Fin.ext (k0_dev21_eq c)) _ _ rfl rfl _ _ _ _ 14 rfl)
  iframe Hsh HL01 HO
  iintro ⟨HL01, HO⟩
  iapply (ag_hop m ρ K c 1 1 3 4 3 c (agHop3 m ρ c 1 1) Kt _ _ rfl (k0_off3 c 0#32 256#32) _ _ _ (k0_off8 c 1#32 256#32) _ ((k0_off8_pc c 1 1).trans (congrArg (fun q => pcOff q 1 1) (up_dn 1 c))) ⟨_, k0_dev22_lt c⟩ (Fin.ext (k0_dev22_eq c)) _ _ rfl rfl _ _ _ _ 15 rfl)
  iframe Hsh HL11 HO
  iintro ⟨HL11, HO⟩
  iapply (ag_hop m ρ K c 0 0 4 5 4 (up 0 c) (agHop4 m ρ c 0 0) Kt _ _ rfl (k0_off2 c 1#32 0#32) _ _ _ (k0_off7 c 2#32 0#32) _ ((k0_off7_pc c 2 0).trans (congrArg (fun q => pcOff (up 0 q) 0 0) (up_dn 0 c))) ⟨_, k0_dev23_lt c⟩ (Fin.ext (k0_dev23_eq c)) _ _ rfl rfl _ _ _ _ 16 rfl)
  iframe Hsh HL00 HO
  iintro ⟨HL00, HO⟩
  iapply (ag_hop m ρ K c 1 0 4 5 4 (up 1 c) (agHop4 m ρ c 1 0) Kt _ _ rfl (k0_off3 c 1#32 0#32) _ _ _ (k0_off8 c 2#32 0#32) _ ((k0_off8_pc c 2 0).trans (congrArg (fun q => pcOff (up 1 q) 1 0) (up_dn 1 c))) ⟨_, k0_dev24_lt c⟩ (Fin.ext (k0_dev24_eq c)) _ _ rfl rfl _ _ _ _ 17 rfl)
  iframe Hsh HL10 HO
  iintro ⟨HL10, HO⟩
  iapply (ag_hop m ρ K c 0 1 4 5 4 (up 0 c) (agHop4 m ρ c 0 1) Kt _ _ rfl (k0_off2 c 1#32 256#32) _ _ _ (k0_off7 c 2#32 256#32) _ ((k0_off7_pc c 2 1).trans (congrArg (fun q => pcOff (up 0 q) 0 1) (up_dn 0 c))) ⟨_, k0_dev25_lt c⟩ (Fin.ext (k0_dev25_eq c)) _ _ rfl rfl _ _ _ _ 18 rfl)
  iframe Hsh HL01 HO
  iintro ⟨HL01, HO⟩
  iapply (ag_hop m ρ K c 1 1 4 5 4 (up 1 c) (agHop4 m ρ c 1 1) Kt _ _ rfl (k0_off3 c 1#32 256#32) _ _ _ (k0_off8 c 2#32 256#32) _ ((k0_off8_pc c 2 1).trans (congrArg (fun q => pcOff (up 1 q) 1 1) (up_dn 1 c))) ⟨_, k0_dev26_lt c⟩ (Fin.ext (k0_dev26_eq c)) _ _ rfl rfl _ _ _ _ 19 rfl)
  iframe Hsh HL11 HO
  iintro ⟨HL11, HO⟩
  iapply (step_last m ρ K c 0 0 Kt _ _ rfl (k0_off2 c 2#32 0#32) _ _ _)
  iframe Hsh HL00 HO
  iintro ⟨HL00, HO⟩
  iapply (step_last m ρ K c 1 0 Kt _ _ rfl (k0_off3 c 2#32 0#32) _ _ _)
  iframe Hsh HL10 HO
  iintro ⟨HL10, HO⟩
  iapply (step_last m ρ K c 0 1 Kt _ _ rfl (k0_off2 c 2#32 256#32) _ _ _)
  iframe Hsh HL01 HO
  iintro ⟨HL01, HO⟩
  iapply (step_last m ρ K c 1 1 Kt _ _ rfl (k0_off3 c 2#32 256#32) _ _ _)
  iframe Hsh HL11 HO
  iintro ⟨HL11, HO⟩
  ihave HE := (mid_emid m ρ K c) $$ [HL00 HL10 HL01 HL11 HO Hx]
  · unfold Mid; iframe Hsh HL00 HL10 HL01 HL11 Hx; iexact HO
  iapply (step_sw m ρ K c 0 0 0 0 rfl Kt _ _ rfl (stgPc ![0, 0, 0, 0, 0] inb_S2x3x2x256x1024_S1x1x1x256x1024_0_0_0_0_0) (k0_off2 c 0#32 0#32) _ _ _)
  iframe HE
  iintro HE
  iapply (step_sw m ρ K c 1 0 0 1 rfl Kt _ _ rfl (stgPc ![1, 0, 0, 0, 0] inb_S2x3x2x256x1024_S1x1x1x256x1024_1_0_0_0_0) (k0_off3 c 0#32 0#32) _ _ _)
  iframe HE
  iintro HE
  iapply (step_sw m ρ K c 0 1 0 2 rfl Kt _ _ rfl (stgPc ![0, 0, 1, 0, 0] inb_S2x3x2x256x1024_S1x1x1x256x1024_0_0_1_0_0) (k0_off2 c 0#32 256#32) _ _ _)
  iframe HE
  iintro HE
  iapply (step_sw m ρ K c 1 1 0 3 rfl Kt _ _ rfl (stgPc ![1, 0, 1, 0, 0] inb_S2x3x2x256x1024_S1x1x1x256x1024_1_0_1_0_0) (k0_off3 c 0#32 256#32) _ _ _)
  iframe HE
  iintro HE
  iapply (step_sw m ρ K c 0 0 1 4 rfl Kt _ _ rfl (stgPc ![0, 1, 0, 0, 0] inb_S2x3x2x256x1024_S1x1x1x256x1024_0_1_0_0_0) (k0_off2 c 1#32 0#32) _ _ _)
  iframe HE
  iintro HE
  iapply (step_sw m ρ K c 1 0 1 5 rfl Kt _ _ rfl (stgPc ![1, 1, 0, 0, 0] inb_S2x3x2x256x1024_S1x1x1x256x1024_1_1_0_0_0) (k0_off3 c 1#32 0#32) _ _ _)
  iframe HE
  iintro HE
  iapply (step_sw m ρ K c 0 1 1 6 rfl Kt _ _ rfl (stgPc ![0, 1, 1, 0, 0] inb_S2x3x2x256x1024_S1x1x1x256x1024_0_1_1_0_0) (k0_off2 c 1#32 256#32) _ _ _)
  iframe HE
  iintro HE
  iapply (step_sw m ρ K c 1 1 1 7 rfl Kt _ _ rfl (stgPc ![1, 1, 1, 0, 0] inb_S2x3x2x256x1024_S1x1x1x256x1024_1_1_1_0_0) (k0_off3 c 1#32 256#32) _ _ _)
  iframe HE
  iintro HE
  iapply (step_sw m ρ K c 0 0 2 8 rfl Kt _ _ rfl (stgPc ![0, 2, 0, 0, 0] inb_S2x3x2x256x1024_S1x1x1x256x1024_0_2_0_0_0) (k0_off2 c 2#32 0#32) _ _ _)
  iframe HE
  iintro HE
  iapply (step_sw m ρ K c 1 0 2 9 rfl Kt _ _ rfl (stgPc ![1, 2, 0, 0, 0] inb_S2x3x2x256x1024_S1x1x1x256x1024_1_2_0_0_0) (k0_off3 c 2#32 0#32) _ _ _)
  iframe HE
  iintro HE
  iapply (step_sw m ρ K c 0 1 2 10 rfl Kt _ _ rfl (stgPc ![0, 2, 1, 0, 0] inb_S2x3x2x256x1024_S1x1x1x256x1024_0_2_1_0_0) (k0_off2 c 2#32 256#32) _ _ _)
  iframe HE
  iintro HE
  iapply (step_sw m ρ K c 1 1 2 11 rfl Kt _ _ rfl (stgPc ![1, 2, 1, 0, 0] inb_S2x3x2x256x1024_S1x1x1x256x1024_1_2_1_0_0) (k0_off3 c 2#32 256#32) _ _ _)
  iframe HE
  iintro HE
  iapply (step_sw m ρ K c 0 0 3 12 rfl Kt _ _ rfl _ (k0_off7 c 0#32 0#32) _ _ _)
  iframe HE
  iintro HE
  iapply (step_sw m ρ K c 1 0 3 13 rfl Kt _ _ rfl _ (k0_off8 c 0#32 0#32) _ _ _)
  iframe HE
  iintro HE
  iapply (step_sw m ρ K c 0 1 3 14 rfl Kt _ _ rfl _ (k0_off7 c 0#32 256#32) _ _ _)
  iframe HE
  iintro HE
  iapply (step_sw m ρ K c 1 1 3 15 rfl Kt _ _ rfl _ (k0_off8 c 0#32 256#32) _ _ _)
  iframe HE
  iintro HE
  iapply (step_sw m ρ K c 0 0 4 16 rfl Kt _ _ rfl _ (k0_off7 c 1#32 0#32) _ _ _)
  iframe HE
  iintro HE
  iapply (step_sw m ρ K c 1 0 4 17 rfl Kt _ _ rfl _ (k0_off8 c 1#32 0#32) _ _ _)
  iframe HE
  iintro HE
  iapply (step_sw m ρ K c 0 1 4 18 rfl Kt _ _ rfl _ (k0_off7 c 1#32 256#32) _ _ _)
  iframe HE
  iintro HE
  iapply (step_sw m ρ K c 1 1 4 19 rfl Kt _ _ rfl _ (k0_off8 c 1#32 256#32) _ _ _)
  iframe HE
  iintro HE
  iapply (step_sw m ρ K c 0 0 5 20 rfl Kt _ _ rfl _ (k0_off7 c 2#32 0#32) _ _ _)
  iframe HE
  iintro HE
  iapply (step_sw m ρ K c 1 0 5 21 rfl Kt _ _ rfl _ (k0_off8 c 2#32 0#32) _ _ _)
  iframe HE
  iintro HE
  iapply (step_sw m ρ K c 0 1 5 22 rfl Kt _ _ rfl _ (k0_off7 c 2#32 256#32) _ _ _)
  iframe HE
  iintro HE
  iapply (step_sw m ρ K c 1 1 5 23 rfl Kt _ _ rfl _ (k0_off8 c 2#32 256#32) _ _ _)
  iframe HE
  iintro HE
  rw [wp_ret]
  imodintro
  iapply Hk
  iapply (post_assemble m ρ K c)
  iexact HE

end Cert.Kernel.Ring

end
-- ==== Proof.Value.lean ====
import proofs.«900116_g7700000000000117_dist_ar_v7x_i4_i_m4096_n1024_bf16_1_alg».proof.Proof.KernelIdeal.Setup
import proofs.«900116_g7700000000000117_dist_ar_v7x_i4_i_m4096_n1024_bf16_1_alg».proof.Proof.Gen.ReferenceIdeal.Run
import proofs.«900116_g7700000000000117_dist_ar_v7x_i4_i_m4096_n1024_bf16_1_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.Layout

noncomputable section

namespace Cert.ReferenceIdeal.RefValue

open Idealize.ShloMosaic Idealize.ShloMosaic.TcCoe Idealize.SL.Sem
open Cert.ReferenceIdeal Cert.ReferenceIdeal.Gen Cert.ReferenceIdeal.Value
open Idealize.ShloMosaic.ValueIdx

def srcIdx (i : S4096x1024.Idx) (k : Fin 4) : S16384x1024.Idx :=
  fun a => match a with
    | ⟨0, _⟩ => ⟨4096 * k.val + (i 0).val, by have h0 : (i 0).val < 4096 := (i 0).isLt; have := k.isLt; show 4096 * k.val + (i 0).val < 16384; omega⟩
    | ⟨1, _⟩ => ⟨(i 1).val, (i 1).isLt⟩

-- The reference at an index: the sum over the four blocks of the argument of the block's element there.
theorem ref_apply (x0 : (⟨S16384x1024, .f32⟩ : BufTy).Contents (Elt Ideal)) (i : S4096x1024.Idx) :
    Cert.ReferenceIdeal.Read.val_main_v2 (F := Ideal) x0 i = ∑ k : Fin 4, x0 (srcIdx i k) := by
  rw [Read.val_main_v2_apply, Ideal.truncf_def, Read.val_main_v1_apply, Read.val_main_cst_apply]
  show Ideal.ofBits .f32 0x00000000#32 + _ = _
  rw [Ideal.ofBits_zero_f32, zero_add]
  refine Finset.sum_congr rfl fun k _ => ?_
  rw [Read.val_main_v0_apply]
  refine congrArg x0 (funext fun a => Fin.ext ?_)
  have h0 : (i 0).val < 4096 := (i 0).isLt
  have h1 : (i 1).val < 1024 := (i 1).isLt
  have hk := k.isLt
  match a with
  | ⟨0, _⟩ => show ((k.val * 4096 + (i 0).val) * 1024 + (i 1).val) / 1024 = 4096 * k.val + (i 0).val; omega
  | ⟨1, _⟩ => show ((k.val * 4096 + (i 0).val) * 1024 + (i 1).val) % 1024 = (i 1).val; omega

end Cert.ReferenceIdeal.RefValue

namespace Cert.KernelIdeal.Ring

open Cert.KernelIdeal Cert.KernelIdeal.Gen

open Idealize.ShloMosaic
open Idealize.ShloMosaic.TcCoe
open Idealize.SL.Sem
open Idealize.ShloMosaic.ValueIdx

variable {F : FTy → Type} [FloatOps F]

variable (m : (ℓ : Loc nD τ sig) → Buf (Elt F) ℓ) (ρ : Dev nD → PrngReg)

local infixl:65 " +ₑ " => @HAdd.hAdd EReal EReal EReal _

section Lane
variable (d j : Fin 2)

theorem landIn_emb (h : Fin 3) (q : Dev nD) (src : OC (F := F)) (x : S256x1024.Idx) :
    landIn (F := F) d j h q src ((slot d j h).view.emb x) = src ((outPc q d j).view.emb x) := by
  unfold landIn
  rw [View.write_emb_of_mem _ _ (Finset.mem_univ x)]
  rfl

theorem accOn_emb (h : Fin 3) (q : Dev nD) (f : OC (F := Ideal)) (s : SC (F := Ideal)) (x : S256x1024.Idx) :
    accOn (F := Ideal) d j h q f s ((outPc q d j).view.emb x)
      = f ((outPc q d j).view.emb x) +ₑ s ((slot d j h).view.emb x) := by
  unfold accOn
  rw [View.write_emb_of_mem _ _ (Finset.mem_univ x)]
  unfold k0_pay5
  dsimp only
  rw [shapeCast_self]
  rfl

end Lane

section Levels
variable (m : (ℓ : Loc nD τ sig) → Buf (Elt Ideal) ℓ) (ρ : Dev nD → PrngReg) (d j : Fin 2)

theorem X_apply (e : Dev nD) (i : S4096x1024.Idx) : X (F := Ideal) m ρ e i = xs (F := Ideal) m ρ e i := rfl

-- After its three hops a device holds, on the piece three devices up, the sum of the four devices' blocks.
theorem A2_emb (e : Dev nD) (x : S256x1024.Idx) :
    A2 (F := Ideal) m ρ d j e ((outPc (up d (up d (up d e))) d j).view.emb x)
      = xs (F := Ideal) m ρ e ((outPc (up d (up d (up d e))) d j).view.emb x)
        +ₑ (xs (F := Ideal) m ρ (up d e) ((outPc (up d (up d (up d e))) d j).view.emb x)
        +ₑ (xs (F := Ideal) m ρ (up d (up d e)) ((outPc (up d (up d (up d e))) d j).view.emb x)
        +ₑ xs (F := Ideal) m ρ (up d (up d (up d e))) ((outPc (up d (up d (up d e))) d j).view.emb x))) := by
  unfold A2 S2 A1 S1 A0 S0
  rw [accOn_emb, landIn_emb, accOn_emb, landIn_emb, accOn_emb, landIn_emb]
  rfl

end Levels

section Sum
variable (m : (ℓ : Loc nD τ sig) → Buf (Elt Ideal) ℓ) (ρ : Dev nD → PrngReg)

-- Going up the ring from any device, in either direction, meets every device once.
theorem sum_ring (g : Dev nD → EReal) (d : Fin 2) (q : Dev nD) :
    g (up d q) +ₑ (g (up d (up d q)) +ₑ (g (up d (up d (up d q))) +ₑ g q)) = ∑ e : Dev nD, g e := by
  have hu : (Finset.univ : Finset (Dev nD)) = {up d q, up d (up d q), up d (up d (up d q)), q} := by
    revert d q; decide
  have h1 : up d q ∉ ({up d (up d q), up d (up d (up d q)), q} : Finset (Dev nD)) := by revert d q; decide
  have h2 : up d (up d q) ∉ ({up d (up d (up d q)), q} : Finset (Dev nD)) := by revert d q; decide
  have h3 : up d (up d (up d q)) ∉ ({q} : Finset (Dev nD)) := by revert d q; decide
  rw [hu, Finset.sum_insert h1, Finset.sum_insert h2, Finset.sum_insert h3, Finset.sum_singleton]

theorem up4 (d : Fin 2) (q : Dev nD) : up d (up d (up d (up d q))) = q := by revert d q; decide

theorem A2_at (d j : Fin 2) (q : Dev nD) (i : S4096x1024.Idx) (x : S256x1024.Idx)
    (hx : (outPc q d j).view.emb x = i) :
    A2 (F := Ideal) m ρ d j (up d q) i = @Finset.sum (Dev nD) EReal _ Finset.univ (fun e => xs (F := Ideal) m ρ e i) := by
  subst hx
  have h := A2_emb m ρ d j (up d q) x
  rw [up4] at h
  rw [h]
  exact sum_ring (fun e => xs (F := Ideal) m ρ e ((outPc q d j).view.emb x)) d q

def pcIdx (i : S4096x1024.Idx) : S256x1024.Idx :=
  ix2 ⟨(i 0).val % 256, Nat.mod_lt _ (by decide)⟩ ⟨(i 1).val, (i 1).isLt⟩

-- The kernel's result at an index is the sum of the four devices' blocks there.
theorem outAt_apply (i : S4096x1024.Idx) :
    outAt (F := Ideal) m ρ i = @Finset.sum (Dev nD) EReal _ Finset.univ (fun e => xs (F := Ideal) m ρ e i) := by
  unfold outAt
  refine A2_at m ρ _ _ _ i (pcIdx i) (funext fun a => Fin.ext ?_)
  have h0 : (i 0).val < 4096 := (i 0).isLt
  match a with
  | ⟨0, _⟩ =>
    show 1024 * ((i 0).val / 1024) + 512 * ((i 0).val % 1024 / 512) + 256 * ((i 0).val % 512 / 256) + 1 * ((i 0).val % 256) = (i 0).val
    omega
  | ⟨1, _⟩ =>
    show 0 + 1 * (i 1).val = (i 1).val
    omega

end Sum

section Join

theorem xs_eq (e : Dev nD) : xs (F := F) m ρ e = m ((e : Thread nD τ).loc main_arg0) := by
  have hz0 : (fun a => (win0_0.index (0 : Fin 1)) a * main_arg0.ty.shape.size a) = fun _ => 0 :=
    funext fun a => by fin_cases a <;> decide
  have hr0 := fun f => Memref.read_access_unit_zero (Elt F) main_arg0 hz0 (fun a => by fin_cases a <;> decide) f
  unfold xs s₀
  rw [hr0]

-- When each device's argument is its block of the reference's argument, every device's result is the reference's.
theorem outAt_eq_ref (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) :
    outAt (F := Ideal) m ρ = Cert.ReferenceIdeal.Read.val_main_v2 (F := Ideal) (m' (((0 : Dev Cert.ReferenceIdeal.nD).tc : Thread Cert.ReferenceIdeal.nD Cert.ReferenceIdeal.τ).loc Cert.ReferenceIdeal.main_arg0)) := by
  funext i
  rw [outAt_apply, Cert.ReferenceIdeal.RefValue.ref_apply]
  refine Finset.sum_congr (M := EReal) rfl fun k _ => ?_
  rw [xs_eq]
  have hk := hagree k
  rw [hk]
  rw [Layout.block_apply]
  refine congrArg (m' _) (funext fun a => Fin.ext ?_)
  match a with
  | ⟨0, _⟩ => show k.val * 4096 + (i 0).val = 4096 * k.val + (i 0).val; omega
  | ⟨1, _⟩ => rfl

end Join

end Cert.KernelIdeal.Ring

end
-- ==== Proof.lean ====
import proofs.«900116_g7700000000000117_dist_ar_v7x_i4_i_m4096_n1024_bf16_1_alg».proof.Defs
import proofs.«900116_g7700000000000117_dist_ar_v7x_i4_i_m4096_n1024_bf16_1_alg».proof.Proof.Gen.ReferenceIdeal
import proofs.«900116_g7700000000000117_dist_ar_v7x_i4_i_m4096_n1024_bf16_1_alg».proof.Proof.Gen.Pre_finite_inputs_Kernel
import proofs.«900116_g7700000000000117_dist_ar_v7x_i4_i_m4096_n1024_bf16_1_alg».proof.Proof.Gen.Pre_finite_inputs_ReferenceIdeal
import proofs.«900116_g7700000000000117_dist_ar_v7x_i4_i_m4096_n1024_bf16_1_alg».proof.Proof.KernelIdeal.Launch
import proofs.«900116_g7700000000000117_dist_ar_v7x_i4_i_m4096_n1024_bf16_1_alg».proof.Proof.KernelIdeal.Body
import proofs.«900116_g7700000000000117_dist_ar_v7x_i4_i_m4096_n1024_bf16_1_alg».proof.Proof.Kernel.Launch
import proofs.«900116_g7700000000000117_dist_ar_v7x_i4_i_m4096_n1024_bf16_1_alg».proof.Proof.Kernel.Body
import proofs.«900116_g7700000000000117_dist_ar_v7x_i4_i_m4096_n1024_bf16_1_alg».proof.Proof.Value

noncomputable section

namespace Cert.Proof

open Idealize.ShloMosaic Idealize.ShloMosaic.TcCoe Idealize.SL.Sem

-- Both frames of the kernel are its run read at the argument array, which the body never writes.
theorem frame_k : Cert.frame_Kernel := by
  intro m ρ _
  exact (θ_run Cert.Kernel.defs _ _).mono (fun _ h c => (h c (0 : Fin 2)).trans (Cert.Kernel.Ring.finalA_x m ρ c))
    (Cert.Kernel.Ring.run_main_of (F := Bits) m ρ (fun K c Kt => Cert.Kernel.Ring.sound_body m ρ K c Kt))

theorem frame_ki : Cert.frame_KernelIdeal := by
  intro m ρ _
  exact (θ_run Cert.KernelIdeal.defs _ _).mono (fun _ h c => (h c (0 : Fin 2)).trans (Cert.KernelIdeal.Ring.finalA_x m ρ c))
    (Cert.KernelIdeal.Ring.run_main_of (F := Ideal) m ρ (fun K c Kt => Cert.KernelIdeal.Ring.sound_body m ρ K c Kt))

theorem frame_r : Cert.frame_ReferenceIdeal := by
  intro m ρ _
  exact (θ_run Cert.ReferenceIdeal.defs _ _).mono (fun _ h c => (h c).2) (Cert.ReferenceIdeal.Value.run (F := Ideal) m ρ)

-- The common value is the reference's result; each device's result array is the all-reduced contents, which are that value.
theorem algebraic : Cert.algebraic_KernelIdeal_ReferenceIdeal := by
  intro m ρ m' ρ' _ hagree
  refine ⟨Cert.ReferenceIdeal.Read.val_main_v2 (F := Ideal)
    (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono
      (fun _ h c => ⟨(h c (1 : Fin 2)).trans ?_, (h c (0 : Fin 2)).trans (Cert.KernelIdeal.Ring.finalA_x m ρ c)⟩)
      (Cert.KernelIdeal.Ring.run_main_of (F := Ideal) m ρ (fun K c Kt => Cert.KernelIdeal.Ring.sound_body m ρ K c Kt))
    have hz : (fun a => (Cert.KernelIdeal.win0_1.index (0 : Fin 1)) a * Cert.KernelIdeal.main_v1.ty.shape.size a) = fun _ => 0 :=
      funext fun a => by fin_cases a <;> decide
    have hr := fun f => Memref.read_access_unit_zero (Elt Ideal) Cert.KernelIdeal.main_v1 hz (fun a => by fin_cases a <;> decide) f
    have ho := Cert.KernelIdeal.Ring.finalA_o (F := Ideal) m ρ c
    have hj := Cert.KernelIdeal.Ring.outAt_eq_ref m ρ m' hagree
    generalize Cert.KernelIdeal.Ring.outAt (F := Ideal) m ρ = O at ho hj
    rw [hr] at ho
    exact ho.trans hj
  · exact (θ_run Cert.ReferenceIdeal.defs _ _).mono
      (fun _ h => ⟨((h 0).1).trans (Cert.ReferenceIdeal.Read.val_main_v2_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_r, trivial, algebraic⟩

end Cert.Proof

end
